-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v173)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v173) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v234) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x1600000 : Shape := ⟨2, ![2, 1600000]⟩
abbrev S50000 : Shape := ⟨1, ![50000]⟩
abbrev S3x128x128 : Shape := ⟨3, ![3, 128, 128]⟩
abbrev S3x128 : Shape := ⟨2, ![3, 128]⟩
abbrev S128x1 : Shape := ⟨2, ![128, 1]⟩
abbrev S1 : Shape := ⟨1, ![1]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S50000 : S_.BroadcastsInDim S50000 (![] : Fin 0 → Fin S50000.rank)
  reducesTo_S50000_S_d0 : S50000.ReducesTo [0] S_
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg9 : FVec F S1 .f32) (main_v33 : IVec S_ 1) : IVec S_ 1 :=
  let main_v34 : FVec F S1 .f32 := Host.absf main_arg9
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  main_v38

def fn_part1 {F : FTy → Type} [FloatOps F] (main_arg6 : FVec F S3x128 .f32) (main_arg7 : FVec F S3x128 .f32) (main_arg8 : FVec F S128x1 .f32) (main_arg9 : FVec F S1 .f32) (main_v13 : IVec S_ 1) (main_v16 : IVec S3x128 1) : IVec S_ 1 :=
  let main_c_5 : IVec S_ 1 := constantI S_ 1 1#1
  let main_v17 : IVec S_ 1 := (fun x v => Host.reduce IntOp.andi x v reducesTo_S3x128_S_d0_1 h_S_) main_v16 main_c_5
  let main_v18 : IVec S_ 1 := andi main_v13 main_v17
  let main_v19 : FVec F S3x128 .f32 := Host.absf main_arg6
  let main_cst_6 : FVec F S_ .f32 := constant S_ .f32 0x7F800000#32
  let main_v20 : FVec F S3x128 .f32 := broadcastInDim S3x128 ![] bcast_S_S3x128 main_cst_6
  let main_v21 : IVec S3x128 1 := cmpf .olt main_v19 main_v20
  let main_c_7 : IVec S_ 1 := constantI S_ 1 1#1
  let main_v22 : IVec S_ 1 := (fun x v => Host.reduce IntOp.andi x v reducesTo_S3x128_S_d0_1 h_S_) main_v21 main_c_7
  let main_v23 : IVec S_ 1 := andi main_v18 main_v22
  let main_v24 : FVec F S3x128 .f32 := Host.absf main_arg7
  let main_cst_8 : FVec F S_ .f32 := constant S_ .f32 0x7F800000#32
  let main_v25 : FVec F S3x128 .f32 := broadcastInDim S3x128 ![] bcast_S_S3x128 main_cst_8
  let main_v26 : IVec S3x128 1 := cmpf .olt main_v24 main_v25
  let main_c_9 : IVec S_ 1 := constantI S_ 1 1#1
  let main_v27 : IVec S_ 1 := (fun x v => Host.reduce IntOp.andi x v reducesTo_S3x128_S_d0_1 h_S_) main_v26 main_c_9
  let main_v28 : IVec S_ 1 := andi main_v23 main_v27
  let main_v29 : FVec F S128x1 .f32 := Host.absf main_arg8
  let main_cst_10 : FVec F S_ .f32 := constant S_ .f32 0x7F800000#32
  let main_v30 : FVec F S128x1 .f32 := broadcastInDim S128x1 ![] bcast_S_S128x1 main_cst_10
  let main_v31 : IVec S128x1 1 := cmpf .olt main_v29 main_v30
  let main_c_11 : IVec S_ 1 := constantI S_ 1 1#1
  let main_v32 : IVec S_ 1 := (fun x v => Host.reduce IntOp.andi x v reducesTo_S128x1_S_d0_1 h_S_) main_v31 main_c_11
  let main_v33 : IVec S_ 1 := andi main_v28 main_v32
  fn_part2 (F := F) main_arg9 main_v33

def fn {F : FTy → Type} [FloatOps F] (main_arg0 : FVec F S50000x128 .f32) (main_arg1 : IVec S2x1600000 32) (main_arg2 : FVec F S50000 .f32) (main_arg3 : IVec S50000 32) (main_arg4 : FVec F S3x128x128 .f32) (main_arg5 : FVec F S3x128 .f32) (main_arg6 : FVec F S3x128 .f32) (main_arg7 : FVec F S3x128 .f32) (main_arg8 : FVec F S128x1 .f32) (main_arg9 : FVec F S1 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S50000 .f32 := Host.absf main_arg2
  let main_cst_0 : FVec F S_ .f32 := constant S_ .f32 0x7F800000#32
  let main_v5 : FVec F S50000 .f32 := broadcastInDim S50000 ![] bcast_S_S50000 main_cst_0
  let main_v6 : IVec S50000 1 := cmpf .olt main_v4 main_v5
  let main_c_1 : IVec S_ 1 := constantI S_ 1 1#1
  let main_v7 : IVec S_ 1 := (fun x v => Host.reduce IntOp.andi x v reducesTo_S50000_S_d0 h_S_) main_v6 main_c_1
  let main_v8 : IVec S_ 1 := andi main_v3 main_v7
  let main_v9 : FVec F S3x128x128 .f32 := Host.absf main_arg4
  let main_cst_2 : FVec F S_ .f32 := constant S_ .f32 0x7F800000#32
  let main_v10 : FVec F S3x128x128 .f32 := broadcastInDim S3x128x128 ![] bcast_S_S3x128x128 main_cst_2
  let main_v11 : IVec S3x128x128 1 := cmpf .olt main_v9 main_v10
  let main_c_3 : IVec S_ 1 := constantI S_ 1 1#1
  let main_v12 : IVec S_ 1 := (fun x v => Host.reduce IntOp.andi x v reducesTo_S3x128x128_S_d0_1_2 h_S_) main_v11 main_c_3
  let main_v13 : IVec S_ 1 := andi main_v8 main_v12
  let main_v14 : FVec F S3x128 .f32 := Host.absf main_arg5
  let main_cst_4 : FVec F S_ .f32 := constant S_ .f32 0x7F800000#32
  let main_v15 : FVec F S3x128 .f32 := broadcastInDim S3x128 ![] bcast_S_S3x128 main_cst_4
  let main_v16 : IVec S3x128 1 := cmpf .olt main_v14 main_v15
  fn_part1 (F := F) main_arg6 main_arg7 main_arg8 main_arg9 main_v13 main_v16
-- ==== Kernel.lean ====
abbrev S50000x128 : Shape := ⟨2, ![50000, 128]⟩
abbrev S2x1600000 : Shape := ⟨2, ![2, 1600000]⟩
abbrev S50000 : Shape := ⟨1, ![50000]⟩
abbrev S3x128x128 : Shape := ⟨3, ![3, 128, 128]⟩
abbrev S3x128 : Shape := ⟨2, ![3, 128]⟩
abbrev S128x1 : Shape := ⟨2, ![128, 1]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S50000x1 : Shape := ⟨2, ![50000, 1]⟩
abbrev S1x128x128 : Shape := ⟨3, ![1, 128, 128]⟩
abbrev S128x128 : Shape := ⟨2, ![128, 128]⟩
abbrev S5000x128 : Shape := ⟨2, ![5000, 128]⟩
abbrev S5000x1 : Shape := ⟨2, ![5000, 1]⟩
abbrev S1600000x128 : Shape := ⟨2, ![1600000, 128]⟩
abbrev S1x128 : Shape := ⟨2, ![1, 128]⟩
abbrev S128 : Shape := ⟨1, ![128]⟩
abbrev S64x128 : Shape := ⟨2, ![64, 128]⟩
abbrev S5000x64 : Shape := ⟨2, ![5000, 64]⟩
abbrev S64 : Shape := ⟨1, ![64]⟩
abbrev S64x1 : Shape := ⟨2, ![64, 1]⟩
abbrev S1x1 : Shape := ⟨2, ![1, 1]⟩

abbrev nBuf : Space → Nat
  | .hbm => 223
  | .vmem => 85
  | .smem => 0
  | _ => 0

abbrev hbmTy0_0 (i : Nat) : BufTy := match i % 128 with
  | 0 => ⟨S50000x128, .f32⟩
  | 1 => ⟨S2x1600000, .i32⟩
  | 2 => ⟨S50000, .f32⟩
  | 3 => ⟨S50000, .i32⟩
  | 4 => ⟨S3x128x128, .f32⟩
  | 5 => ⟨S3x128, .f32⟩
  | 6 => ⟨S3x128, .f32⟩
  | 7 => ⟨S3x128, .f32⟩
  | 8 => ⟨S128x1, .f32⟩
  | 9 => ⟨S1, .f32⟩
  | 10 => ⟨S1x1600000, .i32⟩
  | 11 => ⟨S1600000, .i32⟩
  | 12 => ⟨S1x1600000, .i32⟩
  | 13 => ⟨S1600000, .i32⟩
  | 14 => ⟨S_, .f32⟩
  | 15 => ⟨S1600000, .f32⟩
  | 16 => ⟨S_, .f32⟩
  | 17 => ⟨S50000, .f32⟩
  | 18 => ⟨S1600000x1, .i32⟩
  | 19 => ⟨S50000, .f32⟩
  | 20 => ⟨S_, .f32⟩
  | 21 => ⟨S50000, .f32⟩
  | 22 => ⟨S50000, .f32⟩
  | 23 => ⟨S50000, .f32⟩
  | 24 => ⟨S50000, .f32⟩
  | 25 => ⟨S50000x1, .f32⟩
  | 26 => ⟨S50000x1, .f32⟩
  | 27 => ⟨S50000x1, .i32⟩
  | 28 => ⟨S1x128x128, .f32⟩
  | 29 => ⟨S128x128, .f32⟩
  | 30 => ⟨S50000x128, .f32⟩
  | 31 => ⟨S_, .i32⟩
  | 32 => ⟨S1600000, .i32⟩
  | 33 => ⟨S1600000, .i1⟩
  | 34 => ⟨S_, .i32⟩
  | 35 => ⟨S1600000, .i32⟩
  | 36 => ⟨S1600000, .i32⟩
  | 37 => ⟨S1600000, .i32⟩
  | 38 => ⟨S1600000x1, .i32⟩
  | 39 => ⟨S1600000, .f32⟩
  | 40 => ⟨S_, .i32⟩
  | 41 => ⟨S1600000, .i32⟩
  | 42 => ⟨S1600000, .i1⟩
  | 43 => ⟨S_, .i32⟩
  | 44 => ⟨S1600000, .i32⟩
  | 45 => ⟨S1600000, .i32⟩
  | 46 => ⟨S1600000, .i32⟩
  | 47 => ⟨S1600000x1, .i32⟩
  | 48 => ⟨S1600000, .f32⟩
  | 49 => ⟨S1600000, .f32⟩
  | 50 => ⟨S_, .i32⟩
  | 51 => ⟨S1600000, .i32⟩
  | 52 => ⟨S1600000, .i1⟩
  | 53 => ⟨S_, .i32⟩
  | 54 => ⟨S1600000, .i32⟩
  | 55 => ⟨S1600000, .i32⟩
  | 56 => ⟨S1600000, .i32⟩
  | 57 => ⟨S1600000x1, .i32⟩
  | 58 => ⟨S1600000x128, .f32⟩
  | 59 => ⟨S1600000x1, .f32⟩
  | 60 => ⟨S1600000x128, .f32⟩
  | 61 => ⟨S1600000x128, .f32⟩
  | 62 => ⟨S_, .f32⟩
  | 63 => ⟨S50000x128, .f32⟩
  | 64 => ⟨S1600000x1, .i32⟩
  | 65 => ⟨S50000x128, .f32⟩
  | 66 => ⟨S1x128, .f32⟩
  | 67 => ⟨S128, .f32⟩
  | 68 => ⟨S1x128, .f32⟩
  | 69 => ⟨S50000x128, .f32⟩
  | 70 => ⟨S1x128, .f32⟩
  | 71 => ⟨S1x128, .f32⟩
  | 72 => ⟨S_, .f32⟩
  | 73 => ⟨S1x128, .f32⟩
  | 74 => ⟨S1x128, .f32⟩
  | 75 => ⟨S_, .f32⟩
  | 76 => ⟨S1x128, .f32⟩
  | 77 => ⟨S1x128, .f32⟩
  | 78 => ⟨S1x128, .f32⟩
  | 79 => ⟨S1x128, .f32⟩
  | 80 => ⟨S1x128, .f32⟩
  | 81 => ⟨S128, .f32⟩
  | 82 => ⟨S1x128, .f32⟩
  | 83 => ⟨S1x128, .f32⟩
  | 84 => ⟨S128, .f32⟩
  | 85 => ⟨S1x128, .f32⟩
  | 86 => ⟨S50000x128, .f32⟩
  | 87 => ⟨S1x128x128, .f32⟩
  | 88 => ⟨S128x128, .f32⟩
  | 89 => ⟨S50000x128, .f32⟩
  | 90 => ⟨S_, .i32⟩
  | 91 => ⟨S1600000, .i32⟩
  | 92 => ⟨S1600000, .i1⟩
  | 93 => ⟨S_, .i32⟩
  | 94 => ⟨S1600000, .i32⟩
  | 95 => ⟨S1600000, .i32⟩
  | 96 => ⟨S1600000, .i32⟩
  | 97 => ⟨S1600000x1, .i32⟩
  | 98 => ⟨S1600000, .f32⟩
  | 99 => ⟨S_, .i32⟩
  | 100 => ⟨S1600000, .i32⟩
  | 101 => ⟨S1600000, .i1⟩
  | 102 => ⟨S_, .i32⟩
  | 103 => ⟨S1600000, .i32⟩
  | 104 => ⟨S1600000, .i32⟩
  | 105 => ⟨S1600000, .i32⟩
  | 106 => ⟨S1600000x1, .i32⟩
  | 107 => ⟨S1600000, .f32⟩
  | 108 => ⟨S1600000, .f32⟩
  | 109 => ⟨S_, .i32⟩
  | 110 => ⟨S1600000, .i32⟩
  | 111 => ⟨S1600000, .i1⟩
  | 112 => ⟨S_, .i32⟩
  | 113 => ⟨S1600000, .i32⟩
  | 114 => ⟨S1600000, .i32⟩
  | 115 => ⟨S1600000, .i32⟩
  | 116 => ⟨S1600000x1, .i32⟩
  | 117 => ⟨S1600000x128, .f32⟩
  | 118 => ⟨S1600000x1, .f32⟩
  | 119 => ⟨S1600000x128, .f32⟩
  | 120 => ⟨S1600000x128, .f32⟩
  | 121 => ⟨S_, .f32⟩
  | 122 => ⟨S50000x128, .f32⟩
  | 123 => ⟨S1600000x1, .i32⟩
  | 124 => ⟨S50000x128, .f32⟩
  | 125 => ⟨S1x128, .f32⟩
  | 126 => ⟨S128, .f32⟩
  | 127 => ⟨S1x128, .f32⟩
  | _ => ⟨S50000x128, .f32⟩

abbrev hbmTy0_1 (i : Nat) : BufTy := match i % 128 with
  | 0 => ⟨S50000x128, .f32⟩
  | 1 => ⟨S1x128, .f32⟩
  | 2 => ⟨S1x128, .f32⟩
  | 3 => ⟨S_, .f32⟩
  | 4 => ⟨S1x128, .f32⟩
  | 5 => ⟨S1x128, .f32⟩
  | 6 => ⟨S_, .f32⟩
  | 7 => ⟨S1x128, .f32⟩
  | 8 => ⟨S1x128, .f32⟩
  | 9 => ⟨S1x128, .f32⟩
  | 10 => ⟨S1x128, .f32⟩
  | 11 => ⟨S1x128, .f32⟩
  | 12 => ⟨S128, .f32⟩
  | 13 => ⟨S1x128, .f32⟩
  | 14 => ⟨S1x128, .f32⟩
  | 15 => ⟨S128, .f32⟩
  | 16 => ⟨S1x128, .f32⟩
  | 17 => ⟨S50000x128, .f32⟩
  | 18 => ⟨S1x128x128, .f32⟩
  | 19 => ⟨S128x128, .f32⟩
  | 20 => ⟨S50000x128, .f32⟩
  | 21 => ⟨S_, .i32⟩
  | 22 => ⟨S1600000, .i32⟩
  | 23 => ⟨S1600000, .i1⟩
  | 24 => ⟨S_, .i32⟩
  | 25 => ⟨S1600000, .i32⟩
  | 26 => ⟨S1600000, .i32⟩
  | 27 => ⟨S1600000, .i32⟩
  | 28 => ⟨S1600000x1, .i32⟩
  | 29 => ⟨S1600000, .f32⟩
  | 30 => ⟨S_, .i32⟩
  | 31 => ⟨S1600000, .i32⟩
  | 32 => ⟨S1600000, .i1⟩
  | 33 => ⟨S_, .i32⟩
  | 34 => ⟨S1600000, .i32⟩
  | 35 => ⟨S1600000, .i32⟩
  | 36 => ⟨S1600000, .i32⟩
  | 37 => ⟨S1600000x1, .i32⟩
  | 38 => ⟨S1600000, .f32⟩
  | 39 => ⟨S1600000, .f32⟩
  | 40 => ⟨S_, .i32⟩
  | 41 => ⟨S1600000, .i32⟩
  | 42 => ⟨S1600000, .i1⟩
  | 43 => ⟨S_, .i32⟩
  | 44 => ⟨S1600000, .i32⟩
  | 45 => ⟨S1600000, .i32⟩
  | 46 => ⟨S1600000, .i32⟩
  | 47 => ⟨S1600000x1, .i32⟩
  | 48 => ⟨S1600000x128, .f32⟩
  | 49 => ⟨S1600000x1, .f32⟩
  | 50 => ⟨S1600000x128, .f32⟩
  | 51 => ⟨S1600000x128, .f32⟩
  | 52 => ⟨S_, .f32⟩
  | 53 => ⟨S50000x128, .f32⟩
  | 54 => ⟨S1600000x1, .i32⟩
  | 55 => ⟨S50000x128, .f32⟩
  | 56 => ⟨S1x128, .f32⟩
  | 57 => ⟨S128, .f32⟩
  | 58 => ⟨S1x128, .f32⟩
  | 59 => ⟨S50000x128, .f32⟩
  | 60 => ⟨S1x128, .f32⟩
  | 61 => ⟨S1x128, .f32⟩
  | 62 => ⟨S_, .f32⟩
  | 63 => ⟨S1x128, .f32⟩
  | 64 => ⟨S1x128, .f32⟩
  | 65 => ⟨S_, .f32⟩
  | 66 => ⟨S1x128, .f32⟩
  | 67 => ⟨S1x128, .f32⟩
  | 68 => ⟨S1x128, .f32⟩
  | 69 => ⟨S1x128, .f32⟩
  | 70 => ⟨S1x128, .f32⟩
  | 71 => ⟨S128, .f32⟩
  | 72 => ⟨S1x128, .f32⟩
  | 73 => ⟨S1x128, .f32⟩
  | 74 => ⟨S128, .f32⟩
  | 75 => ⟨S1x128, .f32⟩
  | 76 => ⟨S50000x128, .f32⟩
  | 77 => ⟨S64x128, .f32⟩
  | 78 => ⟨S_, .f32⟩
  | 79 => ⟨S50000, .f32⟩
  | 80 => ⟨S_, .f32⟩
  | 81 => ⟨S64, .f32⟩
  | 82 => ⟨S50000x1, .i32⟩
  | 83 => ⟨S64, .f32⟩
  | 84 => ⟨S_, .f32⟩
  | 85 => ⟨S64, .f32⟩
  | 86 => ⟨S64, .f32⟩
  | 87 => ⟨S64x1, .f32⟩
  | 88 => ⟨S64x128, .f32⟩
  | 89 => ⟨S64x128, .f32⟩
  | 90 => ⟨S64x1, .f32⟩
  | 91 => ⟨S1x1, .f32⟩
  | 92 => ⟨S64x1, .f32⟩
  | 93 => ⟨S64x1, .f32⟩
  | 94 => ⟨S64, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S5000x1, .f32⟩
  | .local _ .vmem, ⟨3, _⟩ => ⟨S5000x1, .f32⟩
  | .local _ .vmem, ⟨4, _⟩ => ⟨S128x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x1, .f32⟩
  | .local _ .vmem, ⟨12, _⟩ => ⟨S5000x1, .f32⟩
  | .local _ .vmem, ⟨13, _⟩ => ⟨S1x128, .f32⟩
  | .local _ .vmem, ⟨14, _⟩ => ⟨S5000x128, .f32⟩
  | .local _ .vmem, ⟨15, _⟩ => ⟨S5000x128, .f32⟩
  | .local _ .vmem, ⟨16, _⟩ => ⟨S1x128, .f32⟩
  | .local _ .vmem, ⟨17, _⟩ => ⟨S1x128, .f32⟩
  | .local _ .vmem, ⟨18, _⟩ => ⟨S5000x128, .f32⟩
  | .local _ .vmem, ⟨19, _⟩ => ⟨S5000x128, .f32⟩
  | .local _ .vmem, ⟨20, _⟩ => ⟨S1x128, .f32⟩
  | .local _ .vmem, ⟨21, _⟩ => ⟨S1x128, .f32⟩
  | .local _ .vmem, ⟨22, _⟩ => ⟨S1x128, .f32⟩
  | .local _ .vmem, ⟨23, _⟩ => ⟨S1x128, .f32⟩
  | .local _ .vmem, ⟨24, _⟩ => ⟨S5000x128, .f32⟩
  | .local _ .vmem, ⟨25, _⟩ => ⟨S5000x128, .f32⟩
  | .local _ .vmem, ⟨26, _⟩ => ⟨S5000x128, .f32⟩
  | .local _ .vmem, ⟨27, _⟩ => ⟨S5000x128, .f32⟩
  | .local _ .vmem, ⟨28, _⟩ => ⟨S5000x1, .f32⟩
  | .local _ .vmem, ⟨29, _⟩ => ⟨S5000x1, .f32⟩
  | .local _ .vmem, ⟨30, _⟩ => ⟨S128x128, .f32⟩
  | .local _ .vmem, ⟨31, _⟩ => ⟨S5000x128, .f32⟩
  | .local _ .vmem, ⟨32, _⟩ => ⟨S5000x128, .f32⟩
  | .local _ .vmem, ⟨33, _⟩ => ⟨S5000x128, .f32⟩
  | .local _ .vmem, ⟨34, _⟩ => ⟨S5000x128, .f32⟩
  | .local _ .vmem, ⟨35, _⟩ => ⟨S5000x128, .f32⟩
  | .local _ .vmem, ⟨36, _⟩ => ⟨S5000x128, .f32⟩
  | .local _ .vmem, ⟨37, _⟩ => ⟨S5000x1, .f32⟩
  | .local _ .vmem, ⟨38, _⟩ => ⟨S5000x1, .f32⟩
  | .local _ .vmem, ⟨39, _⟩ => ⟨S1x128, .f32⟩
  | .local _ .vmem, ⟨40, _⟩ => ⟨S5000x128, .f32⟩
  | .local _ .vmem, ⟨41, _⟩ => ⟨S5000x128, .f32⟩
  | .local _ .vmem, ⟨42, _⟩ => ⟨S1x128, .f32⟩
  | .local _ .vmem, ⟨43, _⟩ => ⟨S1x128, .f32⟩
  | .local _ .vmem, ⟨44, _⟩ => ⟨S5000x128, .f32⟩
  | .local _ .vmem, ⟨45, _⟩ => ⟨S5000x128, .f32⟩
  | .local _ .vmem, ⟨46, _⟩ => ⟨S1x128, .f32⟩
  | .local _ .vmem, ⟨47, _⟩ => ⟨S1x128, .f32⟩
  | .local _ .vmem, ⟨48, _⟩ => ⟨S1x128, .f32⟩
  | .local _ .vmem, ⟨49, _⟩ => ⟨S1x128, .f32⟩
  | .local _ .vmem, ⟨50, _⟩ => ⟨S5000x128, .f32⟩
  | .local _ .vmem, ⟨51, _⟩ => ⟨S5000x128, .f32⟩
  | .local _ .vmem, ⟨52, _⟩ => ⟨S5000x128, .f32⟩
  | .local _ .vmem, ⟨53, _⟩ => ⟨S5000x128, .f32⟩
  | .local _ .vmem, ⟨54, _⟩ => ⟨S5000x1, .f32⟩
  | .local _ .vmem, ⟨55, _⟩ => ⟨S5000x1, .f32⟩
  | .local _ .vmem, ⟨56, _⟩ => ⟨S128x128, .f32⟩
  | .local _ .vmem, ⟨57, _⟩ => ⟨S5000x128, .f32⟩
  | .local _ .vmem, ⟨58, _⟩ => ⟨S5000x128, .f32⟩
  | .local _ .vmem, ⟨59, _⟩ => ⟨S5000x128, .f32⟩
  | .local _ .vmem, ⟨60, _⟩ => ⟨S5000x128, .f32⟩
  | .local _ .vmem, ⟨61, _⟩ => ⟨S5000x128, .f32⟩
  | .local _ .vmem, ⟨62, _⟩ => ⟨S5000x128, .f32⟩
  | .local _ .vmem, ⟨63, _⟩ => ⟨S5000x1, .f32⟩
  | .local _ .vmem, ⟨64, _⟩ => ⟨S5000x1, .f32⟩
  | .local _ .vmem, ⟨65, _⟩ => ⟨S1x128, .f32⟩
  | .local _ .vmem, ⟨66, _⟩ => ⟨S5000x128, .f32⟩
  | .local _ .vmem, ⟨67, _⟩ => ⟨S5000x128, .f32⟩
  | .local _ .vmem, ⟨68, _⟩ => ⟨S1x128, .f32⟩
  | .local _ .vmem, ⟨69, _⟩ => ⟨S1x128, .f32⟩
  | .local _ .vmem, ⟨70, _⟩ => ⟨S5000x128, .f32⟩
  | .local _ .vmem, ⟨71, _⟩ => ⟨S5000x128, .f32⟩
  | .local _ .vmem, ⟨72, _⟩ => ⟨S1x128, .f32⟩
  | .local _ .vmem, ⟨73, _⟩ => ⟨S1x128, .f32⟩
  | .local _ .vmem, ⟨74, _⟩ => ⟨S1x128, .f32⟩
  | .local _ .vmem, ⟨75, _⟩ => ⟨S1x128, .f32⟩
  | .local _ .vmem, ⟨76, _⟩ => ⟨S5000x128, .f32⟩
  | .local _ .vmem, ⟨77, _⟩ => ⟨S5000x128, .f32⟩
  | .local _ .vmem, ⟨78, _⟩ => ⟨S5000x128, .f32⟩
  | .local _ .vmem, ⟨79, _⟩ => ⟨S5000x128, .f32⟩
  | .local _ .vmem, ⟨80, _⟩ => ⟨S5000x1, .f32⟩
  | .local _ .vmem, ⟨81, _⟩ => ⟨S5000x1, .f32⟩
  | .local _ .vmem, ⟨82, _⟩ => ⟨S5000x1, .i32⟩
  | .local _ .vmem, ⟨83, _⟩ => ⟨S5000x1, .i32⟩
  | .local _ .vmem, ⟨84, _⟩ => ⟨S64x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | _, _ => false

abbrev semScoped : Fin 0 → Bool
  | ⟨_, h⟩ => absurd h (Nat.not_lt_zero _)

abbrev dmaSemScoped : Fin 85 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | _ => false

abbrev sig : RefSig :=
  ofTc nBuf bufTy 0 85 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_c : Ref sig .tc := ⟨.hbm, 31, rfl⟩
abbrev main_v18 : Ref sig .tc := ⟨.hbm, 32, rfl⟩
abbrev main_v19 : Ref sig .tc := ⟨.hbm, 33, rfl⟩
abbrev main_c_2 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_c_3 : Ref sig .tc := ⟨.hbm, 40, rfl⟩
abbrev main_v25 : Ref sig .tc := ⟨.hbm, 41, rfl⟩
abbrev main_v26 : Ref sig .tc := ⟨.hbm, 42, rfl⟩
abbrev main_c_4 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_5 : Ref sig .tc := ⟨.hbm, 50, rfl⟩
abbrev main_v33 : Ref sig .tc := ⟨.hbm, 51, rfl⟩
abbrev main_v34 : Ref sig .tc := ⟨.hbm, 52, rfl⟩
abbrev main_c_6 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_7 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49_0 : Ref sig .tc := ⟨.hbm, 69, rfl⟩
abbrev main_v49_1 : Ref sig .tc := ⟨.hbm, 70, rfl⟩
abbrev main_v49_2 : Ref sig .tc := ⟨.hbm, 71, rfl⟩
abbrev main_cst_8 : Ref sig .tc := ⟨.hbm, 72, rfl⟩
abbrev main_v50 : Ref sig .tc := ⟨.hbm, 73, rfl⟩
abbrev main_v51 : Ref sig .tc := ⟨.hbm, 74, rfl⟩
abbrev main_cst_9 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_c_10 : Ref sig .tc := ⟨.hbm, 90, rfl⟩
abbrev main_v66 : Ref sig .tc := ⟨.hbm, 91, rfl⟩
abbrev main_v67 : Ref sig .tc := ⟨.hbm, 92, rfl⟩
abbrev main_c_11 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_c_12 : Ref sig .tc := ⟨.hbm, 99, rfl⟩
abbrev main_v73 : Ref sig .tc := ⟨.hbm, 100, rfl⟩
abbrev main_v74 : Ref sig .tc := ⟨.hbm, 101, rfl⟩
abbrev main_c_13 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_c_14 : Ref sig .tc := ⟨.hbm, 109, rfl⟩
abbrev main_v81 : Ref sig .tc := ⟨.hbm, 110, rfl⟩
abbrev main_v82 : Ref sig .tc := ⟨.hbm, 111, rfl⟩
abbrev main_c_15 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_cst_16 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97_0 : Ref sig .tc := ⟨.hbm, 128, rfl⟩
abbrev main_v97_1 : Ref sig .tc := ⟨.hbm, 129, rfl⟩
abbrev main_v97_2 : Ref sig .tc := ⟨.hbm, 130, rfl⟩
abbrev main_cst_17 : Ref sig .tc := ⟨.hbm, 131, rfl⟩
abbrev main_v98 : Ref sig .tc := ⟨.hbm, 132, rfl⟩
abbrev main_v99 : Ref sig .tc := ⟨.hbm, 133, rfl⟩
abbrev main_cst_18 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev main_v109 : Ref sig .tc := ⟨.hbm, 144, rfl⟩
abbrev main_v110 : Ref sig .tc := ⟨.hbm, 145, rfl⟩
abbrev main_v111 : Ref sig .tc := ⟨.hbm, 146, rfl⟩
abbrev main_v112 : Ref sig .tc := ⟨.hbm, 147, rfl⟩
abbrev main_v113 : Ref sig .tc := ⟨.hbm, 148, rfl⟩
abbrev main_c_19 : Ref sig .tc := ⟨.hbm, 149, rfl⟩
abbrev main_v114 : Ref sig .tc := ⟨.hbm, 150, rfl⟩
abbrev main_v115 : Ref sig .tc := ⟨.hbm, 151, rfl⟩
abbrev main_c_20 : Ref sig .tc := ⟨.hbm, 152, rfl⟩
abbrev main_v116 : Ref sig .tc := ⟨.hbm, 153, rfl⟩
abbrev main_v117 : Ref sig .tc := ⟨.hbm, 154, rfl⟩
abbrev main_v118 : Ref sig .tc := ⟨.hbm, 155, rfl⟩
abbrev main_v119 : Ref sig .tc := ⟨.hbm, 156, rfl⟩
abbrev main_v120 : Ref sig .tc := ⟨.hbm, 157, rfl⟩
abbrev main_c_21 : Ref sig .tc := ⟨.hbm, 158, rfl⟩
abbrev main_v121 : Ref sig .tc := ⟨.hbm, 159, rfl⟩
abbrev main_v122 : Ref sig .tc := ⟨.hbm, 160, rfl⟩
abbrev main_c_22 : Ref sig .tc := ⟨.hbm, 161, rfl⟩
abbrev main_v123 : Ref sig .tc := ⟨.hbm, 162, rfl⟩
abbrev main_v124 : Ref sig .tc := ⟨.hbm, 163, rfl⟩
abbrev main_v125 : Ref sig .tc := ⟨.hbm, 164, rfl⟩
abbrev main_v126 : Ref sig .tc := ⟨.hbm, 165, rfl⟩
abbrev main_v127 : Ref sig .tc := ⟨.hbm, 166, rfl⟩
abbrev main_v128 : Ref sig .tc := ⟨.hbm, 167, rfl⟩
abbrev main_c_23 : Ref sig .tc := ⟨.hbm, 168, rfl⟩
abbrev main_v129 : Ref sig .tc := ⟨.hbm, 169, rfl⟩
abbrev main_v130 : Ref sig .tc := ⟨.hbm, 170, rfl⟩
abbrev main_c_24 : Ref sig .tc := ⟨.hbm, 171, rfl⟩
abbrev main_v131 : Ref sig .tc := ⟨.hbm, 172, rfl⟩
abbrev main_v132 : Ref sig .tc := ⟨.hbm, 173, rfl⟩
abbrev main_v133 : Ref sig .tc := ⟨.hbm, 174, rfl⟩
abbrev main_v134 : Ref sig .tc := ⟨.hbm, 175, rfl⟩
abbrev main_v135 : Ref sig .tc := ⟨.hbm, 176, rfl⟩
abbrev main_v136 : Ref sig .tc := ⟨.hbm, 177, rfl⟩
abbrev main_v137 : Ref sig .tc := ⟨.hbm, 178, rfl⟩
abbrev main_v138 : Ref sig .tc := ⟨.hbm, 179, rfl⟩
abbrev main_cst_25 : Ref sig .tc := ⟨.hbm, 180, rfl⟩
abbrev main_v139 : Ref sig .tc := ⟨.hbm, 181, rfl⟩
abbrev main_v140 : Ref sig .tc := ⟨.hbm, 182, rfl⟩
abbrev main_v141 : Ref sig .tc := ⟨.hbm, 183, rfl⟩
abbrev main_v142 : Ref sig .tc := ⟨.hbm, 184, rfl⟩
abbrev main_v143 : Ref sig .tc := ⟨.hbm, 185, rfl⟩
abbrev main_v144 : Ref sig .tc := ⟨.hbm, 186, rfl⟩
abbrev main_v145_0 : Ref sig .tc := ⟨.hbm, 187, rfl⟩
abbrev main_v145_1 : Ref sig .tc := ⟨.hbm, 188, rfl⟩
abbrev main_v145_2 : Ref sig .tc := ⟨.hbm, 189, rfl⟩
abbrev main_cst_26 : Ref sig .tc := ⟨.hbm, 190, rfl⟩
abbrev main_v146 : Ref sig .tc := ⟨.hbm, 191, rfl⟩
abbrev main_v147 : Ref sig .tc := ⟨.hbm, 192, rfl⟩
abbrev main_cst_27 : Ref sig .tc := ⟨.hbm, 193, rfl⟩
abbrev main_v148 : Ref sig .tc := ⟨.hbm, 194, rfl⟩
abbrev main_v149 : Ref sig .tc := ⟨.hbm, 195, rfl⟩
abbrev main_v150 : Ref sig .tc := ⟨.hbm, 196, rfl⟩
abbrev main_v151 : Ref sig .tc := ⟨.hbm, 197, rfl⟩
abbrev main_v152 : Ref sig .tc := ⟨.hbm, 198, rfl⟩
abbrev main_v153 : Ref sig .tc := ⟨.hbm, 199, rfl⟩
abbrev main_v154 : Ref sig .tc := ⟨.hbm, 200, rfl⟩
abbrev main_v155 : Ref sig .tc := ⟨.hbm, 201, rfl⟩
abbrev main_v156 : Ref sig .tc := ⟨.hbm, 202, rfl⟩
abbrev main_v157 : Ref sig .tc := ⟨.hbm, 203, rfl⟩
abbrev main_v158 : Ref sig .tc := ⟨.hbm, 204, rfl⟩
abbrev main_v159 : Ref sig .tc := ⟨.hbm, 205, rfl⟩
abbrev main_cst_28 : Ref sig .tc := ⟨.hbm, 206, rfl⟩
abbrev main_v160 : Ref sig .tc := ⟨.hbm, 207, rfl⟩
abbrev main_cst_29 : Ref sig .tc := ⟨.hbm, 208, rfl⟩
abbrev main_v161 : Ref sig .tc := ⟨.hbm, 209, rfl⟩
abbrev main_v162 : Ref sig .tc := ⟨.hbm, 210, rfl⟩
abbrev main_v163 : Ref sig .tc := ⟨.hbm, 211, rfl⟩
abbrev main_cst_30 : Ref sig .tc := ⟨.hbm, 212, rfl⟩
abbrev main_v164 : Ref sig .tc := ⟨.hbm, 213, rfl⟩
abbrev main_v165 : Ref sig .tc := ⟨.hbm, 214, rfl⟩
abbrev main_v166 : Ref sig .tc := ⟨.hbm, 215, rfl⟩
abbrev main_v167 : Ref sig .tc := ⟨.hbm, 216, rfl⟩
abbrev main_v168 : Ref sig .tc := ⟨.hbm, 217, rfl⟩
abbrev main_v169 : Ref sig .tc := ⟨.hbm, 218, rfl⟩
abbrev main_v170 : Ref sig .tc := ⟨.hbm, 219, rfl⟩
abbrev main_v171 : Ref sig .tc := ⟨.hbm, 220, rfl⟩
abbrev main_v172 : Ref sig .tc := ⟨.hbm, 221, rfl⟩
abbrev main_v173 : Ref sig .tc := ⟨.hbm, 222, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc1_stg5_0 : Ref sig .tc := ⟨.vmem, 16, rfl⟩
abbrev cc1_stg6_0 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg4_0 : Ref sig .tc := ⟨.vmem, 23, rfl⟩
abbrev cc2_stg5_0 : Ref sig .tc := ⟨.vmem, 24, rfl⟩
abbrev cc2_stg5_1 : Ref sig .tc := ⟨.vmem, 25, rfl⟩
abbrev cc3_stg0_0 : Ref sig .tc := ⟨.vmem, 26, rfl⟩
abbrev cc3_stg0_1 : Ref sig .tc := ⟨.vmem, 27, rfl⟩
abbrev cc3_stg1_0 : Ref sig .tc := ⟨.vmem, 28, rfl⟩
abbrev cc3_stg1_1 : Ref sig .tc := ⟨.vmem, 29, rfl⟩
abbrev cc3_stg2_0 : Ref sig .tc := ⟨.vmem, 30, rfl⟩
abbrev cc3_stg3_0 : Ref sig .tc := ⟨.vmem, 31, rfl⟩
abbrev cc3_stg3_1 : Ref sig .tc := ⟨.vmem, 32, rfl⟩
abbrev cc4_stg0_0 : Ref sig .tc := ⟨.vmem, 33, rfl⟩
abbrev cc4_stg0_1 : Ref sig .tc := ⟨.vmem, 34, rfl⟩
abbrev cc4_stg1_0 : Ref sig .tc := ⟨.vmem, 35, rfl⟩
abbrev cc4_stg1_1 : Ref sig .tc := ⟨.vmem, 36, rfl⟩
abbrev cc4_stg2_0 : Ref sig .tc := ⟨.vmem, 37, rfl⟩
abbrev cc4_stg2_1 : Ref sig .tc := ⟨.vmem, 38, rfl⟩
abbrev cc4_stg3_0 : Ref sig .tc := ⟨.vmem, 39, rfl⟩
abbrev cc4_stg4_0 : Ref sig .tc := ⟨.vmem, 40, rfl⟩
abbrev cc4_stg4_1 : Ref sig .tc := ⟨.vmem, 41, rfl⟩
abbrev cc4_stg5_0 : Ref sig .tc := ⟨.vmem, 42, rfl⟩
abbrev cc4_stg6_0 : Ref sig .tc := ⟨.vmem, 43, rfl⟩
abbrev cc5_stg0_0 : Ref sig .tc := ⟨.vmem, 44, rfl⟩
abbrev cc5_stg0_1 : Ref sig .tc := ⟨.vmem, 45, rfl⟩
abbrev cc5_stg1_0 : Ref sig .tc := ⟨.vmem, 46, rfl⟩
abbrev cc5_stg2_0 : Ref sig .tc := ⟨.vmem, 47, rfl⟩
abbrev cc5_stg3_0 : Ref sig .tc := ⟨.vmem, 48, rfl⟩
abbrev cc5_stg4_0 : Ref sig .tc := ⟨.vmem, 49, rfl⟩
abbrev cc5_stg5_0 : Ref sig .tc := ⟨.vmem, 50, rfl⟩
abbrev cc5_stg5_1 : Ref sig .tc := ⟨.vmem, 51, rfl⟩
abbrev cc6_stg0_0 : Ref sig .tc := ⟨.vmem, 52, rfl⟩
abbrev cc6_stg0_1 : Ref sig .tc := ⟨.vmem, 53, rfl⟩
abbrev cc6_stg1_0 : Ref sig .tc := ⟨.vmem, 54, rfl⟩
abbrev cc6_stg1_1 : Ref sig .tc := ⟨.vmem, 55, rfl⟩
abbrev cc6_stg2_0 : Ref sig .tc := ⟨.vmem, 56, rfl⟩
abbrev cc6_stg3_0 : Ref sig .tc := ⟨.vmem, 57, rfl⟩
abbrev cc6_stg3_1 : Ref sig .tc := ⟨.vmem, 58, rfl⟩
abbrev cc7_stg0_0 : Ref sig .tc := ⟨.vmem, 59, rfl⟩
abbrev cc7_stg0_1 : Ref sig .tc := ⟨.vmem, 60, rfl⟩
abbrev cc7_stg1_0 : Ref sig .tc := ⟨.vmem, 61, rfl⟩
abbrev cc7_stg1_1 : Ref sig .tc := ⟨.vmem, 62, rfl⟩
abbrev cc7_stg2_0 : Ref sig .tc := ⟨.vmem, 63, rfl⟩
abbrev cc7_stg2_1 : Ref sig .tc := ⟨.vmem, 64, rfl⟩
abbrev cc7_stg3_0 : Ref sig .tc := ⟨.vmem, 65, rfl⟩
abbrev cc7_stg4_0 : Ref sig .tc := ⟨.vmem, 66, rfl⟩
abbrev cc7_stg4_1 : Ref sig .tc := ⟨.vmem, 67, rfl⟩
abbrev cc7_stg5_0 : Ref sig .tc := ⟨.vmem, 68, rfl⟩
abbrev cc7_stg6_0 : Ref sig .tc := ⟨.vmem, 69, rfl⟩
abbrev cc8_stg0_0 : Ref sig .tc := ⟨.vmem, 70, rfl⟩
abbrev cc8_stg0_1 : Ref sig .tc := ⟨.vmem, 71, rfl⟩
abbrev cc8_stg1_0 : Ref sig .tc := ⟨.vmem, 72, rfl⟩
abbrev cc8_stg2_0 : Ref sig .tc := ⟨.vmem, 73, rfl⟩
abbrev cc8_stg3_0 : Ref sig .tc := ⟨.vmem, 74, rfl⟩
abbrev cc8_stg4_0 : Ref sig .tc := ⟨.vmem, 75, rfl⟩
abbrev cc8_stg5_0 : Ref sig .tc := ⟨.vmem, 76, rfl⟩
abbrev cc8_stg5_1 : Ref sig .tc := ⟨.vmem, 77, rfl⟩
abbrev cc9_stg0_0 : Ref sig .tc := ⟨.vmem, 78, rfl⟩
abbrev cc9_stg0_1 : Ref sig .tc := ⟨.vmem, 79, rfl⟩
abbrev cc9_stg1_0 : Ref sig .tc := ⟨.vmem, 80, rfl⟩
abbrev cc9_stg1_1 : Ref sig .tc := ⟨.vmem, 81, rfl⟩
abbrev cc9_stg2_0 : Ref sig .tc := ⟨.vmem, 82, rfl⟩
abbrev cc9_stg2_1 : Ref sig .tc := ⟨.vmem, 83, rfl⟩
abbrev cc9_stg3_0 : Ref sig .tc := ⟨.vmem, 84, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem4_0 : DmaSem sig := 14
abbrev cc1_sem4_1 : DmaSem sig := 15
abbrev cc1_sem5_0 : DmaSem sig := 16
abbrev cc1_sem6_0 : DmaSem sig := 17
abbrev cc2_sem0_0 : DmaSem sig := 18
abbrev cc2_sem0_1 : DmaSem sig := 19
abbrev cc2_sem1_0 : DmaSem sig := 20
abbrev cc2_sem2_0 : DmaSem sig := 21
abbrev cc2_sem3_0 : DmaSem sig := 22
abbrev cc2_sem4_0 : DmaSem sig := 23
abbrev cc2_sem5_0 : DmaSem sig := 24
abbrev cc2_sem5_1 : DmaSem sig := 25
abbrev cc3_sem0_0 : DmaSem sig := 26
abbrev cc3_sem0_1 : DmaSem sig := 27
abbrev cc3_sem1_0 : DmaSem sig := 28
abbrev cc3_sem1_1 : DmaSem sig := 29
abbrev cc3_sem2_0 : DmaSem sig := 30
abbrev cc3_sem3_0 : DmaSem sig := 31
abbrev cc3_sem3_1 : DmaSem sig := 32
abbrev cc4_sem0_0 : DmaSem sig := 33
abbrev cc4_sem0_1 : DmaSem sig := 34
abbrev cc4_sem1_0 : DmaSem sig := 35
abbrev cc4_sem1_1 : DmaSem sig := 36
abbrev cc4_sem2_0 : DmaSem sig := 37
abbrev cc4_sem2_1 : DmaSem sig := 38
abbrev cc4_sem3_0 : DmaSem sig := 39
abbrev cc4_sem4_0 : DmaSem sig := 40
abbrev cc4_sem4_1 : DmaSem sig := 41
abbrev cc4_sem5_0 : DmaSem sig := 42
abbrev cc4_sem6_0 : DmaSem sig := 43
abbrev cc5_sem0_0 : DmaSem sig := 44
abbrev cc5_sem0_1 : DmaSem sig := 45
abbrev cc5_sem1_0 : DmaSem sig := 46
abbrev cc5_sem2_0 : DmaSem sig := 47
abbrev cc5_sem3_0 : DmaSem sig := 48
abbrev cc5_sem4_0 : DmaSem sig := 49
abbrev cc5_sem5_0 : DmaSem sig := 50
abbrev cc5_sem5_1 : DmaSem sig := 51
abbrev cc6_sem0_0 : DmaSem sig := 52
abbrev cc6_sem0_1 : DmaSem sig := 53
abbrev cc6_sem1_0 : DmaSem sig := 54
abbrev cc6_sem1_1 : DmaSem sig := 55
abbrev cc6_sem2_0 : DmaSem sig := 56
abbrev cc6_sem3_0 : DmaSem sig := 57
abbrev cc6_sem3_1 : DmaSem sig := 58
abbrev cc7_sem0_0 : DmaSem sig := 59
abbrev cc7_sem0_1 : DmaSem sig := 60
abbrev cc7_sem1_0 : DmaSem sig := 61
abbrev cc7_sem1_1 : DmaSem sig := 62
abbrev cc7_sem2_0 : DmaSem sig := 63
abbrev cc7_sem2_1 : DmaSem sig := 64
abbrev cc7_sem3_0 : DmaSem sig := 65
abbrev cc7_sem4_0 : DmaSem sig := 66
abbrev cc7_sem4_1 : DmaSem sig := 67
abbrev cc7_sem5_0 : DmaSem sig := 68
abbrev cc7_sem6_0 : DmaSem sig := 69
abbrev cc8_sem0_0 : DmaSem sig := 70
abbrev cc8_sem0_1 : DmaSem sig := 71
abbrev cc8_sem1_0 : DmaSem sig := 72
abbrev cc8_sem2_0 : DmaSem sig := 73
abbrev cc8_sem3_0 : DmaSem sig := 74
abbrev cc8_sem4_0 : DmaSem sig := 75
abbrev cc8_sem5_0 : DmaSem sig := 76
abbrev cc8_sem5_1 : DmaSem sig := 77
abbrev cc9_sem0_0 : DmaSem sig := 78
abbrev cc9_sem0_1 : DmaSem sig := 79
abbrev cc9_sem1_0 : DmaSem sig := 80
abbrev cc9_sem1_1 : DmaSem sig := 81
abbrev cc9_sem2_0 : DmaSem sig := 82
abbrev cc9_sem2_1 : DmaSem sig := 83
abbrev cc9_sem3_0 : DmaSem sig := 84

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S5000x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S5000x128 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev stage4_5 : Fin 1 → Memref sig .tc .vmem S1x128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1x128 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S5000x128 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S5000x1 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S128x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S5000x128 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev grid7 : Pipeline.Grid := ⟨1, ![10], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_5 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_6 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage7_0 : Fin 2 → Memref sig .tc .vmem S5000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S5000x128 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 2 → Memref sig .tc .vmem S5000x1 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev stage7_3 : Fin 1 → Memref sig .tc .vmem S1x128 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 2 → Memref sig .tc .vmem S5000x128 .f32 := fun | 0 => Memref.whole cc7_stg4_0 | 1 => Memref.whole cc7_stg4_1 | ⟨_ + 2, h⟩ => absurd h (Nat.not_lt.2 (Nat.le_add_left _ _))
abbrev sem7_4 : Fin 2 → DmaSem sig := fun | 0 => cc7_sem4_0 | 1 => cc7_sem4_1 | ⟨_ + 2, h⟩ => absurd h (Nat.not_lt.2 (Nat.le_add_left _ _))
abbrev reads7_4 : Fin grid7.rank → Bool := ![true]

abbrev stage7_5 : Fin 1 → Memref sig .tc .vmem S1x128 .f32 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![false]

abbrev stage7_6 : Fin 1 → Memref sig .tc .vmem S1x128 .f32 := fun | 0 => Memref.whole cc7_stg6_0 | ⟨_ + 1, h⟩ => absurd h (Nat.not_lt.2 (Nat.le_add_left _ _))
abbrev sem7_6 : Fin 1 → DmaSem sig := fun | 0 => cc7_sem6_0 | ⟨_ + 1, h⟩ => absurd h (Nat.not_lt.2 (Nat.le_add_left _ _))
abbrev reads7_6 : Fin grid7.rank → Bool := ![false]

abbrev grid8 : Pipeline.Grid := ⟨1, ![10], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S5000x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S1x128 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S1x128 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S1x128 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S1x128 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 2 → Memref sig .tc .vmem S5000x128 .f32 := fun | 0 => Memref.whole cc8_stg5_0 | 1 => Memref.whole cc8_stg5_1 | ⟨_ + 2, h⟩ => absurd h (Nat.not_lt.2 (Nat.le_add_left _ _))
abbrev sem8_5 : Fin 2 → DmaSem sig := fun | 0 => cc8_sem5_0 | 1 => cc8_sem5_1 | ⟨_ + 2, h⟩ => absurd h (Nat.not_lt.2 (Nat.le_add_left _ _))
abbrev reads8_5 : Fin grid8.rank → Bool := ![true]

abbrev grid9 : Pipeline.Grid := ⟨1, ![10], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_2 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_3 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage9_0 : Fin 2 → Memref sig .tc .vmem S5000x128 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 2 → Memref sig .tc .vmem S5000x1 .f32 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![true]

abbrev stage9_2 : Fin 2 → Memref sig .tc .vmem S5000x1 .i32 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true]

abbrev stage9_3 : Fin 1 → Memref sig .tc .vmem S64x128 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S50000 : S_.BroadcastsInDim S50000 (![] : Fin 0 → Fin S50000.rank)
  bcast_S1600000_S1600000x1_0 : S1600000.BroadcastsInDim S1600000x1 (![0] : Fin 1 → Fin S1600000x1.rank)
  shapeCasts_S50000_S50000x1 : S50000.ShapeCasts S50000x1
  slices_S3x128x128_S1x128x128_0_0_0 : S3x128x128.Slices ![0, 0, 0] S1x128x128
  shapeCasts_S1x128x128_S128x128 : S1x128x128.ShapeCasts S128x128
  inb_S5000x128_S5000x128_0_0 : ∀ a, (![0, 0] : Fin 2 → Nat) a + S5000x128.size a ≤ S5000x128.size a
  h_S5000x128 : 0 < S5000x128.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  bcast_S1600000x1_S1600000x128_0_1 : S1600000x1.BroadcastsInDim S1600000x128 (![0, 1] : Fin 2 → Fin S1600000x128.rank)
  bcast_S_S50000x128 : S_.BroadcastsInDim S50000x128 (![] : Fin 0 → Fin S50000x128.rank)
  slices_S3x128_S1x128_0_0 : S3x128.Slices ![0, 0] S1x128
  shapeCasts_S1x128_S128 : S1x128.ShapeCasts S128
  shapeCasts_S128_S1x128 : S128.ShapeCasts S1x128
  inb_S1x128_S1x128_0_0 : ∀ a, (![0, 0] : Fin 2 → Nat) a + S1x128.size a ≤ S1x128.size a
  h_S1x128 : 0 < S1x128.numel
  shapeCasts_S5000x128_S5000x128 : S5000x128.ShapeCasts S5000x128
  shapeCasts_S1x128_S1x128 : S1x128.ShapeCasts S1x128
  broadcasts_S1x128_S5000x128 : S1x128.Broadcasts S5000x128
  reduces_S5000x128_S128 : S5000x128.Reduces [0] S128
  bcast_S_S1x128 : S_.BroadcastsInDim S1x128 (![] : Fin 0 → Fin S1x128.rank)
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  inb_S64x128_S64x128_0_0 : ∀ a, (![0, 0] : Fin 2 → Nat) a + S64x128.size a ≤ S64x128.size a
  h_S64x128 : 0 < S64x128.numel
  iota_S5000x64_d1_w32 : S5000x64.Iotas .tc 32 [1]
  broadcasts_S5000x1_S5000x64 : S5000x1.Broadcasts S5000x64
  natLt_1_32 : 1 < 32
  shapeCasts_S64x128_S64x128 : S64x128.ShapeCasts S64x128
  bcast_S_S64 : S_.BroadcastsInDim S64 (![] : Fin 0 → Fin S64.rank)
  bcast_S50000_S50000x1_0 : S50000.BroadcastsInDim S50000x1 (![0] : Fin 1 → Fin S50000x1.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  bcast_S1_S1x1_1 : S1.BroadcastsInDim S1x1 (![1] : Fin 1 → Fin S1x1.rank)
  bcast_S1x1_S64x1_0_1 : S1x1.BroadcastsInDim S64x1 (![0, 1] : Fin 2 → Fin S64x1.rank)
  shapeCasts_S64x1_S64 : S64x1.ShapeCasts S64
  scatter_S50000_S1600000x1_S1600000_n_0_0_1_wf : ScatterDims.WF S50000 S1600000x1 S1600000 [] [0] [0] 1
  dot_S5000x128_S128x128_S5000x128_1_0_0_1_n_n_wf : DotDims.WF S5000x128 S128x128 S5000x128 [1] [0] [0] [1] [] []
  gather_S50000_S1600000x1_S1600000_n_0_n_n_0_1_1_wf : GatherDims.WF S50000 S1600000x1 S1600000 [] [0] [] [0] [] 1 ![1]
  gather_S50000x128_S1600000x1_S1600000x128_1_0_n_n_0_1_1128_wf : GatherDims.WF S50000x128 S1600000x1 S1600000x128 [1] [0] [] [0] [] 1 ![1, 128]
  scatter_S50000x128_S1600000x1_S1600000x128_1_0_0_1_wf : ScatterDims.WF S50000x128 S1600000x1 S1600000x128 [1] [0] [0] 1
  dot_S5000x64_S5000x128_S64x128_0_0_1_1_n_n_wf : DotDims.WF S5000x64 S5000x128 S64x128 [0] [0] [1] [1] [] []
  scatter_S64_S50000x1_S50000_n_0_0_1_wf : ScatterDims.WF S64 S50000x1 S50000 [] [0] [0] 1
  dot_S64x128_S128x1_S64x1_1_0_0_1_n_n_wf : DotDims.WF S64x128 S128x1 S64x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S50000x1.size a
  hwx0_1 : ∀ i : grid0.Coords, EltTy.bits .f32 = 32 ∨ (Rect.block (s := S50000x1) S5000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .f32 = 32 ∨ (Rect.block (s := S50000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S50000x1.size a
  hwx1_2 : ∀ i : grid1.Coords, EltTy.bits .f32 = 32 ∨ (Rect.block (s := S50000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S50000x128.size a
  hwx1_4 : ∀ i : grid1.Coords, EltTy.bits .f32 = 32 ∨ (Rect.block (s := S50000x128) S5000x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S50000x128.size a
  hwx2_5 : ∀ i : grid2.Coords, EltTy.bits .f32 = 32 ∨ (Rect.block (s := S50000x128) S5000x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x1.size a ≤ S50000x1.size a
  hwx3_1 : ∀ i : grid3.Coords, EltTy.bits .f32 = 32 ∨ (Rect.block (s := S50000x1) S5000x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .f32 = 32 ∨ (Rect.block (s := S128x128) S128x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x128.size a ≤ S50000x128.size a
  hwx3_3 : ∀ i : grid3.Coords, EltTy.bits .f32 = 32 ∨ (Rect.block (s := S50000x128) S5000x128.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x128.size a ≤ S50000x128.size a
  hwx4_1 : ∀ i : grid4.Coords, EltTy.bits .f32 = 32 ∨ (Rect.block (s := S50000x128) S5000x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x1.size a ≤ S50000x1.size a
  hwx4_2 : ∀ i : grid4.Coords, EltTy.bits .f32 = 32 ∨ (Rect.block (s := S50000x1) S5000x1.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S5000x128.size a ≤ S50000x128.size a
  hwx4_4 : ∀ i : grid4.Coords, EltTy.bits .f32 = 32 ∨ (Rect.block (s := S50000x128) S5000x128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x128.size a ≤ S1x128.size a
  hwx4_5 : ∀ i : grid4.Coords, EltTy.bits .f32 = 32 ∨ (Rect.block (s := S1x128) S1x128.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x128.size a ≤ S1x128.size a
  hwx4_6 : ∀ i : grid4.Coords, EltTy.bits .f32 = 32 ∨ (Rect.block (s := S1x128) S1x128.size (cc4_transform_6 i) (hinb4_6 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S50000x128.size a
  hwx5_0 : ∀ i : grid5.Coords, EltTy.bits .f32 = 32 ∨ (Rect.block (s := S50000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x128.size a ≤ S1x128.size a
  hwx5_4 : ∀ i : grid5.Coords, EltTy.bits .f32 = 32 ∨ (Rect.block (s := S1x128) S1x128.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S5000x128.size a ≤ S50000x128.size a
  hwx5_5 : ∀ i : grid5.Coords, EltTy.bits .f32 = 32 ∨ (Rect.block (s := S50000x128) S5000x128.size (cc5_transform_5 i) (hinb5_5 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S50000x128.size a
  hwx6_0 : ∀ i : grid6.Coords, EltTy.bits .f32 = 32 ∨ (Rect.block (s := S50000x128) S5000x128.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S5000x1.size a ≤ S50000x1.size a
  hwx6_1 : ∀ i : grid6.Coords, EltTy.bits .f32 = 32 ∨ (Rect.block (s := S50000x1) S5000x1.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S128x128.size a ≤ S128x128.size a
  hwx6_2 : ∀ i : grid6.Coords, EltTy.bits .f32 = 32 ∨ (Rect.block (s := S128x128) S128x128.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S5000x128.size a ≤ S50000x128.size a
  hwx6_3 : ∀ i : grid6.Coords, EltTy.bits .f32 = 32 ∨ (Rect.block (s := S50000x128) S5000x128.size (cc6_transform_3 i) (hinb6_3 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x128.size a ≤ S50000x128.size a
  hwx7_0 : ∀ i : grid7.Coords, EltTy.bits .f32 = 32 ∨ (Rect.block (s := S50000x128) S5000x128.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S5000x128.size a ≤ S50000x128.size a
  hwx7_1 : ∀ i : grid7.Coords, EltTy.bits .f32 = 32 ∨ (Rect.block (s := S50000x128) S5000x128.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S5000x1.size a ≤ S50000x1.size a
  hwx7_2 : ∀ i : grid7.Coords, EltTy.bits .f32 = 32 ∨ (Rect.block (s := S50000x1) S5000x1.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x128.size a ≤ S1x128.size a
  hwx7_3 : ∀ i : grid7.Coords, EltTy.bits .f32 = 32 ∨ (Rect.block (s := S1x128) S1x128.size (cc7_transform_3 i) (hinb7_3 i)).WholeWords (EltTy.packing .f32)
  hstage7_4 : ∀ j, (stage7_4 j).IsWhole
  nbuf7_4 : grid7.bufCount reads7_4 false = 2
  hreads7_4 : ∀ i i' : grid7.Coords, (∀ a, reads7_4 a = true → i a = i' a) → cc7_transform_4 i = cc7_transform_4 i'
  hinb7_4 : ∀ (i : grid7.Coords) a, (cc7_transform_4 i a + 1) * S5000x128.size a ≤ S50000x128.size a
  hwx7_4 : ∀ i : grid7.Coords, EltTy.bits .f32 = 32 ∨ (Rect.block (s := S50000x128) S5000x128.size (cc7_transform_4 i) (hinb7_4 i)).WholeWords (EltTy.packing .f32)
  hstage7_5 : ∀ j, (stage7_5 j).IsWhole
  nbuf7_5 : grid7.bufCount reads7_5 true = 1
  hreads7_5 : ∀ i i' : grid7.Coords, (∀ a, reads7_5 a = true → i a = i' a) → cc7_transform_5 i = cc7_transform_5 i'
  hinb7_5 : ∀ (i : grid7.Coords) a, (cc7_transform_5 i a + 1) * S1x128.size a ≤ S1x128.size a
  hwx7_5 : ∀ i : grid7.Coords, EltTy.bits .f32 = 32 ∨ (Rect.block (s := S1x128) S1x128.size (cc7_transform_5 i) (hinb7_5 i)).WholeWords (EltTy.packing .f32)
  hstage7_6 : ∀ j, (stage7_6 j).IsWhole
  nbuf7_6 : grid7.bufCount reads7_6 true = 1
  hreads7_6 : ∀ i i' : grid7.Coords, (∀ a, reads7_6 a = true → i a = i' a) → cc7_transform_6 i = cc7_transform_6 i'
  hinb7_6 : ∀ (i : grid7.Coords) a, (cc7_transform_6 i a + 1) * S1x128.size a ≤ S1x128.size a
  hwx7_6 : ∀ i : grid7.Coords, EltTy.bits .f32 = 32 ∨ (Rect.block (s := S1x128) S1x128.size (cc7_transform_6 i) (hinb7_6 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S5000x128.size a ≤ S50000x128.size a
  hwx8_0 : ∀ i : grid8.Coords, EltTy.bits .f32 = 32 ∨ (Rect.block (s := S50000x128) S5000x128.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S1x128.size a ≤ S1x128.size a
  hwx8_1 : ∀ i : grid8.Coords, EltTy.bits .f32 = 32 ∨ (Rect.block (s := S1x128) S1x128.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x128.size a ≤ S1x128.size a
  hwx8_2 : ∀ i : grid8.Coords, EltTy.bits .f32 = 32 ∨ (Rect.block (s := S1x128) S1x128.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S1x128.size a ≤ S1x128.size a
  hwx8_3 : ∀ i : grid8.Coords, EltTy.bits .f32 = 32 ∨ (Rect.block (s := S1x128) S1x128.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S1x128.size a ≤ S1x128.size a
  hwx8_4 : ∀ i : grid8.Coords, EltTy.bits .f32 = 32 ∨ (Rect.block (s := S1x128) S1x128.size (cc8_transform_4 i) (hinb8_4 i)).WholeWords (EltTy.packing .f32)
  hstage8_5 : ∀ j, (stage8_5 j).IsWhole
  nbuf8_5 : grid8.bufCount reads8_5 false = 2
  hreads8_5 : ∀ i i' : grid8.Coords, (∀ a, reads8_5 a = true → i a = i' a) → cc8_transform_5 i = cc8_transform_5 i'
  hinb8_5 : ∀ (i : grid8.Coords) a, (cc8_transform_5 i a + 1) * S5000x128.size a ≤ S50000x128.size a
  hwx8_5 : ∀ i : grid8.Coords, EltTy.bits .f32 = 32 ∨ (Rect.block (s := S50000x128) S5000x128.size (cc8_transform_5 i) (hinb8_5 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S5000x128.size a ≤ S50000x128.size a
  hwx9_0 : ∀ i : grid9.Coords, EltTy.bits .f32 = 32 ∨ (Rect.block (s := S50000x128) S5000x128.size (cc9_transform_0 i) (hinb9_0 i)).WholeWords (EltTy.packing .f32)
  hstage9_1 : ∀ j, (stage9_1 j).IsWhole
  nbuf9_1 : grid9.bufCount reads9_1 false = 2
  hreads9_1 : ∀ i i' : grid9.Coords, (∀ a, reads9_1 a = true → i a = i' a) → cc9_transform_1 i = cc9_transform_1 i'
  hinb9_1 : ∀ (i : grid9.Coords) a, (cc9_transform_1 i a + 1) * S5000x1.size a ≤ S50000x1.size a
  hwx9_1 : ∀ i : grid9.Coords, EltTy.bits .f32 = 32 ∨ (Rect.block (s := S50000x1) S5000x1.size (cc9_transform_1 i) (hinb9_1 i)).WholeWords (EltTy.packing .f32)
  hstage9_2 : ∀ j, (stage9_2 j).IsWhole
  nbuf9_2 : grid9.bufCount reads9_2 false = 2
  hreads9_2 : ∀ i i' : grid9.Coords, (∀ a, reads9_2 a = true → i a = i' a) → cc9_transform_2 i = cc9_transform_2 i'
  hinb9_2 : ∀ (i : grid9.Coords) a, (cc9_transform_2 i a + 1) * S5000x1.size a ≤ S50000x1.size a
  hwx9_2 : ∀ i : grid9.Coords, EltTy.bits .i32 = 32 ∨ (Rect.block (s := S50000x1) S5000x1.size (cc9_transform_2 i) (hinb9_2 i)).WholeWords (EltTy.packing .i32)
  hstage9_3 : ∀ j, (stage9_3 j).IsWhole
  nbuf9_3 : grid9.bufCount reads9_3 true = 1
  hreads9_3 : ∀ i i' : grid9.Coords, (∀ a, reads9_3 a = true → i a = i' a) → cc9_transform_3 i = cc9_transform_3 i'
  hinb9_3 : ∀ (i : grid9.Coords) a, (cc9_transform_3 i a + 1) * S64x128.size a ≤ S64x128.size a
  hwx9_3 : ∀ i : grid9.Coords, EltTy.bits .f32 = 32 ∨ (Rect.block (s := S64x128) S64x128.size (cc9_transform_3 i) (hinb9_3 i)).WholeWords (EltTy.packing .f32)

variable [Facts₀]

def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000_S1600000x1_S1600000_n_0_n_n_0_1_1 : GatherDims S50000 S1600000x1 S1600000 where
  offsetDims := []
  collapsedSliceDims := [0]
  operandBatchingDims := []
  startIndicesBatchingDims := []
  startIndexMap := [0]
  indexVectorDim := 1
  sliceSizes := ![1]
  wf := gather_S50000_S1600000x1_S1600000_n_0_n_n_0_1_1_wf
def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf
def dot_S5000x64_S5000x128_S64x128_0_0_1_1_n_n : DotDims S5000x64 S5000x128 S64x128 where
  lhsContracting := [0]
  rhsContracting := [0]
  lhsNonContracting := [1]
  rhsNonContracting := [1]
  lhsBatch := []
  rhsBatch := []
  wf := dot_S5000x64_S5000x128_S64x128_0_0_1_1_n_n_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf
def dot_S64x128_S128x1_S64x1_1_0_0_1_n_n : DotDims S64x128 S128x1 S64x1 where
  lhsContracting := [1]
  rhsContracting := [0]
  lhsNonContracting := [0]
  rhsNonContracting := [1]
  lhsBatch := []
  rhsBatch := []
  wf := dot_S64x128_S128x1_S64x1_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v16) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v17) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v45) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v17) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v48) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v49_0) S5000x128.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v49_1) S1x128.size cc1_transform_5 reads1_5 true true 1 stage1_5 sem1_5
    hrank1 hreads1_5 hinb1_5 nbuf1_5 (Memref.isWhole_whole _) hwx1_5 hstage1_5

abbrev win1_6 : Pipeline.Window sig grid1 :=
  Pipeline.Window.ofSpec (Memref.whole main_v49_2) S1x128.size cc1_transform_6 reads1_6 true true 1 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v49_0) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v51) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v55) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v58) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v61) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v62) S5000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v62) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v13) S5000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v64) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v65) S5000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v93) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v65) S5000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v12) S5000x1.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v96) S1x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v97_0) S5000x128.size cc4_transform_4 reads4_4 true false 2 stage4_4 sem4_4
    hrank4 hreads4_4 hinb4_4 nbuf4_4 (Memref.isWhole_whole _) hwx4_4 hstage4_4

abbrev win4_5 : Pipeline.Window sig grid4 :=
  Pipeline.Window.ofSpec (Memref.whole main_v97_1) S1x128.size cc4_transform_5 reads4_5 true true 1 stage4_5 sem4_5
    hrank4 hreads4_5 hinb4_5 nbuf4_5 (Memref.isWhole_whole _) hwx4_5 hstage4_5

abbrev win4_6 : Pipeline.Window sig grid4 :=
  Pipeline.Window.ofSpec (Memref.whole main_v97_2) S1x128.size cc4_transform_6 reads4_6 true true 1 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

abbrev win5_0 : Pipeline.Window sig grid5 :=
  Pipeline.Window.ofSpec (Memref.whole main_v97_0) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v99) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v103) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v106) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v109) S1x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v110) S5000x128.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_v110) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v13) S5000x1.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v112) S128x128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v113) S5000x128.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

abbrev win7_0 : Pipeline.Window sig grid7 :=
  Pipeline.Window.ofSpec (Memref.whole main_v141) S5000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v113) S5000x128.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v12) S5000x1.size cc7_transform_2 reads7_2 false false 2 stage7_2 sem7_2
    hrank7 hreads7_2 hinb7_2 nbuf7_2 (Memref.isWhole_whole _) hwx7_2 hstage7_2

abbrev win7_3 : Pipeline.Window sig grid7 :=
  Pipeline.Window.ofSpec (Memref.whole main_v144) S1x128.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v145_0) S5000x128.size cc7_transform_4 reads7_4 true false 2 stage7_4 sem7_4
    hrank7 hreads7_4 hinb7_4 nbuf7_4 (Memref.isWhole_whole _) hwx7_4 hstage7_4

abbrev win7_5 : Pipeline.Window sig grid7 :=
  Pipeline.Window.ofSpec (Memref.whole main_v145_1) S1x128.size cc7_transform_5 reads7_5 true true 1 stage7_5 sem7_5
    hrank7 hreads7_5 hinb7_5 nbuf7_5 (Memref.isWhole_whole _) hwx7_5 hstage7_5

abbrev win7_6 : Pipeline.Window sig grid7 :=
  Pipeline.Window.ofSpec (Memref.whole main_v145_2) S1x128.size cc7_transform_6 reads7_6 true true 1 stage7_6 sem7_6
    hrank7 hreads7_6 hinb7_6 nbuf7_6 (Memref.isWhole_whole _) hwx7_6 hstage7_6

abbrev win7 : Fin 7 → Pipeline.Window sig grid7 := fun | 0 => win7_0 | 1 => win7_1 | 2 => win7_2 | 3 => win7_3 | 4 => win7_4 | 5 => win7_5 | 6 => win7_6 | ⟨_ + 7, h⟩ => absurd h (Nat.not_lt.2 (Nat.le_add_left _ _))
abbrev spec7 : Fin 7 → Pipeline.WinSpec sig grid7.rank := fun w => (win7 w).toWinSpec

abbrev win8_0 : Pipeline.Window sig grid8 :=
  Pipeline.Window.ofSpec (Memref.whole main_v145_0) S5000x128.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v147) S1x128.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v151) S1x128.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v154) S1x128.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v157) S1x128.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_v158) S5000x128.size cc8_transform_5 reads8_5 true false 2 stage8_5 sem8_5
    hrank8 hreads8_5 hinb8_5 nbuf8_5 (Memref.isWhole_whole _) hwx8_5 hstage8_5

abbrev win8 : Fin 6 → Pipeline.Window sig grid8 := fun | 0 => win8_0 | 1 => win8_1 | 2 => win8_2 | 3 => win8_3 | 4 => win8_4 | 5 => win8_5 | ⟨_ + 6, h⟩ => absurd h (Nat.not_lt.2 (Nat.le_add_left _ _))
abbrev spec8 : Fin 6 → Pipeline.WinSpec sig grid8.rank := fun w => (win8 w).toWinSpec

abbrev win9_0 : Pipeline.Window sig grid9 :=
  Pipeline.Window.ofSpec (Memref.whole main_v158) S5000x128.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v13) S5000x1.size cc9_transform_1 reads9_1 false false 2 stage9_1 sem9_1
    hrank9 hreads9_1 hinb9_1 nbuf9_1 (Memref.isWhole_whole _) hwx9_1 hstage9_1

abbrev win9_2 : Pipeline.Window sig grid9 :=
  Pipeline.Window.ofSpec (Memref.whole main_v14) S5000x1.size cc9_transform_2 reads9_2 false false 2 stage9_2 sem9_2
    hrank9 hreads9_2 hinb9_2 nbuf9_2 (Memref.isWhole_whole _) hwx9_2 hstage9_2

abbrev win9_3 : Pipeline.Window sig grid9 :=
  Pipeline.Window.ofSpec (Memref.whole main_v159) S64x128.size cc9_transform_3 reads9_3 true true 1 stage9_3 sem9_3
    hrank9 hreads9_3 hinb9_3 nbuf9_3 (Memref.isWhole_whole _) hwx9_3 hstage9_3

abbrev win9 : Fin 4 → Pipeline.Window sig grid9 := fun | 0 => win9_0 | 1 => win9_1 | 2 => win9_2 | 3 => win9_3 | ⟨_ + 4, h⟩ => absurd h (Nat.not_lt.2 (Nat.le_add_left _ _))
abbrev spec9 : Fin 4 → Pipeline.WinSpec sig grid9.rank := fun w => (win9 w).toWinSpec

class Facts : Prop extends Facts₀ where

variable [Facts]
-- ==== ReferenceIdeal.lean ====
abbrev S50000x128 : Shape := ⟨2, ![50000, 128]⟩
abbrev S2x1600000 : Shape := ⟨2, ![2, 1600000]⟩
abbrev S50000 : Shape := ⟨1, ![50000]⟩
abbrev S3x128x128 : Shape := ⟨3, ![3, 128, 128]⟩
abbrev S3x128 : Shape := ⟨2, ![3, 128]⟩
abbrev S128x1 : Shape := ⟨2, ![128, 1]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S50000x1 : Shape := ⟨2, ![50000, 1]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S1600000x128 : Shape := ⟨2, ![1600000, 128]⟩
abbrev S64 : Shape := ⟨1, ![64]⟩
abbrev S64x128 : Shape := ⟨2, ![64, 128]⟩
abbrev S64x1 : Shape := ⟨2, ![64, 1]⟩
abbrev S1x1 : Shape := ⟨2, ![1, 1]⟩

abbrev nBuf : Space → Nat
  | .hbm => 354
  | .vmem => 0
  | .smem => 0
  | _ => 0

abbrev hbmTy0_0 (i : Nat) : BufTy := match i % 128 with
  | 0 => ⟨S50000x128, .f32⟩
  | 1 => ⟨S2x1600000, .i32⟩
  | 2 => ⟨S50000, .f32⟩
  | 3 => ⟨S50000, .i32⟩
  | 4 => ⟨S3x128x128, .f32⟩
  | 5 => ⟨S3x128, .f32⟩
  | 6 => ⟨S3x128, .f32⟩
  | 7 => ⟨S3x128, .f32⟩
  | 8 => ⟨S128x1, .f32⟩
  | 9 => ⟨S1, .f32⟩
  | 10 => ⟨S1x1600000, .i32⟩
  | 11 => ⟨S1600000, .i32⟩
  | 12 => ⟨S1x1600000, .i32⟩
  | 13 => ⟨S1600000, .i32⟩
  | 14 => ⟨S_, .f32⟩
  | 15 => ⟨S1600000, .f32⟩
  | 16 => ⟨S_, .f32⟩
  | 17 => ⟨S50000, .f32⟩
  | 18 => ⟨S1600000x1, .i32⟩
  | 19 => ⟨S50000, .f32⟩
  | 20 => ⟨S_, .f32⟩
  | 21 => ⟨S50000, .f32⟩
  | 22 => ⟨S50000, .f32⟩
  | 23 => ⟨S50000, .f32⟩
  | 24 => ⟨S50000x1, .f32⟩
  | 25 => ⟨S50000x128, .f32⟩
  | 26 => ⟨S50000x128, .f32⟩
  | 27 => ⟨S1x128x128, .f32⟩
  | 28 => ⟨S128x128, .f32⟩
  | 29 => ⟨S1x128, .f32⟩
  | 30 => ⟨S128, .f32⟩
  | 31 => ⟨S50000x128, .f32⟩
  | 32 => ⟨S_, .i32⟩
  | 33 => ⟨S1600000, .i32⟩
  | 34 => ⟨S1600000, .i1⟩
  | 35 => ⟨S_, .i32⟩
  | 36 => ⟨S1600000, .i32⟩
  | 37 => ⟨S1600000, .i32⟩
  | 38 => ⟨S1600000, .i32⟩
  | 39 => ⟨S1600000x1, .i32⟩
  | 40 => ⟨S1600000, .f32⟩
  | 41 => ⟨S_, .i32⟩
  | 42 => ⟨S1600000, .i32⟩
  | 43 => ⟨S1600000, .i1⟩
  | 44 => ⟨S_, .i32⟩
  | 45 => ⟨S1600000, .i32⟩
  | 46 => ⟨S1600000, .i32⟩
  | 47 => ⟨S1600000, .i32⟩
  | 48 => ⟨S1600000x1, .i32⟩
  | 49 => ⟨S1600000, .f32⟩
  | 50 => ⟨S1600000, .f32⟩
  | 51 => ⟨S_, .i32⟩
  | 52 => ⟨S1600000, .i32⟩
  | 53 => ⟨S1600000, .i1⟩
  | 54 => ⟨S_, .i32⟩
  | 55 => ⟨S1600000, .i32⟩
  | 56 => ⟨S1600000, .i32⟩
  | 57 => ⟨S1600000, .i32⟩
  | 58 => ⟨S1600000x1, .i32⟩
  | 59 => ⟨S1600000x128, .f32⟩
  | 60 => ⟨S1600000x1, .f32⟩
  | 61 => ⟨S1600000x128, .f32⟩
  | 62 => ⟨S1600000x128, .f32⟩
  | 63 => ⟨S_, .f32⟩
  | 64 => ⟨S50000x128, .f32⟩
  | 65 => ⟨S1600000x1, .i32⟩
  | 66 => ⟨S50000x128, .f32⟩
  | 67 => ⟨S50000, .f32⟩
  | 68 => ⟨S50000x1, .f32⟩
  | 69 => ⟨S50000x128, .f32⟩
  | 70 => ⟨S50000x128, .f32⟩
  | 71 => ⟨S50000x128, .f32⟩
  | 72 => ⟨S1x128, .f32⟩
  | 73 => ⟨S50000x128, .f32⟩
  | 74 => ⟨S50000x128, .f32⟩
  | 75 => ⟨S_, .f32⟩
  | 76 => ⟨S128, .f32⟩
  | 77 => ⟨S_, .f32⟩
  | 78 => ⟨S128, .f32⟩
  | 79 => ⟨S128, .f32⟩
  | 80 => ⟨S_, .i32⟩
  | 81 => ⟨S_, .f32⟩
  | 82 => ⟨S128, .f32⟩
  | 83 => ⟨S1x128, .f32⟩
  | 84 => ⟨S_, .f32⟩
  | 85 => ⟨S1x128, .f32⟩
  | 86 => ⟨S1x128, .f32⟩
  | 87 => ⟨S50000x128, .f32⟩
  | 88 => ⟨S50000x128, .f32⟩
  | 89 => ⟨S50000x128, .f32⟩
  | 90 => ⟨S_, .f32⟩
  | 91 => ⟨S_, .f32⟩
  | 92 => ⟨S_, .f32⟩
  | 93 => ⟨S_, .f32⟩
  | 94 => ⟨S128, .f32⟩
  | 95 => ⟨S128, .f32⟩
  | 96 => ⟨S128, .f32⟩
  | 97 => ⟨S_, .f32⟩
  | 98 => ⟨S_, .i1⟩
  | 99 => ⟨S_, .f32⟩
  | 100 => ⟨S_, .f32⟩
  | 101 => ⟨S128, .f32⟩
  | 102 => ⟨S128, .f32⟩
  | 103 => ⟨S1x128, .f32⟩
  | 104 => ⟨S128, .f32⟩
  | 105 => ⟨S1x128, .f32⟩
  | 106 => ⟨S50000x128, .f32⟩
  | 107 => ⟨S50000x128, .f32⟩
  | 108 => ⟨S1x128, .f32⟩
  | 109 => ⟨S50000x128, .f32⟩
  | 110 => ⟨S50000x128, .f32⟩
  | 111 => ⟨S_, .f32⟩
  | 112 => ⟨S128, .f32⟩
  | 113 => ⟨S128, .f32⟩
  | 114 => ⟨S128, .f32⟩
  | 115 => ⟨S1x128, .f32⟩
  | 116 => ⟨S50000x128, .f32⟩
  | 117 => ⟨S50000x128, .f32⟩
  | 118 => ⟨S1x128, .f32⟩
  | 119 => ⟨S128, .f32⟩
  | 120 => ⟨S1x128, .f32⟩
  | 121 => ⟨S50000x128, .f32⟩
  | 122 => ⟨S50000x128, .f32⟩
  | 123 => ⟨S_, .f32⟩
  | 124 => ⟨S50000x128, .f32⟩
  | 125 => ⟨S50000x128, .f32⟩
  | 126 => ⟨S50000x1, .f32⟩
  | 127 => ⟨S50000x128, .f32⟩
  | _ => ⟨S50000x128, .f32⟩

abbrev hbmTy0_1 (i : Nat) : BufTy := match i % 128 with
  | 0 => ⟨S50000x128, .f32⟩
  | 1 => ⟨S1x128x128, .f32⟩
  | 2 => ⟨S128x128, .f32⟩
  | 3 => ⟨S1x128, .f32⟩
  | 4 => ⟨S128, .f32⟩
  | 5 => ⟨S50000x128, .f32⟩
  | 6 => ⟨S_, .i32⟩
  | 7 => ⟨S1600000, .i32⟩
  | 8 => ⟨S1600000, .i1⟩
  | 9 => ⟨S_, .i32⟩
  | 10 => ⟨S1600000, .i32⟩
  | 11 => ⟨S1600000, .i32⟩
  | 12 => ⟨S1600000, .i32⟩
  | 13 => ⟨S1600000x1, .i32⟩
  | 14 => ⟨S1600000, .f32⟩
  | 15 => ⟨S_, .i32⟩
  | 16 => ⟨S1600000, .i32⟩
  | 17 => ⟨S1600000, .i1⟩
  | 18 => ⟨S_, .i32⟩
  | 19 => ⟨S1600000, .i32⟩
  | 20 => ⟨S1600000, .i32⟩
  | 21 => ⟨S1600000, .i32⟩
  | 22 => ⟨S1600000x1, .i32⟩
  | 23 => ⟨S1600000, .f32⟩
  | 24 => ⟨S1600000, .f32⟩
  | 25 => ⟨S_, .i32⟩
  | 26 => ⟨S1600000, .i32⟩
  | 27 => ⟨S1600000, .i1⟩
  | 28 => ⟨S_, .i32⟩
  | 29 => ⟨S1600000, .i32⟩
  | 30 => ⟨S1600000, .i32⟩
  | 31 => ⟨S1600000, .i32⟩
  | 32 => ⟨S1600000x1, .i32⟩
  | 33 => ⟨S1600000x128, .f32⟩
  | 34 => ⟨S1600000x1, .f32⟩
  | 35 => ⟨S1600000x128, .f32⟩
  | 36 => ⟨S1600000x128, .f32⟩
  | 37 => ⟨S_, .f32⟩
  | 38 => ⟨S50000x128, .f32⟩
  | 39 => ⟨S1600000x1, .i32⟩
  | 40 => ⟨S50000x128, .f32⟩
  | 41 => ⟨S50000, .f32⟩
  | 42 => ⟨S50000x1, .f32⟩
  | 43 => ⟨S50000x128, .f32⟩
  | 44 => ⟨S50000x128, .f32⟩
  | 45 => ⟨S50000x128, .f32⟩
  | 46 => ⟨S1x128, .f32⟩
  | 47 => ⟨S50000x128, .f32⟩
  | 48 => ⟨S50000x128, .f32⟩
  | 49 => ⟨S_, .f32⟩
  | 50 => ⟨S128, .f32⟩
  | 51 => ⟨S_, .f32⟩
  | 52 => ⟨S128, .f32⟩
  | 53 => ⟨S128, .f32⟩
  | 54 => ⟨S_, .i32⟩
  | 55 => ⟨S_, .f32⟩
  | 56 => ⟨S128, .f32⟩
  | 57 => ⟨S1x128, .f32⟩
  | 58 => ⟨S_, .f32⟩
  | 59 => ⟨S1x128, .f32⟩
  | 60 => ⟨S1x128, .f32⟩
  | 61 => ⟨S50000x128, .f32⟩
  | 62 => ⟨S50000x128, .f32⟩
  | 63 => ⟨S50000x128, .f32⟩
  | 64 => ⟨S_, .f32⟩
  | 65 => ⟨S_, .f32⟩
  | 66 => ⟨S_, .f32⟩
  | 67 => ⟨S_, .f32⟩
  | 68 => ⟨S128, .f32⟩
  | 69 => ⟨S128, .f32⟩
  | 70 => ⟨S128, .f32⟩
  | 71 => ⟨S_, .f32⟩
  | 72 => ⟨S_, .i1⟩
  | 73 => ⟨S_, .f32⟩
  | 74 => ⟨S_, .f32⟩
  | 75 => ⟨S128, .f32⟩
  | 76 => ⟨S128, .f32⟩
  | 77 => ⟨S1x128, .f32⟩
  | 78 => ⟨S128, .f32⟩
  | 79 => ⟨S1x128, .f32⟩
  | 80 => ⟨S50000x128, .f32⟩
  | 81 => ⟨S50000x128, .f32⟩
  | 82 => ⟨S1x128, .f32⟩
  | 83 => ⟨S50000x128, .f32⟩
  | 84 => ⟨S50000x128, .f32⟩
  | 85 => ⟨S_, .f32⟩
  | 86 => ⟨S128, .f32⟩
  | 87 => ⟨S128, .f32⟩
  | 88 => ⟨S128, .f32⟩
  | 89 => ⟨S1x128, .f32⟩
  | 90 => ⟨S50000x128, .f32⟩
  | 91 => ⟨S50000x128, .f32⟩
  | 92 => ⟨S1x128, .f32⟩
  | 93 => ⟨S128, .f32⟩
  | 94 => ⟨S1x128, .f32⟩
  | 95 => ⟨S50000x128, .f32⟩
  | 96 => ⟨S50000x128, .f32⟩
  | 97 => ⟨S_, .f32⟩
  | 98 => ⟨S50000x128, .f32⟩
  | 99 => ⟨S50000x128, .f32⟩
  | 100 => ⟨S50000x1, .f32⟩
  | 101 => ⟨S50000x128, .f32⟩
  | 102 => ⟨S50000x128, .f32⟩
  | 103 => ⟨S1x128x128, .f32⟩
  | 104 => ⟨S128x128, .f32⟩
  | 105 => ⟨S1x128, .f32⟩
  | 106 => ⟨S128, .f32⟩
  | 107 => ⟨S50000x128, .f32⟩
  | 108 => ⟨S_, .i32⟩
  | 109 => ⟨S1600000, .i32⟩
  | 110 => ⟨S1600000, .i1⟩
  | 111 => ⟨S_, .i32⟩
  | 112 => ⟨S1600000, .i32⟩
  | 113 => ⟨S1600000, .i32⟩
  | 114 => ⟨S1600000, .i32⟩
  | 115 => ⟨S1600000x1, .i32⟩
  | 116 => ⟨S1600000, .f32⟩
  | 117 => ⟨S_, .i32⟩
  | 118 => ⟨S1600000, .i32⟩
  | 119 => ⟨S1600000, .i1⟩
  | 120 => ⟨S_, .i32⟩
  | 121 => ⟨S1600000, .i32⟩
  | 122 => ⟨S1600000, .i32⟩
  | 123 => ⟨S1600000, .i32⟩
  | 124 => ⟨S1600000x1, .i32⟩
  | 125 => ⟨S1600000, .f32⟩
  | 126 => ⟨S1600000, .f32⟩
  | 127 => ⟨S_, .i32⟩
  | _ => ⟨S50000x128, .f32⟩

abbrev hbmTy0_2 (i : Nat) : BufTy := match i % 128 with
  | 0 => ⟨S1600000, .i32⟩
  | 1 => ⟨S1600000, .i1⟩
  | 2 => ⟨S_, .i32⟩
  | 3 => ⟨S1600000, .i32⟩
  | 4 => ⟨S1600000, .i32⟩
  | 5 => ⟨S1600000, .i32⟩
  | 6 => ⟨S1600000x1, .i32⟩
  | 7 => ⟨S1600000x128, .f32⟩
  | 8 => ⟨S1600000x1, .f32⟩
  | 9 => ⟨S1600000x128, .f32⟩
  | 10 => ⟨S1600000x128, .f32⟩
  | 11 => ⟨S_, .f32⟩
  | 12 => ⟨S50000x128, .f32⟩
  | 13 => ⟨S1600000x1, .i32⟩
  | 14 => ⟨S50000x128, .f32⟩
  | 15 => ⟨S50000, .f32⟩
  | 16 => ⟨S50000x1, .f32⟩
  | 17 => ⟨S50000x128, .f32⟩
  | 18 => ⟨S50000x128, .f32⟩
  | 19 => ⟨S50000x128, .f32⟩
  | 20 => ⟨S1x128, .f32⟩
  | 21 => ⟨S50000x128, .f32⟩
  | 22 => ⟨S50000x128, .f32⟩
  | 23 => ⟨S_, .f32⟩
  | 24 => ⟨S128, .f32⟩
  | 25 => ⟨S_, .f32⟩
  | 26 => ⟨S128, .f32⟩
  | 27 => ⟨S128, .f32⟩
  | 28 => ⟨S_, .i32⟩
  | 29 => ⟨S_, .f32⟩
  | 30 => ⟨S128, .f32⟩
  | 31 => ⟨S1x128, .f32⟩
  | 32 => ⟨S_, .f32⟩
  | 33 => ⟨S1x128, .f32⟩
  | 34 => ⟨S1x128, .f32⟩
  | 35 => ⟨S50000x128, .f32⟩
  | 36 => ⟨S50000x128, .f32⟩
  | 37 => ⟨S50000x128, .f32⟩
  | 38 => ⟨S_, .f32⟩
  | 39 => ⟨S_, .f32⟩
  | 40 => ⟨S_, .f32⟩
  | 41 => ⟨S_, .f32⟩
  | 42 => ⟨S128, .f32⟩
  | 43 => ⟨S128, .f32⟩
  | 44 => ⟨S128, .f32⟩
  | 45 => ⟨S_, .f32⟩
  | 46 => ⟨S_, .i1⟩
  | 47 => ⟨S_, .f32⟩
  | 48 => ⟨S_, .f32⟩
  | 49 => ⟨S128, .f32⟩
  | 50 => ⟨S128, .f32⟩
  | 51 => ⟨S1x128, .f32⟩
  | 52 => ⟨S128, .f32⟩
  | 53 => ⟨S1x128, .f32⟩
  | 54 => ⟨S50000x128, .f32⟩
  | 55 => ⟨S50000x128, .f32⟩
  | 56 => ⟨S1x128, .f32⟩
  | 57 => ⟨S50000x128, .f32⟩
  | 58 => ⟨S50000x128, .f32⟩
  | 59 => ⟨S_, .f32⟩
  | 60 => ⟨S128, .f32⟩
  | 61 => ⟨S128, .f32⟩
  | 62 => ⟨S128, .f32⟩
  | 63 => ⟨S1x128, .f32⟩
  | 64 => ⟨S50000x128, .f32⟩
  | 65 => ⟨S50000x128, .f32⟩
  | 66 => ⟨S1x128, .f32⟩
  | 67 => ⟨S128, .f32⟩
  | 68 => ⟨S1x128, .f32⟩
  | 69 => ⟨S50000x128, .f32⟩
  | 70 => ⟨S50000x128, .f32⟩
  | 71 => ⟨S_, .f32⟩
  | 72 => ⟨S50000x128, .f32⟩
  | 73 => ⟨S50000x128, .f32⟩
  | 74 => ⟨S50000x1, .f32⟩
  | 75 => ⟨S50000x128, .f32⟩
  | 76 => ⟨S50000x128, .f32⟩
  | 77 => ⟨S_, .f32⟩
  | 78 => ⟨S50000, .f32⟩
  | 79 => ⟨S_, .f32⟩
  | 80 => ⟨S64, .f32⟩
  | 81 => ⟨S50000x1, .i32⟩
  | 82 => ⟨S64, .f32⟩
  | 83 => ⟨S_, .f32⟩
  | 84 => ⟨S64x128, .f32⟩
  | 85 => ⟨S50000x1, .i32⟩
  | 86 => ⟨S64x128, .f32⟩
  | 87 => ⟨S_, .f32⟩
  | 88 => ⟨S64, .f32⟩
  | 89 => ⟨S64, .f32⟩
  | 90 => ⟨S64x1, .f32⟩
  | 91 => ⟨S64x128, .f32⟩
  | 92 => ⟨S64x128, .f32⟩
  | 93 => ⟨S64x1, .f32⟩
  | 94 => ⟨S1x1, .f32⟩
  | 95 => ⟨S64x1, .f32⟩
  | 96 => ⟨S64x1, .f32⟩
  | 97 => ⟨S64, .f32⟩
  | _ => ⟨S50000x128, .f32⟩

abbrev hbmTy (i : Nat) : BufTy := match i / 128 with
  | 0 => hbmTy0_0 i
  | 1 => hbmTy0_1 i
  | 2 => hbmTy0_2 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_c : Ref sig .tc := ⟨.hbm, 32, rfl⟩
abbrev main_v19 : Ref sig .tc := ⟨.hbm, 33, rfl⟩
abbrev main_v20 : Ref sig .tc := ⟨.hbm, 34, rfl⟩
abbrev main_c_2 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_c_3 : Ref sig .tc := ⟨.hbm, 41, rfl⟩
abbrev main_v26 : Ref sig .tc := ⟨.hbm, 42, rfl⟩
abbrev main_v27 : Ref sig .tc := ⟨.hbm, 43, rfl⟩
abbrev main_c_4 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_c_5 : Ref sig .tc := ⟨.hbm, 51, rfl⟩
abbrev main_v34 : Ref sig .tc := ⟨.hbm, 52, rfl⟩
abbrev main_v35 : Ref sig .tc := ⟨.hbm, 53, rfl⟩
abbrev main_c_6 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_7 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_cst_8 : Ref sig .tc := ⟨.hbm, 75, rfl⟩
abbrev main_v55 : Ref sig .tc := ⟨.hbm, 76, rfl⟩
abbrev main_cst_9 : Ref sig .tc := ⟨.hbm, 77, rfl⟩
abbrev main_v56 : Ref sig .tc := ⟨.hbm, 78, rfl⟩
abbrev main_v57 : Ref sig .tc := ⟨.hbm, 79, rfl⟩
abbrev main_c_10 : Ref sig .tc := ⟨.hbm, 80, rfl⟩
abbrev main_call0_cst : Ref sig .tc := ⟨.hbm, 81, rfl⟩
abbrev main_call0_v0 : Ref sig .tc := ⟨.hbm, 82, rfl⟩
abbrev main_call0_v1 : Ref sig .tc := ⟨.hbm, 83, rfl⟩
abbrev main_call0_cst_0 : Ref sig .tc := ⟨.hbm, 84, rfl⟩
abbrev main_call0_v2 : Ref sig .tc := ⟨.hbm, 85, rfl⟩
abbrev main_call0_v3 : Ref sig .tc := ⟨.hbm, 86, rfl⟩
abbrev main_call0_v4 : Ref sig .tc := ⟨.hbm, 87, rfl⟩
abbrev main_call0_v5 : Ref sig .tc := ⟨.hbm, 88, rfl⟩
abbrev main_call0_v6 : Ref sig .tc := ⟨.hbm, 89, rfl⟩
abbrev main_call0_v7 : Ref sig .tc := ⟨.hbm, 90, rfl⟩
abbrev main_call0_cst_1 : Ref sig .tc := ⟨.hbm, 91, rfl⟩
abbrev main_call0_v8 : Ref sig .tc := ⟨.hbm, 92, rfl⟩
abbrev main_call0_cst_2 : Ref sig .tc := ⟨.hbm, 93, rfl⟩
abbrev main_call0_v9 : Ref sig .tc := ⟨.hbm, 94, rfl⟩
abbrev main_call0_v10 : Ref sig .tc := ⟨.hbm, 95, rfl⟩
abbrev main_call0_v11 : Ref sig .tc := ⟨.hbm, 96, rfl⟩
abbrev main_call0_cst_3 : Ref sig .tc := ⟨.hbm, 97, rfl⟩
abbrev main_call0_v12 : Ref sig .tc := ⟨.hbm, 98, rfl⟩
abbrev main_call0_cst_4 : Ref sig .tc := ⟨.hbm, 99, rfl⟩
abbrev main_call0_call0_v0 : Ref sig .tc := ⟨.hbm, 100, rfl⟩
abbrev main_call0_call0_v1 : Ref sig .tc := ⟨.hbm, 101, rfl⟩
abbrev main_v58 : Ref sig .tc := ⟨.hbm, 102, rfl⟩
abbrev main_v59 : Ref sig .tc := ⟨.hbm, 103, rfl⟩
abbrev main_v60 : Ref sig .tc := ⟨.hbm, 104, rfl⟩
abbrev main_v61 : Ref sig .tc := ⟨.hbm, 105, rfl⟩
abbrev main_v62 : Ref sig .tc := ⟨.hbm, 106, rfl⟩
abbrev main_v63 : Ref sig .tc := ⟨.hbm, 107, rfl⟩
abbrev main_v64 : Ref sig .tc := ⟨.hbm, 108, rfl⟩
abbrev main_v65 : Ref sig .tc := ⟨.hbm, 109, rfl⟩
abbrev main_v66 : Ref sig .tc := ⟨.hbm, 110, rfl⟩
abbrev main_cst_11 : Ref sig .tc := ⟨.hbm, 111, rfl⟩
abbrev main_v67 : Ref sig .tc := ⟨.hbm, 112, rfl⟩
abbrev main_v68 : Ref sig .tc := ⟨.hbm, 113, rfl⟩
abbrev main_v69 : Ref sig .tc := ⟨.hbm, 114, rfl⟩
abbrev main_v70 : Ref sig .tc := ⟨.hbm, 115, rfl⟩
abbrev main_v71 : Ref sig .tc := ⟨.hbm, 116, rfl⟩
abbrev main_v72 : Ref sig .tc := ⟨.hbm, 117, rfl⟩
abbrev main_v73 : Ref sig .tc := ⟨.hbm, 118, rfl⟩
abbrev main_v74 : Ref sig .tc := ⟨.hbm, 119, rfl⟩
abbrev main_v75 : Ref sig .tc := ⟨.hbm, 120, rfl⟩
abbrev main_v76 : Ref sig .tc := ⟨.hbm, 121, rfl⟩
abbrev main_v77 : Ref sig .tc := ⟨.hbm, 122, rfl⟩
abbrev main_call1_cst : Ref sig .tc := ⟨.hbm, 123, rfl⟩
abbrev main_call1_v0 : Ref sig .tc := ⟨.hbm, 124, rfl⟩
abbrev main_v78 : Ref sig .tc := ⟨.hbm, 125, rfl⟩
abbrev main_v79 : Ref sig .tc := ⟨.hbm, 126, rfl⟩
abbrev main_v80 : Ref sig .tc := ⟨.hbm, 127, rfl⟩
abbrev main_v81 : Ref sig .tc := ⟨.hbm, 128, rfl⟩
abbrev main_v82 : Ref sig .tc := ⟨.hbm, 129, rfl⟩
abbrev main_v83 : Ref sig .tc := ⟨.hbm, 130, rfl⟩
abbrev main_v84 : Ref sig .tc := ⟨.hbm, 131, rfl⟩
abbrev main_v85 : Ref sig .tc := ⟨.hbm, 132, rfl⟩
abbrev main_v86 : Ref sig .tc := ⟨.hbm, 133, rfl⟩
abbrev main_c_12 : Ref sig .tc := ⟨.hbm, 134, rfl⟩
abbrev main_v87 : Ref sig .tc := ⟨.hbm, 135, rfl⟩
abbrev main_v88 : Ref sig .tc := ⟨.hbm, 136, rfl⟩
abbrev main_c_13 : Ref sig .tc := ⟨.hbm, 137, rfl⟩
abbrev main_v89 : Ref sig .tc := ⟨.hbm, 138, rfl⟩
abbrev main_v90 : Ref sig .tc := ⟨.hbm, 139, rfl⟩
abbrev main_v91 : Ref sig .tc := ⟨.hbm, 140, rfl⟩
abbrev main_v92 : Ref sig .tc := ⟨.hbm, 141, rfl⟩
abbrev main_v93 : Ref sig .tc := ⟨.hbm, 142, rfl⟩
abbrev main_c_14 : Ref sig .tc := ⟨.hbm, 143, rfl⟩
abbrev main_v94 : Ref sig .tc := ⟨.hbm, 144, rfl⟩
abbrev main_v95 : Ref sig .tc := ⟨.hbm, 145, rfl⟩
abbrev main_c_15 : Ref sig .tc := ⟨.hbm, 146, rfl⟩
abbrev main_v96 : Ref sig .tc := ⟨.hbm, 147, rfl⟩
abbrev main_v97 : Ref sig .tc := ⟨.hbm, 148, rfl⟩
abbrev main_v98 : Ref sig .tc := ⟨.hbm, 149, rfl⟩
abbrev main_v99 : Ref sig .tc := ⟨.hbm, 150, rfl⟩
abbrev main_v100 : Ref sig .tc := ⟨.hbm, 151, rfl⟩
abbrev main_v101 : Ref sig .tc := ⟨.hbm, 152, rfl⟩
abbrev main_c_16 : Ref sig .tc := ⟨.hbm, 153, rfl⟩
abbrev main_v102 : Ref sig .tc := ⟨.hbm, 154, rfl⟩
abbrev main_v103 : Ref sig .tc := ⟨.hbm, 155, rfl⟩
abbrev main_c_17 : Ref sig .tc := ⟨.hbm, 156, rfl⟩
abbrev main_v104 : Ref sig .tc := ⟨.hbm, 157, rfl⟩
abbrev main_v105 : Ref sig .tc := ⟨.hbm, 158, rfl⟩
abbrev main_v106 : Ref sig .tc := ⟨.hbm, 159, rfl⟩
abbrev main_v107 : Ref sig .tc := ⟨.hbm, 160, rfl⟩
abbrev main_v108 : Ref sig .tc := ⟨.hbm, 161, rfl⟩
abbrev main_v109 : Ref sig .tc := ⟨.hbm, 162, rfl⟩
abbrev main_v110 : Ref sig .tc := ⟨.hbm, 163, rfl⟩
abbrev main_v111 : Ref sig .tc := ⟨.hbm, 164, rfl⟩
abbrev main_cst_18 : Ref sig .tc := ⟨.hbm, 165, rfl⟩
abbrev main_v112 : Ref sig .tc := ⟨.hbm, 166, rfl⟩
abbrev main_v113 : Ref sig .tc := ⟨.hbm, 167, rfl⟩
abbrev main_v114 : Ref sig .tc := ⟨.hbm, 168, rfl⟩
abbrev main_v115 : Ref sig .tc := ⟨.hbm, 169, rfl⟩
abbrev main_v116 : Ref sig .tc := ⟨.hbm, 170, rfl⟩
abbrev main_v117 : Ref sig .tc := ⟨.hbm, 171, rfl⟩
abbrev main_v118 : Ref sig .tc := ⟨.hbm, 172, rfl⟩
abbrev main_v119 : Ref sig .tc := ⟨.hbm, 173, rfl⟩
abbrev main_v120 : Ref sig .tc := ⟨.hbm, 174, rfl⟩
abbrev main_v121 : Ref sig .tc := ⟨.hbm, 175, rfl⟩
abbrev main_v122 : Ref sig .tc := ⟨.hbm, 176, rfl⟩
abbrev main_cst_19 : Ref sig .tc := ⟨.hbm, 177, rfl⟩
abbrev main_v123 : Ref sig .tc := ⟨.hbm, 178, rfl⟩
abbrev main_cst_20 : Ref sig .tc := ⟨.hbm, 179, rfl⟩
abbrev main_v124 : Ref sig .tc := ⟨.hbm, 180, rfl⟩
abbrev main_v125 : Ref sig .tc := ⟨.hbm, 181, rfl⟩
abbrev main_c_21 : Ref sig .tc := ⟨.hbm, 182, rfl⟩
abbrev main_call2_cst : Ref sig .tc := ⟨.hbm, 183, rfl⟩
abbrev main_call2_v0 : Ref sig .tc := ⟨.hbm, 184, rfl⟩
abbrev main_call2_v1 : Ref sig .tc := ⟨.hbm, 185, rfl⟩
abbrev main_call2_cst_0 : Ref sig .tc := ⟨.hbm, 186, rfl⟩
abbrev main_call2_v2 : Ref sig .tc := ⟨.hbm, 187, rfl⟩
abbrev main_call2_v3 : Ref sig .tc := ⟨.hbm, 188, rfl⟩
abbrev main_call2_v4 : Ref sig .tc := ⟨.hbm, 189, rfl⟩
abbrev main_call2_v5 : Ref sig .tc := ⟨.hbm, 190, rfl⟩
abbrev main_call2_v6 : Ref sig .tc := ⟨.hbm, 191, rfl⟩
abbrev main_call2_v7 : Ref sig .tc := ⟨.hbm, 192, rfl⟩
abbrev main_call2_cst_1 : Ref sig .tc := ⟨.hbm, 193, rfl⟩
abbrev main_call2_v8 : Ref sig .tc := ⟨.hbm, 194, rfl⟩
abbrev main_call2_cst_2 : Ref sig .tc := ⟨.hbm, 195, rfl⟩
abbrev main_call2_v9 : Ref sig .tc := ⟨.hbm, 196, rfl⟩
abbrev main_call2_v10 : Ref sig .tc := ⟨.hbm, 197, rfl⟩
abbrev main_call2_v11 : Ref sig .tc := ⟨.hbm, 198, rfl⟩
abbrev main_call2_cst_3 : Ref sig .tc := ⟨.hbm, 199, rfl⟩
abbrev main_call2_v12 : Ref sig .tc := ⟨.hbm, 200, rfl⟩
abbrev main_call2_cst_4 : Ref sig .tc := ⟨.hbm, 201, rfl⟩
abbrev main_call2_call0_v0 : Ref sig .tc := ⟨.hbm, 202, rfl⟩
abbrev main_call2_call0_v1 : Ref sig .tc := ⟨.hbm, 203, rfl⟩
abbrev main_v126 : Ref sig .tc := ⟨.hbm, 204, rfl⟩
abbrev main_v127 : Ref sig .tc := ⟨.hbm, 205, rfl⟩
abbrev main_v128 : Ref sig .tc := ⟨.hbm, 206, rfl⟩
abbrev main_v129 : Ref sig .tc := ⟨.hbm, 207, rfl⟩
abbrev main_v130 : Ref sig .tc := ⟨.hbm, 208, rfl⟩
abbrev main_v131 : Ref sig .tc := ⟨.hbm, 209, rfl⟩
abbrev main_v132 : Ref sig .tc := ⟨.hbm, 210, rfl⟩
abbrev main_v133 : Ref sig .tc := ⟨.hbm, 211, rfl⟩
abbrev main_v134 : Ref sig .tc := ⟨.hbm, 212, rfl⟩
abbrev main_cst_22 : Ref sig .tc := ⟨.hbm, 213, rfl⟩
abbrev main_v135 : Ref sig .tc := ⟨.hbm, 214, rfl⟩
abbrev main_v136 : Ref sig .tc := ⟨.hbm, 215, rfl⟩
abbrev main_v137 : Ref sig .tc := ⟨.hbm, 216, rfl⟩
abbrev main_v138 : Ref sig .tc := ⟨.hbm, 217, rfl⟩
abbrev main_v139 : Ref sig .tc := ⟨.hbm, 218, rfl⟩
abbrev main_v140 : Ref sig .tc := ⟨.hbm, 219, rfl⟩
abbrev main_v141 : Ref sig .tc := ⟨.hbm, 220, rfl⟩
abbrev main_v142 : Ref sig .tc := ⟨.hbm, 221, rfl⟩
abbrev main_v143 : Ref sig .tc := ⟨.hbm, 222, rfl⟩
abbrev main_v144 : Ref sig .tc := ⟨.hbm, 223, rfl⟩
abbrev main_v145 : Ref sig .tc := ⟨.hbm, 224, rfl⟩
abbrev main_call3_cst : Ref sig .tc := ⟨.hbm, 225, rfl⟩
abbrev main_call3_v0 : Ref sig .tc := ⟨.hbm, 226, rfl⟩
abbrev main_v146 : Ref sig .tc := ⟨.hbm, 227, rfl⟩
abbrev main_v147 : Ref sig .tc := ⟨.hbm, 228, rfl⟩
abbrev main_v148 : Ref sig .tc := ⟨.hbm, 229, rfl⟩
abbrev main_v149 : Ref sig .tc := ⟨.hbm, 230, rfl⟩
abbrev main_v150 : Ref sig .tc := ⟨.hbm, 231, rfl⟩
abbrev main_v151 : Ref sig .tc := ⟨.hbm, 232, rfl⟩
abbrev main_v152 : Ref sig .tc := ⟨.hbm, 233, rfl⟩
abbrev main_v153 : Ref sig .tc := ⟨.hbm, 234, rfl⟩
abbrev main_v154 : Ref sig .tc := ⟨.hbm, 235, rfl⟩
abbrev main_c_23 : Ref sig .tc := ⟨.hbm, 236, rfl⟩
abbrev main_v155 : Ref sig .tc := ⟨.hbm, 237, rfl⟩
abbrev main_v156 : Ref sig .tc := ⟨.hbm, 238, rfl⟩
abbrev main_c_24 : Ref sig .tc := ⟨.hbm, 239, rfl⟩
abbrev main_v157 : Ref sig .tc := ⟨.hbm, 240, rfl⟩
abbrev main_v158 : Ref sig .tc := ⟨.hbm, 241, rfl⟩
abbrev main_v159 : Ref sig .tc := ⟨.hbm, 242, rfl⟩
abbrev main_v160 : Ref sig .tc := ⟨.hbm, 243, rfl⟩
abbrev main_v161 : Ref sig .tc := ⟨.hbm, 244, rfl⟩
abbrev main_c_25 : Ref sig .tc := ⟨.hbm, 245, rfl⟩
abbrev main_v162 : Ref sig .tc := ⟨.hbm, 246, rfl⟩
abbrev main_v163 : Ref sig .tc := ⟨.hbm, 247, rfl⟩
abbrev main_c_26 : Ref sig .tc := ⟨.hbm, 248, rfl⟩
abbrev main_v164 : Ref sig .tc := ⟨.hbm, 249, rfl⟩
abbrev main_v165 : Ref sig .tc := ⟨.hbm, 250, rfl⟩
abbrev main_v166 : Ref sig .tc := ⟨.hbm, 251, rfl⟩
abbrev main_v167 : Ref sig .tc := ⟨.hbm, 252, rfl⟩
abbrev main_v168 : Ref sig .tc := ⟨.hbm, 253, rfl⟩
abbrev main_v169 : Ref sig .tc := ⟨.hbm, 254, rfl⟩
abbrev main_c_27 : Ref sig .tc := ⟨.hbm, 255, rfl⟩
abbrev main_v170 : Ref sig .tc := ⟨.hbm, 256, rfl⟩
abbrev main_v171 : Ref sig .tc := ⟨.hbm, 257, rfl⟩
abbrev main_c_28 : Ref sig .tc := ⟨.hbm, 258, rfl⟩
abbrev main_v172 : Ref sig .tc := ⟨.hbm, 259, rfl⟩
abbrev main_v173 : Ref sig .tc := ⟨.hbm, 260, rfl⟩
abbrev main_v174 : Ref sig .tc := ⟨.hbm, 261, rfl⟩
abbrev main_v175 : Ref sig .tc := ⟨.hbm, 262, rfl⟩
abbrev main_v176 : Ref sig .tc := ⟨.hbm, 263, rfl⟩
abbrev main_v177 : Ref sig .tc := ⟨.hbm, 264, rfl⟩
abbrev main_v178 : Ref sig .tc := ⟨.hbm, 265, rfl⟩
abbrev main_v179 : Ref sig .tc := ⟨.hbm, 266, rfl⟩
abbrev main_cst_29 : Ref sig .tc := ⟨.hbm, 267, rfl⟩
abbrev main_v180 : Ref sig .tc := ⟨.hbm, 268, rfl⟩
abbrev main_v181 : Ref sig .tc := ⟨.hbm, 269, rfl⟩
abbrev main_v182 : Ref sig .tc := ⟨.hbm, 270, rfl⟩
abbrev main_v183 : Ref sig .tc := ⟨.hbm, 271, rfl⟩
abbrev main_v184 : Ref sig .tc := ⟨.hbm, 272, rfl⟩
abbrev main_v185 : Ref sig .tc := ⟨.hbm, 273, rfl⟩
abbrev main_v186 : Ref sig .tc := ⟨.hbm, 274, rfl⟩
abbrev main_v187 : Ref sig .tc := ⟨.hbm, 275, rfl⟩
abbrev main_v188 : Ref sig .tc := ⟨.hbm, 276, rfl⟩
abbrev main_v189 : Ref sig .tc := ⟨.hbm, 277, rfl⟩
abbrev main_v190 : Ref sig .tc := ⟨.hbm, 278, rfl⟩
abbrev main_cst_30 : Ref sig .tc := ⟨.hbm, 279, rfl⟩
abbrev main_v191 : Ref sig .tc := ⟨.hbm, 280, rfl⟩
abbrev main_cst_31 : Ref sig .tc := ⟨.hbm, 281, rfl⟩
abbrev main_v192 : Ref sig .tc := ⟨.hbm, 282, rfl⟩
abbrev main_v193 : Ref sig .tc := ⟨.hbm, 283, rfl⟩
abbrev main_c_32 : Ref sig .tc := ⟨.hbm, 284, rfl⟩
abbrev main_call4_cst : Ref sig .tc := ⟨.hbm, 285, rfl⟩
abbrev main_call4_v0 : Ref sig .tc := ⟨.hbm, 286, rfl⟩
abbrev main_call4_v1 : Ref sig .tc := ⟨.hbm, 287, rfl⟩
abbrev main_call4_cst_0 : Ref sig .tc := ⟨.hbm, 288, rfl⟩
abbrev main_call4_v2 : Ref sig .tc := ⟨.hbm, 289, rfl⟩
abbrev main_call4_v3 : Ref sig .tc := ⟨.hbm, 290, rfl⟩
abbrev main_call4_v4 : Ref sig .tc := ⟨.hbm, 291, rfl⟩
abbrev main_call4_v5 : Ref sig .tc := ⟨.hbm, 292, rfl⟩
abbrev main_call4_v6 : Ref sig .tc := ⟨.hbm, 293, rfl⟩
abbrev main_call4_v7 : Ref sig .tc := ⟨.hbm, 294, rfl⟩
abbrev main_call4_cst_1 : Ref sig .tc := ⟨.hbm, 295, rfl⟩
abbrev main_call4_v8 : Ref sig .tc := ⟨.hbm, 296, rfl⟩
abbrev main_call4_cst_2 : Ref sig .tc := ⟨.hbm, 297, rfl⟩
abbrev main_call4_v9 : Ref sig .tc := ⟨.hbm, 298, rfl⟩
abbrev main_call4_v10 : Ref sig .tc := ⟨.hbm, 299, rfl⟩
abbrev main_call4_v11 : Ref sig .tc := ⟨.hbm, 300, rfl⟩
abbrev main_call4_cst_3 : Ref sig .tc := ⟨.hbm, 301, rfl⟩
abbrev main_call4_v12 : Ref sig .tc := ⟨.hbm, 302, rfl⟩
abbrev main_call4_cst_4 : Ref sig .tc := ⟨.hbm, 303, rfl⟩
abbrev main_call4_call0_v0 : Ref sig .tc := ⟨.hbm, 304, rfl⟩
abbrev main_call4_call0_v1 : Ref sig .tc := ⟨.hbm, 305, rfl⟩
abbrev main_v194 : Ref sig .tc := ⟨.hbm, 306, rfl⟩
abbrev main_v195 : Ref sig .tc := ⟨.hbm, 307, rfl⟩
abbrev main_v196 : Ref sig .tc := ⟨.hbm, 308, rfl⟩
abbrev main_v197 : Ref sig .tc := ⟨.hbm, 309, rfl⟩
abbrev main_v198 : Ref sig .tc := ⟨.hbm, 310, rfl⟩
abbrev main_v199 : Ref sig .tc := ⟨.hbm, 311, rfl⟩
abbrev main_v200 : Ref sig .tc := ⟨.hbm, 312, rfl⟩
abbrev main_v201 : Ref sig .tc := ⟨.hbm, 313, rfl⟩
abbrev main_v202 : Ref sig .tc := ⟨.hbm, 314, rfl⟩
abbrev main_cst_33 : Ref sig .tc := ⟨.hbm, 315, rfl⟩
abbrev main_v203 : Ref sig .tc := ⟨.hbm, 316, rfl⟩
abbrev main_v204 : Ref sig .tc := ⟨.hbm, 317, rfl⟩
abbrev main_v205 : Ref sig .tc := ⟨.hbm, 318, rfl⟩
abbrev main_v206 : Ref sig .tc := ⟨.hbm, 319, rfl⟩
abbrev main_v207 : Ref sig .tc := ⟨.hbm, 320, rfl⟩
abbrev main_v208 : Ref sig .tc := ⟨.hbm, 321, rfl⟩
abbrev main_v209 : Ref sig .tc := ⟨.hbm, 322, rfl⟩
abbrev main_v210 : Ref sig .tc := ⟨.hbm, 323, rfl⟩
abbrev main_v211 : Ref sig .tc := ⟨.hbm, 324, rfl⟩
abbrev main_v212 : Ref sig .tc := ⟨.hbm, 325, rfl⟩
abbrev main_v213 : Ref sig .tc := ⟨.hbm, 326, rfl⟩
abbrev main_call5_cst : Ref sig .tc := ⟨.hbm, 327, rfl⟩
abbrev main_call5_v0 : Ref sig .tc := ⟨.hbm, 328, rfl⟩
abbrev main_v214 : Ref sig .tc := ⟨.hbm, 329, rfl⟩
abbrev main_v215 : Ref sig .tc := ⟨.hbm, 330, rfl⟩
abbrev main_v216 : Ref sig .tc := ⟨.hbm, 331, rfl⟩
abbrev main_v217 : Ref sig .tc := ⟨.hbm, 332, rfl⟩
abbrev main_cst_34 : Ref sig .tc := ⟨.hbm, 333, rfl⟩
abbrev main_v218 : Ref sig .tc := ⟨.hbm, 334, rfl⟩
abbrev main_cst_35 : Ref sig .tc := ⟨.hbm, 335, rfl⟩
abbrev main_v219 : Ref sig .tc := ⟨.hbm, 336, rfl⟩
abbrev main_v220 : Ref sig .tc := ⟨.hbm, 337, rfl⟩
abbrev main_v221 : Ref sig .tc := ⟨.hbm, 338, rfl⟩
abbrev main_cst_36 : Ref sig .tc := ⟨.hbm, 339, rfl⟩
abbrev main_v222 : Ref sig .tc := ⟨.hbm, 340, rfl⟩
abbrev main_v223 : Ref sig .tc := ⟨.hbm, 341, rfl⟩
abbrev main_v224 : Ref sig .tc := ⟨.hbm, 342, rfl⟩
abbrev main_cst_37 : Ref sig .tc := ⟨.hbm, 343, rfl⟩
abbrev main_v225 : Ref sig .tc := ⟨.hbm, 344, rfl⟩
abbrev main_v226 : Ref sig .tc := ⟨.hbm, 345, rfl⟩
abbrev main_v227 : Ref sig .tc := ⟨.hbm, 346, rfl⟩
abbrev main_v228 : Ref sig .tc := ⟨.hbm, 347, rfl⟩
abbrev main_v229 : Ref sig .tc := ⟨.hbm, 348, rfl⟩
abbrev main_v230 : Ref sig .tc := ⟨.hbm, 349, rfl⟩
abbrev main_v231 : Ref sig .tc := ⟨.hbm, 350, rfl⟩
abbrev main_v232 : Ref sig .tc := ⟨.hbm, 351, rfl⟩
abbrev main_v233 : Ref sig .tc := ⟨.hbm, 352, rfl⟩
abbrev main_v234 : Ref sig .tc := ⟨.hbm, 353, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S50000 : S_.BroadcastsInDim S50000 (![] : Fin 0 → Fin S50000.rank)
  bcast_S1600000_S1600000x1_0 : S1600000.BroadcastsInDim S1600000x1 (![0] : Fin 1 → Fin S1600000x1.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  bcast_S1600000x1_S1600000x128_0_1 : S1600000x1.BroadcastsInDim S1600000x128 (![0, 1] : Fin 2 → Fin S1600000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S128_d0 : S50000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  bcast_S_S64 : S_.BroadcastsInDim S64 (![] : Fin 0 → Fin S64.rank)
  bcast_S_S64x128 : S_.BroadcastsInDim S64x128 (![] : Fin 0 → Fin S64x128.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  bcast_S1_S1x1_1 : S1.BroadcastsInDim S1x1 (![1] : Fin 1 → Fin S1x1.rank)
  bcast_S1x1_S64x1_0_1 : S1x1.BroadcastsInDim S64x1 (![0, 1] : Fin 2 → Fin S64x1.rank)
  shapeCasts_S64x1_S64 : S64x1.ShapeCasts S64
  scatter_S50000_S1600000x1_S1600000_n_0_0_1_wf : ScatterDims.WF S50000 S1600000x1 S1600000 [] [0] [0] 1
  dot_S50000x128_S128x128_S50000x128_1_0_0_1_n_n_wf : DotDims.WF S50000x128 S128x128 S50000x128 [1] [0] [0] [1] [] []
  gather_S50000_S1600000x1_S1600000_n_0_n_n_0_1_1_wf : GatherDims.WF S50000 S1600000x1 S1600000 [] [0] [] [0] [] 1 ![1]
  gather_S50000x128_S1600000x1_S1600000x128_1_0_n_n_0_1_1128_wf : GatherDims.WF S50000x128 S1600000x1 S1600000x128 [1] [0] [] [0] [] 1 ![1, 128]
  scatter_S50000x128_S1600000x1_S1600000x128_1_0_0_1_wf : ScatterDims.WF S50000x128 S1600000x1 S1600000x128 [1] [0] [0] 1
  scatter_S64_S50000x1_S50000_n_0_0_1_wf : ScatterDims.WF S64 S50000x1 S50000 [] [0] [0] 1
  scatter_S64x128_S50000x1_S50000x128_1_0_0_1_wf : ScatterDims.WF S64x128 S50000x1 S50000x128 [1] [0] [0] 1
  dot_S64x128_S128x1_S64x1_1_0_0_1_n_n_wf : DotDims.WF S64x128 S128x1 S64x1 [1] [0] [0] [1] [] []

variable [Facts₀]

def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000_S1600000x1_S1600000_n_0_n_n_0_1_1 : GatherDims S50000 S1600000x1 S1600000 where
  offsetDims := []
  collapsedSliceDims := [0]
  operandBatchingDims := []
  startIndicesBatchingDims := []
  startIndexMap := [0]
  indexVectorDim := 1
  sliceSizes := ![1]
  wf := gather_S50000_S1600000x1_S1600000_n_0_n_n_0_1_1_wf
def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf
def scatter_S64x128_S50000x1_S50000x128_1_0_0_1 : ScatterDims S64x128 S50000x1 S50000x128 where
  updateWindowDims := [1]
  insertedWindowDims := [0]
  scatterDimsToOperandDims := [0]
  indexVectorDim := 1
  wf := scatter_S64x128_S50000x1_S50000x128_1_0_0_1_wf
def dot_S64x128_S128x1_S64x1_1_0_0_1_n_n : DotDims S64x128 S128x1 S64x1 where
  lhsContracting := [1]
  rhsContracting := [0]
  lhsNonContracting := [0]
  rhsNonContracting := [1]
  lhsBatch := []
  rhsBatch := []
  wf := dot_S64x128_S128x1_S64x1_1_0_0_1_n_n_wf

class Facts : Prop extends Facts₀ where

variable [Facts]
-- ==== Proof.Shared.lean ====
import proofs.«408352_j17944373363255_2_alg».proof.ReferenceIdeal
import proofs.«408352_j17944373363255_2_alg».proof.Proof.Gen.ReferenceIdeal
import Idealize.ShloMosaic.Lib.ValueIdx

noncomputable section

namespace Cert.ReferenceIdeal.Shared

open Cert.ReferenceIdeal Idealize.ShloMosaic Idealize.ShloMosaic.ValueIdx
open Facts₀ Facts

/-- The source word and the target word of each edge. -/
def srcW (ei : IVec S2x1600000 32) : IVec S1600000 32 :=
  shapeCast S1600000 (extractStridedSlice S1x1600000 ![0, 0] ei slices_S2x1600000_S1x1600000_0_0) shapeCasts_S1x1600000_S1600000

def dstW (ei : IVec S2x1600000 32) : IVec S1600000 32 :=
  shapeCast S1600000 (extractStridedSlice S1x1600000 ![1, 0] ei slices_S2x1600000_S1x1600000_1_0) shapeCasts_S1x1600000_S1600000

def rawCol (w : IVec S1600000 32) : IVec S1600000x1 32 := broadcastInDim S1600000x1 ![0] bcast_S1600000_S1600000x1_0 w

/-- An index column with negative words wrapped by the number of nodes. -/
def wrapCol (w : IVec S1600000 32) : IVec S1600000x1 32 :=
  broadcastInDim S1600000x1 ![0] bcast_S1600000_S1600000x1_0
    (select (cmpi .slt w (broadcastInDim S1600000 ![] bcast_S_S1600000 (constantI S_ 32 0#32)))
      (addi w (broadcastInDim S1600000 ![] bcast_S_S1600000 (constantI S_ 32 50000#32))) w)

/-- The degree scale: one over the square root of one plus the number of edges into a node. -/
def dinv (ei : IVec S2x1600000 32) : FVec Ideal S50000 .f32 :=
  Host.rsqrt (F := Ideal)
    (addf
      (Host.scatterAdd (F := Ideal) scatter_S50000_S1600000x1_S1600000_n_0_0_1
        (broadcastInDim S50000 ![] bcast_S_S50000 (constant (F := Ideal) S_ .f32 0x00000000#32))
        (rawCol (dstW ei))
        (broadcastInDim S1600000 ![] bcast_S_S1600000 (constant (F := Ideal) S_ .f32 0x3F800000#32)))
      (broadcastInDim S50000 ![] bcast_S_S50000 (constant (F := Ideal) S_ .f32 0x3F800000#32)))

/-- An edge's scale: the product of its two end nodes' degree scales. -/
def norm (ei : IVec S2x1600000 32) : FVec Ideal S1600000 .f32 :=
  mulf (Host.gather gather_S50000_S1600000x1_S1600000_n_0_n_n_0_1_1 (dinv ei) (wrapCol (srcW ei)))
    (Host.gather gather_S50000_S1600000x1_S1600000_n_0_n_n_0_1_1 (dinv ei) (wrapCol (dstW ei)))

/-- The message operator: gather the source rows, scale each edge, add into the target rows. -/
def msg (ei : IVec S2x1600000 32) (hw : FVec Ideal S50000x128 .f32) : FVec Ideal S50000x128 .f32 :=
  Host.scatterAdd (F := Ideal) scatter_S50000x128_S1600000x1_S1600000x128_1_0_0_1
    (broadcastInDim S50000x128 ![] bcast_S_S50000x128 (constant (F := Ideal) S_ .f32 0x00000000#32))
    (rawCol (dstW ei))
    (mulf (Host.gather gather_S50000x128_S1600000x1_S1600000x128_1_0_n_n_0_1_1128 hw (wrapCol (srcW ei)))
      (broadcastInDim S1600000x128 ![0, 1] bcast_S1600000x1_S1600000x128_0_1
        (broadcastInDim S1600000x1 ![0] bcast_S1600000_S1600000x1_0 (norm ei))))

def dd (ei : IVec S2x1600000 32) : Fin 50000 → EReal := fun n => dinv ei (ix1 n) * dinv ei (ix1 n)

/-- Node n belongs to group g. -/
def P (a3 : IVec S50000 32) (n : Fin 50000) (g : Fin 64) : Prop := (a3 (ix1 n)).toInt = (g.val : ℤ)
instance (a3 : IVec S50000 32) (n : Fin 50000) (g : Fin 64) : Decidable (P a3 n g) := by unfold P; infer_instance

/-- The member count of each group, at least one, laid out over the channels. -/
def cnt (a3 : IVec S50000 32) : FVec Ideal S64x128 .f32 :=
  broadcastInDim S64x128 ![0, 1] bcast_S64x1_S64x128_0_1
    (broadcastInDim S64x1 ![0] bcast_S64_S64x1_0
      (maximumf
        (Host.scatterAdd (F := Ideal) scatter_S64_S50000x1_S50000_n_0_0_1
          (broadcastInDim S64 ![] bcast_S_S64 (constant (F := Ideal) S_ .f32 0x00000000#32))
          (broadcastInDim S50000x1 ![0] bcast_S50000_S50000x1_0 a3)
          (broadcastInDim S50000 ![] bcast_S_S50000 (constant (F := Ideal) S_ .f32 0x3F800000#32)))
        (broadcastInDim S64 ![] bcast_S_S64 (constant (F := Ideal) S_ .f32 0x3F800000#32))))

/-- The read-out after the pool: divide by the member counts, multiply by the output weights, add the bias. -/
def tail (pooled : FVec Ideal S64x128 .f32) (a3 : IVec S50000 32) (a8 : FVec Ideal S128x1 .f32) (a9 : FVec Ideal S1 .f32) : FVec Ideal S64 .f32 :=
  shapeCast S64
    (addf
      (Host.dotGeneral (F := Ideal) dot_S64x128_S128x1_S64x1_1_0_0_1_n_n none (Host.divf (F := Ideal) pooled (cnt a3)) a8)
      (broadcastInDim S64x1 ![0, 1] bcast_S1x1_S64x1_0_1 (broadcastInDim S1x1 ![1] bcast_S1_S1x1_1 a9)))
    shapeCasts_S64x1_S64

def maskOf (a2 : FVec Ideal S50000 .f32) : Fin 50000 → EReal := fun n => a2 (ix1 n)

def wtOf (a4 : FVec Ideal S3x128x128 .f32) : Fin 3 → Fin 128 → Fin 128 → EReal := fun l k d => a4 (ix3 l k d)

def rowOf (a : FVec Ideal S3x128 .f32) : Fin 3 → Fin 128 → EReal := fun l d => a (ix2 l d)

end Cert.ReferenceIdeal.Shared

end
-- ==== Proof.Spec.lean ====
import Idealize.ShloMosaic.PureOps.Ideal
import Idealize.ShloMosaic.Lib.ValueIdx

noncomputable section

namespace Gcn

open Idealize.ShloMosaic Idealize.ShloMosaic.ValueIdx

abbrev SNC : Shape := ⟨2, ![50000, 128]⟩

abbrev SGC : Shape := ⟨2, ![64, 128]⟩

/-- Node features: 50000 rows of 128 channels, as extended reals. -/
abbrev Arr := SNC.Idx → EReal
abbrev Col := Fin 128 → EReal

/-- The number of rows as the float both programs divide by. -/
def nRows : EReal := Ideal.ofBits .f32 0x47435000#32

/-- The constant added to a variance under the inverse square root. -/
def eps : EReal := Ideal.ofBits .f32 0x3727C5AC#32

/-- x is a real number, neither infinity. -/
def IsR (x : EReal) : Prop := ∃ r : ℝ, x = (r : EReal)

/-- Rows scaled by the mask, times the weight matrix. -/
def hwOf (mask : Fin 50000 → EReal) (Wt : Fin 128 → Fin 128 → EReal) (h : Arr) : Arr :=
  fun i => ∑ k : Fin 128, (h (ix2 (i 0) k) * mask (i 0)) * Wt k (i 1)

/-- Summed messages, the self term and the bias. -/
def aggArr (ag hw : Arr) (dd : Fin 50000 → EReal) (b : Col) : Arr :=
  fun i => ag i + hw i * dd (i 0) + b (i 1)

def aggOf (Msg : Arr → Arr) (dd : Fin 50000 → EReal) (b : Col) (hw : Arr) : Arr :=
  aggArr (Msg hw) hw dd b

def colSum (a : Arr) : Col := fun d => ∑ n : Fin 50000, a (ix2 n d)
def colSumSq (a : Arr) : Col := fun d => ∑ n : Fin 50000, a (ix2 n d) * a (ix2 n d)
def colMean (a : Arr) : Col := fun d => Ideal.div (colSum a d) nRows

/-- The variance as the mean of the squared deviations from the mean. -/
def varR (a : Arr) : Col :=
  fun d => Ideal.div (∑ n : Fin 50000, (a (ix2 n d) - colMean a d) * (a (ix2 n d) - colMean a d)) nRows

/-- The variance as the mean of the squares less the squared mean. -/
def varK (a : Arr) : Col := fun d => Ideal.div (colSumSq a d) nRows - colMean a d * colMean a d

/-- Centre, scale by the inverse square root of the variance plus eps, map affinely, clip at zero. -/
def bn (γ β : Col) (a : Arr) (mu va : Col) : Arr :=
  fun i => max (γ (i 1) * (a i - mu (i 1)) * Ideal.rsqrt (va (i 1) + eps) + β (i 1)) 0

/-- One layer, with either form of the variance. -/
def layerR (Msg : Arr → Arr) (dd mask : Fin 50000 → EReal) (Wt : Fin 128 → Fin 128 → EReal) (b γ β : Col) (h : Arr) : Arr :=
  bn γ β (aggOf Msg dd b (hwOf mask Wt h)) (colMean (aggOf Msg dd b (hwOf mask Wt h))) (varR (aggOf Msg dd b (hwOf mask Wt h)))
def layerK (Msg : Arr → Arr) (dd mask : Fin 50000 → EReal) (Wt : Fin 128 → Fin 128 → EReal) (b γ β : Col) (h : Arr) : Arr :=
  bn γ β (aggOf Msg dd b (hwOf mask Wt h)) (colMean (aggOf Msg dd b (hwOf mask Wt h))) (varK (aggOf Msg dd b (hwOf mask Wt h)))

/-- Three layers, each with its own row of the stacked parameters. -/
def netR (Msg : Arr → Arr) (dd mask : Fin 50000 → EReal) (Wt : Fin 3 → Fin 128 → Fin 128 → EReal) (b γ β : Fin 3 → Col) (x : Arr) : Arr :=
  layerR Msg dd mask (Wt 2) (b 2) (γ 2) (β 2) (layerR Msg dd mask (Wt 1) (b 1) (γ 1) (β 1) (layerR Msg dd mask (Wt 0) (b 0) (γ 0) (β 0) x))
def netK (Msg : Arr → Arr) (dd mask : Fin 50000 → EReal) (Wt : Fin 3 → Fin 128 → Fin 128 → EReal) (b γ β : Fin 3 → Col) (x : Arr) : Arr :=
  layerK Msg dd mask (Wt 2) (b 2) (γ 2) (β 2) (layerK Msg dd mask (Wt 1) (b 1) (γ 1) (β 1) (layerK Msg dd mask (Wt 0) (b 0) (γ 0) (β 0) x))

/-- The masked sum over the rows of group g, with a zero-one factor. -/
def poolKAt (P : Fin 50000 → Fin 64 → Prop) [∀ n g, Decidable (P n g)] (mask : Fin 50000 → EReal) (h : Arr) (g : Fin 64) (d : Fin 128) : EReal :=
  ∑ n : Fin 50000, (if P n g then (1 : EReal) else 0) * (h (ix2 n d) * mask n)

/-- The same sum, as a conditional sum. -/
def poolRAt (P : Fin 50000 → Fin 64 → Prop) [∀ n g, Decidable (P n g)] (mask : Fin 50000 → EReal) (h : Arr) (g : Fin 64) (d : Fin 128) : EReal :=
  ∑ n : Fin 50000, if P n g then h (ix2 n d) * mask n else 0
def poolK (P : Fin 50000 → Fin 64 → Prop) [∀ n g, Decidable (P n g)] (mask : Fin 50000 → EReal) (h : Arr) : SGC.Idx → EReal :=
  fun j => poolKAt P mask h (j 0) (j 1)
def poolR (P : Fin 50000 → Fin 64 → Prop) [∀ n g, Decidable (P n g)] (mask : Fin 50000 → EReal) (h : Arr) : SGC.Idx → EReal :=
  fun j => poolRAt P mask h (j 0) (j 1)

end Gcn

end
-- ==== Proof.KBase.lean ====
import proofs.«408352_j17944373363255_2_alg».proof.Proof.Gen.KernelIdeal.Frame
import proofs.«408352_j17944373363255_2_alg».proof.Proof.Shared
import proofs.«408352_j17944373363255_2_alg».proof.Proof.Spec
import Idealize.ShloMosaic.Lib.ValueIdx
import Idealize.ShloMosaic.Lib.ValueLayout
import Idealize.ShloMosaic.Lib.StableHlo.Run

set_option maxRecDepth 16384

noncomputable section

namespace Cert.KernelIdeal.KBase

open Cert.KernelIdeal Cert.KernelIdeal.Gen Idealize.ShloMosaic Idealize.ShloMosaic.TcCoe Idealize.ShloMosaic.ValueIdx Idealize.SL.Sem
open Cert.ReferenceIdeal.Shared (srcW dstW dinv dd msg maskOf wtOf rowOf)

variable (m : (ℓ : Loc nD τ sig) → Buf (Elt Ideal) ℓ) (ρ : Dev nD → PrngReg)

abbrev a0 (c : Dev nD) := m ((c : Thread nD τ).loc main_arg0)
abbrev a1 (c : Dev nD) := m ((c : Thread nD τ).loc main_arg1)
abbrev a2 (c : Dev nD) := m ((c : Thread nD τ).loc main_arg2)
abbrev a3 (c : Dev nD) := m ((c : Thread nD τ).loc main_arg3)
abbrev a4 (c : Dev nD) := m ((c : Thread nD τ).loc main_arg4)
abbrev a5 (c : Dev nD) := m ((c : Thread nD τ).loc main_arg5)
abbrev a6 (c : Dev nD) := m ((c : Thread nD τ).loc main_arg6)
abbrev a7 (c : Dev nD) := m ((c : Thread nD τ).loc main_arg7)
abbrev a8 (c : Dev nD) := m ((c : Thread nD τ).loc main_arg8)
abbrev a9 (c : Dev nD) := m ((c : Thread nD τ).loc main_arg9)

/-- A host stretch leaves alone every buffer outside the list of those it writes. -/
theorem single_sub_of_mem {W : List (Ref sig .tc)} {y : Ref sig .tc} (h : y ∈ W) :
    ({Proc.devRef (τ := τ) .tc y} : Finset (DevRef τ sig)) ⊆ (W.map (Proc.devRef (τ := τ) .tc)).toFinset :=
  Finset.singleton_subset_iff.mpr (List.mem_toFinset.mpr (List.mem_map.mpr ⟨y, h, rfl⟩))

def wr0 : List (Ref sig .tc) :=
  [main_v0, main_v1, main_v2, main_v3, main_cst, main_v4, main_cst_0, main_v5, main_v6, main_v7, main_cst_1, main_v8,
   main_v9, main_v10, main_v11, main_v12, main_v13, main_v14, main_v15, main_v16]

theorem hostOps0_wr : (hostOps0 (F := Ideal)).Forall fun op => op.writes ⊆ (wr0.map (Proc.devRef (τ := τ) .tc)).toFinset := by
  repeat' apply And.intro
  all_goals exact single_sub_of_mem (by decide)

theorem keep1 (c : Dev nD) (r : Ref sig .tc) (hr : r ∉ wr0) :
    W1 (F := Ideal) m ρ c (Proc.devRef .tc r) = W0 (F := Ideal) m ρ c (Proc.devRef .tc r) :=
  StableHlo.after_of_writes_sub _ _ hostOps0_wr hr

def wr1 : List (Ref sig .tc) :=
  [main_c, main_c_2, main_c_3, main_c_4, main_c_5, main_c_6, main_cst_7,
   main_v18, main_v19, main_v20, main_v21, main_v22, main_v23, main_v24, main_v25, main_v26, main_v27, main_v28, main_v29,
   main_v30, main_v31, main_v32, main_v33, main_v34, main_v35, main_v36, main_v37, main_v38, main_v39, main_v40, main_v41,
   main_v42, main_v43, main_v44, main_v45, main_v46, main_v47, main_v48]

theorem hostOps1_wr : (hostOps1 (F := Ideal)).Forall fun op => op.writes ⊆ (wr1.map (Proc.devRef (τ := τ) .tc)).toFinset := by
  repeat' apply And.intro
  all_goals exact single_sub_of_mem (by decide)

theorem keep3 (c : Dev nD) (r : Ref sig .tc) (hr : r ∉ wr1) :
    W3 (F := Ideal) m ρ c (Proc.devRef .tc r) = W2 (F := Ideal) m ρ c (Proc.devRef .tc r) :=
  StableHlo.after_of_writes_sub _ _ hostOps1_wr hr

def wr2 : List (Ref sig .tc) :=
  [main_cst_8, main_cst_9, main_v50, main_v51, main_v52, main_v53, main_v54, main_v55, main_v56, main_v57, main_v58,
   main_v59, main_v60, main_v61]

theorem hostOps2_wr : (hostOps2 (F := Ideal)).Forall fun op => op.writes ⊆ (wr2.map (Proc.devRef (τ := τ) .tc)).toFinset := by
  repeat' apply And.intro
  all_goals exact single_sub_of_mem (by decide)

theorem keep5 (c : Dev nD) (r : Ref sig .tc) (hr : r ∉ wr2) :
    W5 (F := Ideal) m ρ c (Proc.devRef .tc r) = W4 (F := Ideal) m ρ c (Proc.devRef .tc r) :=
  StableHlo.after_of_writes_sub _ _ hostOps2_wr hr

def wr3 : List (Ref sig .tc) := [main_v63, main_v64]

theorem hostOps3_wr : (hostOps3 (F := Ideal)).Forall fun op => op.writes ⊆ (wr3.map (Proc.devRef (τ := τ) .tc)).toFinset := by
  repeat' apply And.intro
  all_goals exact single_sub_of_mem (by decide)

theorem keep7 (c : Dev nD) (r : Ref sig .tc) (hr : r ∉ wr3) :
    W7 (F := Ideal) m ρ c (Proc.devRef .tc r) = W6 (F := Ideal) m ρ c (Proc.devRef .tc r) :=
  StableHlo.after_of_writes_sub _ _ hostOps3_wr hr

def wr4 : List (Ref sig .tc) :=
  [main_c_10, main_c_11, main_c_12, main_c_13, main_c_14, main_c_15, main_cst_16,
   main_v66, main_v67, main_v68, main_v69, main_v70, main_v71, main_v72, main_v73, main_v74, main_v75, main_v76, main_v77,
   main_v78, main_v79, main_v80, main_v81, main_v82, main_v83, main_v84, main_v85, main_v86, main_v87, main_v88, main_v89,
   main_v90, main_v91, main_v92, main_v93, main_v94, main_v95, main_v96]

theorem hostOps4_wr : (hostOps4 (F := Ideal)).Forall fun op => op.writes ⊆ (wr4.map (Proc.devRef (τ := τ) .tc)).toFinset := by
  repeat' apply And.intro
  all_goals exact single_sub_of_mem (by decide)

theorem keep9 (c : Dev nD) (r : Ref sig .tc) (hr : r ∉ wr4) :
    W9 (F := Ideal) m ρ c (Proc.devRef .tc r) = W8 (F := Ideal) m ρ c (Proc.devRef .tc r) :=
  StableHlo.after_of_writes_sub _ _ hostOps4_wr hr

def wr5 : List (Ref sig .tc) :=
  [main_cst_17, main_cst_18, main_v98, main_v99, main_v100, main_v101, main_v102, main_v103, main_v104, main_v105,
   main_v106, main_v107, main_v108, main_v109]

theorem hostOps5_wr : (hostOps5 (F := Ideal)).Forall fun op => op.writes ⊆ (wr5.map (Proc.devRef (τ := τ) .tc)).toFinset := by
  repeat' apply And.intro
  all_goals exact single_sub_of_mem (by decide)

theorem keep11 (c : Dev nD) (r : Ref sig .tc) (hr : r ∉ wr5) :
    W11 (F := Ideal) m ρ c (Proc.devRef .tc r) = W10 (F := Ideal) m ρ c (Proc.devRef .tc r) :=
  StableHlo.after_of_writes_sub _ _ hostOps5_wr hr

def wr6 : List (Ref sig .tc) := [main_v111, main_v112]

theorem hostOps6_wr : (hostOps6 (F := Ideal)).Forall fun op => op.writes ⊆ (wr6.map (Proc.devRef (τ := τ) .tc)).toFinset := by
  repeat' apply And.intro
  all_goals exact single_sub_of_mem (by decide)

theorem keep13 (c : Dev nD) (r : Ref sig .tc) (hr : r ∉ wr6) :
    W13 (F := Ideal) m ρ c (Proc.devRef .tc r) = W12 (F := Ideal) m ρ c (Proc.devRef .tc r) :=
  StableHlo.after_of_writes_sub _ _ hostOps6_wr hr

def wr7 : List (Ref sig .tc) :=
  [main_c_19, main_c_20, main_c_21, main_c_22, main_c_23, main_c_24, main_cst_25,
   main_v114, main_v115, main_v116, main_v117, main_v118, main_v119, main_v120, main_v121, main_v122, main_v123, main_v124,
   main_v125, main_v126, main_v127, main_v128, main_v129, main_v130, main_v131, main_v132, main_v133, main_v134, main_v135,
   main_v136, main_v137, main_v138, main_v139, main_v140, main_v141, main_v142, main_v143, main_v144]

theorem hostOps7_wr : (hostOps7 (F := Ideal)).Forall fun op => op.writes ⊆ (wr7.map (Proc.devRef (τ := τ) .tc)).toFinset := by
  repeat' apply And.intro
  all_goals exact single_sub_of_mem (by decide)

theorem keep15 (c : Dev nD) (r : Ref sig .tc) (hr : r ∉ wr7) :
    W15 (F := Ideal) m ρ c (Proc.devRef .tc r) = W14 (F := Ideal) m ρ c (Proc.devRef .tc r) :=
  StableHlo.after_of_writes_sub _ _ hostOps7_wr hr

def wr8 : List (Ref sig .tc) :=
  [main_cst_26, main_cst_27, main_v146, main_v147, main_v148, main_v149, main_v150, main_v151, main_v152, main_v153,
   main_v154, main_v155, main_v156, main_v157]

theorem hostOps8_wr : (hostOps8 (F := Ideal)).Forall fun op => op.writes ⊆ (wr8.map (Proc.devRef (τ := τ) .tc)).toFinset := by
  repeat' apply And.intro
  all_goals exact single_sub_of_mem (by decide)

theorem keep17 (c : Dev nD) (r : Ref sig .tc) (hr : r ∉ wr8) :
    W17 (F := Ideal) m ρ c (Proc.devRef .tc r) = W16 (F := Ideal) m ρ c (Proc.devRef .tc r) :=
  StableHlo.after_of_writes_sub _ _ hostOps8_wr hr

theorem W2_in (c : Dev nD) (w : Fin cfg0.W) (hin : (cfg0.win w).isOut = false) :
    W2 (F := Ideal) m ρ c (Proc.devRef .tc (Pipeline.arrRef spec0 w)) = W1 (F := Ideal) m ρ c (Proc.devRef .tc (Pipeline.arrRef spec0 w)) :=
  (W2_arr m ρ c w).trans (((dat0 (V1 m ρ) c).arrAt_in w hin _).trans (A_eq0 (V1 m ρ) c w))

theorem W4_in (c : Dev nD) (w : Fin cfg1.W) (hin : (cfg1.win w).isOut = false) :
    W4 (F := Ideal) m ρ c (Proc.devRef .tc (Pipeline.arrRef spec1 w)) = W3 (F := Ideal) m ρ c (Proc.devRef .tc (Pipeline.arrRef spec1 w)) :=
  (W4_arr m ρ c w).trans (((dat1 (V3 m ρ) c).arrAt_in w hin _).trans (A_eq1 (V3 m ρ) c w))

theorem W8_in (c : Dev nD) (w : Fin cfg3.W) (hin : (cfg3.win w).isOut = false) :
    W8 (F := Ideal) m ρ c (Proc.devRef .tc (Pipeline.arrRef spec3 w)) = W7 (F := Ideal) m ρ c (Proc.devRef .tc (Pipeline.arrRef spec3 w)) :=
  (W8_arr m ρ c w).trans (((dat3 (V7 m ρ) c).arrAt_in w hin _).trans (A_eq3 (V7 m ρ) c w))

theorem W10_in (c : Dev nD) (w : Fin cfg4.W) (hin : (cfg4.win w).isOut = false) :
    W10 (F := Ideal) m ρ c (Proc.devRef .tc (Pipeline.arrRef spec4 w)) = W9 (F := Ideal) m ρ c (Proc.devRef .tc (Pipeline.arrRef spec4 w)) :=
  (W10_arr m ρ c w).trans (((dat4 (V9 m ρ) c).arrAt_in w hin _).trans (A_eq4 (V9 m ρ) c w))

theorem W14_in (c : Dev nD) (w : Fin cfg6.W) (hin : (cfg6.win w).isOut = false) :
    W14 (F := Ideal) m ρ c (Proc.devRef .tc (Pipeline.arrRef spec6 w)) = W13 (F := Ideal) m ρ c (Proc.devRef .tc (Pipeline.arrRef spec6 w)) :=
  (W14_arr m ρ c w).trans (((dat6 (V13 m ρ) c).arrAt_in w hin _).trans (A_eq6 (V13 m ρ) c w))

abbrev Free16 (r : Ref sig .tc) : Prop :=
  (∀ w, Pipeline.arrRef spec0 w ≠ r) ∧ r ∉ wr1 ∧ (∀ w, Pipeline.arrRef spec1 w ≠ r) ∧ r ∉ wr2 ∧ (∀ w, Pipeline.arrRef spec2 w ≠ r)

/-- A buffer that is no window's array in a layer's three regions and that neither host stretch inside the layer writes is the same after the layer. -/
theorem W6_of_W1 (c : Dev nD) (r : Ref sig .tc) (h : Free16 r) :
    W6 (F := Ideal) m ρ c (Proc.devRef .tc r) = W1 (F := Ideal) m ρ c (Proc.devRef .tc r) :=
  (W6_of_ne m ρ c r h.2.2.2.2).trans <| (keep5 m ρ c r h.2.2.2.1).trans <| (W4_of_ne m ρ c r h.2.2.1).trans <|
    (keep3 m ρ c r h.2.1).trans (W2_of_ne m ρ c r h.1)

theorem W7_of_W1 (c : Dev nD) (r : Ref sig .tc) (h : Free16 r) (h3 : r ∉ wr3) :
    W7 (F := Ideal) m ρ c (Proc.devRef .tc r) = W1 (F := Ideal) m ρ c (Proc.devRef .tc r) :=
  (keep7 m ρ c r h3).trans (W6_of_W1 m ρ c r h)

abbrev Free712 (r : Ref sig .tc) : Prop :=
  (∀ w, Pipeline.arrRef spec3 w ≠ r) ∧ r ∉ wr4 ∧ (∀ w, Pipeline.arrRef spec4 w ≠ r) ∧ r ∉ wr5 ∧ (∀ w, Pipeline.arrRef spec5 w ≠ r)

theorem W12_of_W7 (c : Dev nD) (r : Ref sig .tc) (h : Free712 r) :
    W12 (F := Ideal) m ρ c (Proc.devRef .tc r) = W7 (F := Ideal) m ρ c (Proc.devRef .tc r) :=
  (W12_of_ne m ρ c r h.2.2.2.2).trans <| (keep11 m ρ c r h.2.2.2.1).trans <| (W10_of_ne m ρ c r h.2.2.1).trans <|
    (keep9 m ρ c r h.2.1).trans (W8_of_ne m ρ c r h.1)

theorem W13_of_W7 (c : Dev nD) (r : Ref sig .tc) (h : Free712 r) (h6 : r ∉ wr6) :
    W13 (F := Ideal) m ρ c (Proc.devRef .tc r) = W7 (F := Ideal) m ρ c (Proc.devRef .tc r) :=
  (keep13 m ρ c r h6).trans (W12_of_W7 m ρ c r h)

abbrev Free1318 (r : Ref sig .tc) : Prop :=
  (∀ w, Pipeline.arrRef spec6 w ≠ r) ∧ r ∉ wr7 ∧ (∀ w, Pipeline.arrRef spec7 w ≠ r) ∧ r ∉ wr8 ∧ (∀ w, Pipeline.arrRef spec8 w ≠ r)

theorem W18_of_W13 (c : Dev nD) (r : Ref sig .tc) (h : Free1318 r) :
    W18 (F := Ideal) m ρ c (Proc.devRef .tc r) = W13 (F := Ideal) m ρ c (Proc.devRef .tc r) :=
  (W18_of_ne m ρ c r h.2.2.2.2).trans <| (keep17 m ρ c r h.2.2.2.1).trans <| (W16_of_ne m ρ c r h.2.2.1).trans <|
    (keep15 m ρ c r h.2.1).trans (W14_of_ne m ρ c r h.1)

theorem W19_of_W0 (c : Dev nD) (r : Ref sig .tc) (h9 : ∀ w, Pipeline.arrRef spec9 w ≠ r) (hC : Free1318 r) (h6 : r ∉ wr6)
    (hB : Free712 r) (h3 : r ∉ wr3) (hA : Free16 r) (h0 : r ∉ wr0) :
    W19 (F := Ideal) m ρ c (Proc.devRef .tc r) = W0 (F := Ideal) m ρ c (Proc.devRef .tc r) :=
  (W19_of_ne m ρ c r h9).trans <| (W18_of_W13 m ρ c r hC).trans <| (W13_of_W7 m ρ c r hB h6).trans <|
    (W7_of_W1 m ρ c r hA h3).trans (keep1 m ρ c r h0)

theorem W7_v12_eq (c : Dev nD) :
    W7 (F := Ideal) m ρ c (Proc.devRef .tc main_v12) = W1 (F := Ideal) m ρ c (Proc.devRef .tc main_v12) :=
  (keep7 m ρ c main_v12 (by decide)).trans <| (W6_of_ne m ρ c main_v12 (by decide)).trans <|
    (keep5 m ρ c main_v12 (by decide)).trans <| (W4_in m ρ c 2 rfl).trans <|
    (keep3 m ρ c main_v12 (by decide)).trans (W2_of_ne m ρ c main_v12 (by decide))

theorem W13_v12_eq (c : Dev nD) :
    W13 (F := Ideal) m ρ c (Proc.devRef .tc main_v12) = W7 (F := Ideal) m ρ c (Proc.devRef .tc main_v12) :=
  (keep13 m ρ c main_v12 (by decide)).trans <| (W12_of_ne m ρ c main_v12 (by decide)).trans <|
    (keep11 m ρ c main_v12 (by decide)).trans <| (W10_in m ρ c 2 rfl).trans <|
    (keep9 m ρ c main_v12 (by decide)).trans (W8_of_ne m ρ c main_v12 (by decide))

theorem W7_v13_eq (c : Dev nD) :
    W7 (F := Ideal) m ρ c (Proc.devRef .tc main_v13) = W1 (F := Ideal) m ρ c (Proc.devRef .tc main_v13) :=
  (keep7 m ρ c main_v13 (by decide)).trans <| (W6_of_ne m ρ c main_v13 (by decide)).trans <|
    (keep5 m ρ c main_v13 (by decide)).trans <| (W4_of_ne m ρ c main_v13 (by decide)).trans <|
    (keep3 m ρ c main_v13 (by decide)).trans (W2_in m ρ c 1 rfl)

theorem W13_v13_eq (c : Dev nD) :
    W13 (F := Ideal) m ρ c (Proc.devRef .tc main_v13) = W7 (F := Ideal) m ρ c (Proc.devRef .tc main_v13) :=
  (keep13 m ρ c main_v13 (by decide)).trans <| (W12_of_ne m ρ c main_v13 (by decide)).trans <|
    (keep11 m ρ c main_v13 (by decide)).trans <| (W10_of_ne m ρ c main_v13 (by decide)).trans <|
    (keep9 m ρ c main_v13 (by decide)).trans (W8_in m ρ c 1 rfl)

theorem W18_v13_eq (c : Dev nD) :
    W18 (F := Ideal) m ρ c (Proc.devRef .tc main_v13) = W13 (F := Ideal) m ρ c (Proc.devRef .tc main_v13) :=
  (W18_of_ne m ρ c main_v13 (by decide)).trans <| (keep17 m ρ c main_v13 (by decide)).trans <|
    (W16_of_ne m ρ c main_v13 (by decide)).trans <| (keep15 m ρ c main_v13 (by decide)).trans (W14_in m ρ c 1 rfl)

theorem col_apply {α : Type} (v : S50000.Idx → α) (n : Fin 50000) :
    shapeCast S50000x1 v shapeCasts_S50000_S50000x1 (ix2 n 0) = v (ix1 n) :=
  shapeCast_apply _ _ (ix2 n 0) (ix1 n) (by
    rw [Shape.rowMajor_val_one, Shape.rowMajor_val_two]
    show n.val = n.val * 1 + 0
    omega)

theorem W6_arg4 (c : Dev nD) : W6 (F := Ideal) m ρ c (Proc.devRef .tc main_arg4) = a4 m c :=
  (W6_of_W1 m ρ c main_arg4 (by decide)).trans (keep1 m ρ c main_arg4 (by decide))

theorem W12_arg4 (c : Dev nD) : W12 (F := Ideal) m ρ c (Proc.devRef .tc main_arg4) = a4 m c :=
  (W12_of_W7 m ρ c main_arg4 (by decide)).trans ((keep7 m ρ c main_arg4 (by decide)).trans (W6_arg4 m ρ c))

theorem W1_v1 (c : Dev nD) : W1 (F := Ideal) m ρ c (Proc.devRef .tc main_v1) = srcW (a1 m c) := by
  show StableHlo.after hostOps0 (W0 m ρ c) _ = _
  after_results
  rfl
theorem W1_v3 (c : Dev nD) : W1 (F := Ideal) m ρ c (Proc.devRef .tc main_v3) = dstW (a1 m c) := by
  show StableHlo.after hostOps0 (W0 m ρ c) _ = _
  after_results
  rfl

theorem W1_v10 (c : Dev nD) : W1 (F := Ideal) m ρ c (Proc.devRef .tc main_v10) = dinv (a1 m c) := by
  show StableHlo.after hostOps0 (W0 m ρ c) _ = _
  after_results
  rfl

theorem W1_v12 (c : Dev nD) (n : Fin 50000) : W1 (F := Ideal) m ρ c (Proc.devRef .tc main_v12) (ix2 n 0) = dd (a1 m c) n := by
  show StableHlo.after hostOps0 (W0 m ρ c) _ _ = _
  after_results
  show shapeCast S50000x1 (mulf (dinv (a1 m c)) (dinv (a1 m c))) shapeCasts_S50000_S50000x1 (ix2 n 0) = _
  rw [col_apply, mulf_apply]
  rfl
theorem W1_v13 (c : Dev nD) (n : Fin 50000) : W1 (F := Ideal) m ρ c (Proc.devRef .tc main_v13) (ix2 n 0) = maskOf (a2 m c) n := by
  show StableHlo.after hostOps0 (W0 m ρ c) _ _ = _
  after_results
  show shapeCast S50000x1 (a2 m c) shapeCasts_S50000_S50000x1 (ix2 n 0) = _
  rw [col_apply]
  rfl

theorem W1_v14 (c : Dev nD) (n : Fin 50000) : W1 (F := Ideal) m ρ c (Proc.devRef .tc main_v14) (ix2 n 0) = a3 m c (ix1 n) := by
  show StableHlo.after hostOps0 (W0 m ρ c) _ _ = _
  after_results
  show shapeCast S50000x1 (a3 m c) shapeCasts_S50000_S50000x1 (ix2 n 0) = _
  rw [col_apply]
theorem W1_arg5 (c : Dev nD) : W1 (F := Ideal) m ρ c (Proc.devRef .tc main_arg5) = a5 m c := keep1 m ρ c main_arg5 (by decide)
theorem W1_arg6 (c : Dev nD) : W1 (F := Ideal) m ρ c (Proc.devRef .tc main_arg6) = a6 m c := keep1 m ρ c main_arg6 (by decide)
theorem W1_arg7 (c : Dev nD) : W1 (F := Ideal) m ρ c (Proc.devRef .tc main_arg7) = a7 m c := keep1 m ρ c main_arg7 (by decide)
theorem W1_arg0 (c : Dev nD) : W1 (F := Ideal) m ρ c (Proc.devRef .tc main_arg0) = a0 m c := keep1 m ρ c main_arg0 (by decide)

theorem W1_v16 (c : Dev nD) (k d : Fin 128) : W1 (F := Ideal) m ρ c (Proc.devRef .tc main_v16) (ix2 k d) = wtOf (a4 m c) 0 k d := by
  show StableHlo.after hostOps0 (W0 m ρ c) _ _ = _
  after_results
  show shapeCast S128x128 (extractStridedSlice S1x128x128 ![0, 0, 0] (a4 m c) slices_S3x128x128_S1x128x128_0_0_0)
    shapeCasts_S1x128x128_S128x128 (ix2 k d) = _
  rw [shapeCast_1ab_ab_apply, extractStridedSlice_apply _ _ _ (ix3 (0 : Fin 1) k d) (ix3 (0 : Fin 3) k d) (fun ax => by
    match ax with
    | ⟨0, _⟩ => rfl
    | ⟨1, _⟩ => exact (Nat.zero_add _).symm
    | ⟨2, _⟩ => exact (Nat.zero_add _).symm)]
  rfl

theorem W7_v1 (c : Dev nD) : W7 (F := Ideal) m ρ c (Proc.devRef .tc main_v1) = srcW (a1 m c) :=
  (W7_of_W1 m ρ c main_v1 (by decide) (by decide)).trans (W1_v1 m ρ c)
theorem W7_v3 (c : Dev nD) : W7 (F := Ideal) m ρ c (Proc.devRef .tc main_v3) = dstW (a1 m c) :=
  (W7_of_W1 m ρ c main_v3 (by decide) (by decide)).trans (W1_v3 m ρ c)
theorem W7_v10 (c : Dev nD) : W7 (F := Ideal) m ρ c (Proc.devRef .tc main_v10) = dinv (a1 m c) :=
  (W7_of_W1 m ρ c main_v10 (by decide) (by decide)).trans (W1_v10 m ρ c)
theorem W7_v12 (c : Dev nD) (n : Fin 50000) : W7 (F := Ideal) m ρ c (Proc.devRef .tc main_v12) (ix2 n 0) = dd (a1 m c) n :=
  (congrFun (W7_v12_eq m ρ c) _).trans (W1_v12 m ρ c n)
theorem W7_v13 (c : Dev nD) (n : Fin 50000) : W7 (F := Ideal) m ρ c (Proc.devRef .tc main_v13) (ix2 n 0) = maskOf (a2 m c) n :=
  (congrFun (W7_v13_eq m ρ c) _).trans (W1_v13 m ρ c n)
theorem W7_arg5 (c : Dev nD) : W7 (F := Ideal) m ρ c (Proc.devRef .tc main_arg5) = a5 m c :=
  (W7_of_W1 m ρ c main_arg5 (by decide) (by decide)).trans (W1_arg5 m ρ c)
theorem W7_arg6 (c : Dev nD) : W7 (F := Ideal) m ρ c (Proc.devRef .tc main_arg6) = a6 m c :=
  (W7_of_W1 m ρ c main_arg6 (by decide) (by decide)).trans (W1_arg6 m ρ c)
theorem W7_arg7 (c : Dev nD) : W7 (F := Ideal) m ρ c (Proc.devRef .tc main_arg7) = a7 m c :=
  (W7_of_W1 m ρ c main_arg7 (by decide) (by decide)).trans (W1_arg7 m ρ c)
theorem W7_v62 (c : Dev nD) : W7 (F := Ideal) m ρ c (Proc.devRef .tc main_v62) = W6 (F := Ideal) m ρ c (Proc.devRef .tc main_v62) :=
  keep7 m ρ c main_v62 (by decide)

theorem W7_v64 (c : Dev nD) (k d : Fin 128) : W7 (F := Ideal) m ρ c (Proc.devRef .tc main_v64) (ix2 k d) = wtOf (a4 m c) 1 k d := by
  show StableHlo.after hostOps3 (W6 m ρ c) _ _ = _
  after_results
  show shapeCast S128x128 (extractStridedSlice S1x128x128 ![1, 0, 0] (W6 (F := Ideal) m ρ c (Proc.devRef .tc main_arg4))
    slices_S3x128x128_S1x128x128_1_0_0) shapeCasts_S1x128x128_S128x128 (ix2 k d) = _
  rw [shapeCast_1ab_ab_apply, extractStridedSlice_apply _ _ _ (ix3 (0 : Fin 1) k d) (ix3 (1 : Fin 3) k d) (fun ax => by
    match ax with
    | ⟨0, _⟩ => rfl
    | ⟨1, _⟩ => exact (Nat.zero_add _).symm
    | ⟨2, _⟩ => exact (Nat.zero_add _).symm), W6_arg4]
  rfl

theorem W13_v1 (c : Dev nD) : W13 (F := Ideal) m ρ c (Proc.devRef .tc main_v1) = srcW (a1 m c) :=
  (W13_of_W7 m ρ c main_v1 (by decide) (by decide)).trans (W7_v1 m ρ c)
theorem W13_v3 (c : Dev nD) : W13 (F := Ideal) m ρ c (Proc.devRef .tc main_v3) = dstW (a1 m c) :=
  (W13_of_W7 m ρ c main_v3 (by decide) (by decide)).trans (W7_v3 m ρ c)
theorem W13_v10 (c : Dev nD) : W13 (F := Ideal) m ρ c (Proc.devRef .tc main_v10) = dinv (a1 m c) :=
  (W13_of_W7 m ρ c main_v10 (by decide) (by decide)).trans (W7_v10 m ρ c)
theorem W13_v12 (c : Dev nD) (n : Fin 50000) : W13 (F := Ideal) m ρ c (Proc.devRef .tc main_v12) (ix2 n 0) = dd (a1 m c) n :=
  (congrFun (W13_v12_eq m ρ c) _).trans (W7_v12 m ρ c n)
theorem W13_v13 (c : Dev nD) (n : Fin 50000) : W13 (F := Ideal) m ρ c (Proc.devRef .tc main_v13) (ix2 n 0) = maskOf (a2 m c) n :=
  (congrFun (W13_v13_eq m ρ c) _).trans (W7_v13 m ρ c n)
theorem W13_arg5 (c : Dev nD) : W13 (F := Ideal) m ρ c (Proc.devRef .tc main_arg5) = a5 m c :=
  (W13_of_W7 m ρ c main_arg5 (by decide) (by decide)).trans (W7_arg5 m ρ c)
theorem W13_arg6 (c : Dev nD) : W13 (F := Ideal) m ρ c (Proc.devRef .tc main_arg6) = a6 m c :=
  (W13_of_W7 m ρ c main_arg6 (by decide) (by decide)).trans (W7_arg6 m ρ c)
theorem W13_arg7 (c : Dev nD) : W13 (F := Ideal) m ρ c (Proc.devRef .tc main_arg7) = a7 m c :=
  (W13_of_W7 m ρ c main_arg7 (by decide) (by decide)).trans (W7_arg7 m ρ c)
theorem W13_v110 (c : Dev nD) : W13 (F := Ideal) m ρ c (Proc.devRef .tc main_v110) = W12 (F := Ideal) m ρ c (Proc.devRef .tc main_v110) :=
  keep13 m ρ c main_v110 (by decide)

theorem W13_v112 (c : Dev nD) (k d : Fin 128) : W13 (F := Ideal) m ρ c (Proc.devRef .tc main_v112) (ix2 k d) = wtOf (a4 m c) 2 k d := by
  show StableHlo.after hostOps6 (W12 m ρ c) _ _ = _
  after_results
  show shapeCast S128x128 (extractStridedSlice S1x128x128 ![2, 0, 0] (W12 (F := Ideal) m ρ c (Proc.devRef .tc main_arg4))
    slices_S3x128x128_S1x128x128_2_0_0) shapeCasts_S1x128x128_S128x128 (ix2 k d) = _
  rw [shapeCast_1ab_ab_apply, extractStridedSlice_apply _ _ _ (ix3 (0 : Fin 1) k d) (ix3 (2 : Fin 3) k d) (fun ax => by
    match ax with
    | ⟨0, _⟩ => rfl
    | ⟨1, _⟩ => exact (Nat.zero_add _).symm
    | ⟨2, _⟩ => exact (Nat.zero_add _).symm), W12_arg4]
  rfl

theorem W18_v13 (c : Dev nD) (n : Fin 50000) : W18 (F := Ideal) m ρ c (Proc.devRef .tc main_v13) (ix2 n 0) = maskOf (a2 m c) n :=
  (congrFun (W18_v13_eq m ρ c) _).trans (W13_v13 m ρ c n)
theorem W18_v14 (c : Dev nD) (n : Fin 50000) : W18 (F := Ideal) m ρ c (Proc.devRef .tc main_v14) (ix2 n 0) = a3 m c (ix1 n) :=
  (congrFun ((W18_of_W13 m ρ c main_v14 (by decide)).trans <| (W13_of_W7 m ρ c main_v14 (by decide) (by decide)).trans
    (W7_of_W1 m ρ c main_v14 (by decide) (by decide))) _).trans (W1_v14 m ρ c n)
theorem W19_arg3 (c : Dev nD) : W19 (F := Ideal) m ρ c (Proc.devRef .tc main_arg3) = a3 m c :=
  W19_of_W0 m ρ c main_arg3 (by decide) (by decide) (by decide) (by decide) (by decide) (by decide) (by decide)
theorem W19_arg8 (c : Dev nD) : W19 (F := Ideal) m ρ c (Proc.devRef .tc main_arg8) = a8 m c :=
  W19_of_W0 m ρ c main_arg8 (by decide) (by decide) (by decide) (by decide) (by decide) (by decide) (by decide)
theorem W19_arg9 (c : Dev nD) : W19 (F := Ideal) m ρ c (Proc.devRef .tc main_arg9) = a9 m c :=
  W19_of_W0 m ρ c main_arg9 (by decide) (by decide) (by decide) (by decide) (by decide) (by decide) (by decide)

end Cert.KernelIdeal.KBase

end
-- ==== Proof.KLayerLib.lean ====
import proofs.«408352_j17944373363255_2_alg».proof.Proof.Gen.KernelIdeal.Frame
import proofs.«408352_j17944373363255_2_alg».proof.Proof.Shared
import proofs.«408352_j17944373363255_2_alg».proof.Proof.Spec
import Idealize.ShloMosaic.Lib.ValueLayout
import Idealize.ShloMosaic.Lib.Pipeline.Value
import Idealize.ShloMosaic.Lib.StableHlo.Run

noncomputable section

namespace Cert.KernelIdeal.KLayerLib

open Cert.KernelIdeal Cert.KernelIdeal.Gen Idealize.ShloMosaic Idealize.ShloMosaic.TcCoe Idealize.ShloMosaic.ValueIdx Idealize.SL.Sem

abbrev Vof (X : Dev nD → Valuation τ sig (Elt Ideal)) : (c : Dev nD) → (b : Ref sig .tc) → Buf (Elt Ideal) ((c : Thread nD τ).loc b) := fun c b => X c b

-- Row o of a 3 by 128 array, cut out, flattened and laid out as one row again, is that row of the array.
theorem row_read (o : Nat) (X : FVec Ideal S3x128 .f32) (h : S3x128.Slices ![o, 0] S1x128) (l : Fin 3) (hl : l.val = o) (d : Fin 128) :
    shapeCast S1x128 (fun i => shapeCast S128 (extractStridedSlice S1x128 ![o, 0] X h) shapeCasts_S1x128_S128 i) shapeCasts_S128_S1x128 (ix2 0 d)
      = X (ix2 l d) :=
  (congrFun (shapeCast_shapeCast _ _ _) _).trans (slice2_axis0_apply o X h 0 d l (hl.trans (Nat.add_zero o).symm))

-- The column sums over the number of rows are the means; the sums of squares over it, less the squared means, the variances.
theorem bn_of_sums {γ γ' β β' : Gcn.Col} {a a' : Gcn.Arr} {s t : FVec Ideal S1x128 .f32}
    (hγ : ∀ d, γ d = γ' d) (hβ : ∀ d, β d = β' d) (hs : ∀ d, s (ix2 0 d) = Gcn.colSum a d) (ht : ∀ d, t (ix2 0 d) = Gcn.colSumSq a d)
    (ha : a = a') :
    Gcn.bn γ β a
        (fun d => Host.divf (F := Ideal) s (broadcastInDim S1x128 ![] bcast_S_S1x128 (constant S_ .f32 0x47435000#32)) (ix2 0 d))
        (fun d => subf (Host.divf (F := Ideal) t (broadcastInDim S1x128 ![] bcast_S_S1x128 (constant S_ .f32 0x47435000#32)))
          (mulf (Host.divf (F := Ideal) s (broadcastInDim S1x128 ![] bcast_S_S1x128 (constant S_ .f32 0x47435000#32)))
            (Host.divf (F := Ideal) s (broadcastInDim S1x128 ![] bcast_S_S1x128 (constant S_ .f32 0x47435000#32)))) (ix2 0 d))
      = Gcn.bn γ' β' a' (Gcn.colMean a') (Gcn.varK a') := by
  obtain rfl := funext hγ
  obtain rfl := funext hβ
  subst ha
  show Gcn.bn γ β a (fun d => Ideal.div (s (ix2 0 d)) Gcn.nRows)
    (fun d => Ideal.div (t (ix2 0 d)) Gcn.nRows - Ideal.div (s (ix2 0 d)) Gcn.nRows * Ideal.div (s (ix2 0 d)) Gcn.nRows) = _
  simp only [hs, ht]
  rfl

end Cert.KernelIdeal.KLayerLib

end
-- ==== Proof.Transform.lean ====
import proofs.«408352_j17944373363255_2_alg».proof.Proof.Gen.KernelIdeal.Frame
import proofs.«408352_j17944373363255_2_alg».proof.Proof.Spec
import Idealize.ShloMosaic.Lib.ValueIdx
import Idealize.ShloMosaic.Lib.Pipeline.Value
import Idealize.ShloMosaic.PureOps.Ideal.Laws

noncomputable section

namespace Cert.KernelIdeal.Transform

open Cert.KernelIdeal Cert.KernelIdeal.Gen Idealize.ShloMosaic Idealize.ShloMosaic.TcCoe Idealize.ShloMosaic.ValueIdx Idealize.SL.Sem

theorem hz : (![0, 0] : Fin 2 → Nat) = fun _ => 0 := funext fun a => by fin_cases a <;> rfl

-- On the ten-point grid the row map sends point t to block (t, 0), and the fixed map sends every point to block (0, 0).
theorem row_map : ∀ t : Fin grid0.N, cc0_transform_0 (grid0.coords t) 0 = t.val ∧ cc0_transform_0 (grid0.coords t) 1 = 0 := by
  decide +kernel
theorem fix_map : ∀ t : Fin grid0.N, cc0_transform_2 (grid0.coords t) 0 = 0 ∧ cc0_transform_2 (grid0.coords t) 1 = 0 := by
  decide +kernel

-- The block product into a zero accumulator: the contracted index is one coordinate in 0 .. 127.
theorem mm_apply (A : FVec Ideal S5000x128 .bf16) (B : FVec Ideal S128x128 .bf16) (r : Fin 5000) (d : Fin 128) :
    FloatOps.matmul dot_S5000x128_S128x128_S5000x128_1_0_0_1_n_n none A B (constant S5000x128 .f32 0x00000000#32) (ix2 r d)
      = ∑ k : Fin 128, A (ix2 r k) * B (ix2 k d) := by
  rw [Ideal.matmul_constant_zero_apply,
    ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  exact congrArg₂ (· * ·) (congrArg A (Shape.idx_ext₂ rfl hk)) (congrArg B (Shape.idx_ext₂ hk rfl))

-- A column laid out over the channels keeps its row's entry.
theorem bcast_apply (x : S5000x1.Idx → EReal) (h : S5000x1.Broadcasts S5000x128) (r : Fin 5000) (k : Fin 128) :
    broadcastTo S5000x128 x h (ix2 r k) = x (ix2 r 0) :=
  broadcastTo_apply x h (ix2 r k) (ix2 r 0) fun a => match a with | ⟨0, _⟩ => rfl | ⟨1, _⟩ => rfl

-- The payload at row r and channel d: the row scaled by its mask entry, times the weights.
theorem pay0 (x0 : Vec Ideal S5000x128 .f32) (x1 : Vec Ideal S5000x1 .f32) (x2 : Vec Ideal S128x128 .f32)
    (r : Fin 5000) (d : Fin 128) :
    k0_pay1 (F := Ideal) x0 x1 x2 (ix2 r d) = ∑ k : Fin 128, (x0 (ix2 r k) * x1 (ix2 r 0)) * x2 (ix2 k d) := by
  unfold k0_pay1
  simp only [shapeCast_self]
  refine (mm_apply _ _ r d).trans (Finset.sum_congr rfl fun k _ => ?_)
  rw [truncf_apply, truncf_apply, mulf_apply, bcast_apply]

theorem pay3 (x0 : Vec Ideal S5000x128 .f32) (x1 : Vec Ideal S5000x1 .f32) (x2 : Vec Ideal S128x128 .f32)
    (r : Fin 5000) (d : Fin 128) :
    k3_pay1 (F := Ideal) x0 x1 x2 (ix2 r d) = ∑ k : Fin 128, (x0 (ix2 r k) * x1 (ix2 r 0)) * x2 (ix2 k d) := by
  unfold k3_pay1
  rw [shapeCast_self x0]
  exact pay0 x0 x1 x2 r d

-- One piece over the whole index set, computed from whole reads of the arguments, is the payload of the arguments.
theorem out_whole {F : FTy → Type} [FloatOps F]
    (P : Vec F S5000x128 .f32 → Vec F S5000x1 .f32 → Vec F S128x128 .f32 → FVec F S5000x128 .f32)
    (x0 : Vec F S5000x128 .f32) (x1 : Vec F S5000x1 .f32) (x2 : Vec F S128x128 .f32) :
    (View.canon [⟨r0_0, P (View.ld x0 r0_0) (View.ld x1 r0_1) (View.ld x2 r0_2)⟩] : Vec F S5000x128 .f32) = P x0 x1 x2 := by
  rw [View.canon_unit_zero hz]
  simp only [View.ld_unit_zero (S := S5000x128) hz, View.ld_unit_zero (S := S5000x1) hz, View.ld_unit_zero (S := S128x128) hz]

-- An index at block t of size b on axis 0 and at block 0 on axis 1, with inner coordinates (p, q), is (t * b + p, q).
theorem blk_ix2 {R C : ℕ} {x : (⟨2, ![R, C]⟩ : Shape).Idx} {f0 f1 t b c p q : ℕ} (e0 : f0 = t) (e1 : f1 = 0)
    (h0 : (x 0 : ℕ) = f0 * b + p) (h1 : (x 1 : ℕ) = f1 * c + q) (n : Fin R) (k : Fin C)
    (hn : (n : ℕ) = t * b + p) (hk : (k : ℕ) = q) : x = ix2 n k := by
  subst e0 e1
  exact Shape.idx_ext₂ (h0.trans hn.symm) (by rw [h1, hk, Nat.zero_mul, Nat.zero_add])

-- Row i 0 lies in row block (i 0) / 5000, and every channel in the one channel block.
theorem row_mem (i : S50000x128.Idx) {f : Fin 2 → ℕ} (e0 : f 0 = (i 0).val / 5000) (e1 : f 1 = 0) (a : Fin 2) :
    f a * S5000x128.size a ≤ (i a).val ∧ (i a).val < f a * S5000x128.size a + S5000x128.size a := by
  have h1 : (i 1).val < 128 := (i 1).isLt
  match a with
  | ⟨0, _⟩ => show f 0 * 5000 ≤ (i 0).val ∧ (i 0).val < f 0 * 5000 + 5000; omega
  | ⟨1, _⟩ => show f 1 * 128 ≤ (i 1).val ∧ (i 1).val < f 1 * 128 + 128; omega

-- Blocks read through index maps that put row r of block t at row t * 5000 + r, the mask column likewise and the weights whole, make the body's value the whole-array function at the output's place.
theorem block_eq (X : Gcn.Arr) (M : S50000x1.Idx → EReal) (W : S128x128.Idx → EReal)
    {e0 e3 : S5000x128.Idx → S50000x128.Idx} {e1 : S5000x1.Idx → S50000x1.Idx} {e2 : S128x128.Idx → S128x128.Idx}
    {i0 i1 i2 i3 : Fin 2 → ℕ} {t : ℕ}
    (h0 : ∀ y a, (e0 y a : ℕ) = i0 a * S5000x128.size a + y a) (h1 : ∀ y a, (e1 y a : ℕ) = i1 a * S5000x1.size a + y a)
    (h2 : ∀ y a, (e2 y a : ℕ) = i2 a * S128x128.size a + y a) (h3 : ∀ y a, (e3 y a : ℕ) = i3 a * S5000x128.size a + y a)
    (hi : (i0 0 = t ∧ i0 1 = 0) ∧ (i1 0 = t ∧ i1 1 = 0) ∧ (i2 0 = 0 ∧ i2 1 = 0) ∧ (i3 0 = t ∧ i3 1 = 0))
    (P : Vec Ideal S5000x128 .f32 → Vec Ideal S5000x1 .f32 → Vec Ideal S128x128 .f32 → FVec Ideal S5000x128 .f32)
    (hP : ∀ x0 x1 x2 r d, P x0 x1 x2 (ix2 r d) = ∑ k : Fin 128, (x0 (ix2 r k) * x1 (ix2 r 0)) * x2 (ix2 k d))
    (j : S5000x128.Idx) :
    P (fun y => X (e0 y)) (fun y => M (e1 y)) (fun y => W (e2 y)) j
      = Gcn.hwOf (fun n => M (ix2 n 0)) (fun k d => W (ix2 k d)) X (e3 j) := by
  obtain ⟨⟨a0, b0⟩, ⟨a1, b1⟩, ⟨a2, b2⟩, ⟨a3, b3⟩⟩ := hi
  obtain ⟨r, d, rfl⟩ : ∃ (r : Fin 5000) (d : Fin 128), j = ix2 r d := ⟨j 0, j 1, eq_ix2 j⟩
  have hn : t * 5000 + r.val < 50000 := by
    have := (e3 (ix2 r d) 0).isLt; rw [h3, a3] at this; exact this
  rw [hP, blk_ix2 a3 b3 (h3 _ 0) (h3 _ 1) ⟨_, hn⟩ d rfl rfl]
  refine Finset.sum_congr rfl fun k _ => ?_
  rw [blk_ix2 a0 b0 (h0 (ix2 r k) 0) (h0 _ 1) ⟨_, hn⟩ k rfl rfl, blk_ix2 a1 b1 (h1 (ix2 r 0) 0) (h1 _ 1) ⟨_, hn⟩ 0 rfl rfl,
    blk_ix2 a2 b2 (h2 (ix2 k d) 0) (h2 _ 1) k d (by show k.val = 0 * 128 + k.val; omega) rfl]

end Cert.KernelIdeal.Transform

end
-- ==== Proof.Reg0.lean ====
import proofs.«408352_j17944373363255_2_alg».proof.Proof.Transform

noncomputable section

namespace Cert.KernelIdeal.Reg0

open Cert.KernelIdeal Cert.KernelIdeal.Gen Idealize.ShloMosaic Idealize.ShloMosaic.TcCoe Idealize.ShloMosaic.ValueIdx Idealize.SL.Sem Transform

variable (V : (c : Dev nD) → (b : Ref sig .tc) → Buf (Elt Ideal) ((c : Thread nD τ).loc b))

theorem val (c : Dev nD) :
    (Gen.dat0 (F := Ideal) V c).arrAt 3 cfg0.N
      = Gcn.hwOf (fun n => V c main_v13 (ix2 n 0)) (fun k d => V c main_v16 (ix2 k d)) (V c main_arg0) := by
  refine (dat0 (F := Ideal) V c).arrAt_eq_of_cover 3 _ (fun t _ => ?_) fun i => ?_
  · show (cfg0.win 3).cut (grid0.coords t) ((dat0 V c).after 3 t) = _
    rw [after0_3]
    exact funext fun j => (congrFun (out_whole k0_pay1 _ _ _) _).trans
      (block_eq (V c main_arg0) (V c main_v13) (V c main_v16) (win0_0.rect_emb_val t) (win0_1.rect_emb_val t) (win0_2.rect_emb_val t)
        (win0_3.rect_emb_val t) ⟨row_map t, row_map t, fix_map t, row_map t⟩ k0_pay1 pay0 j)
  · have hi : (i 0).val < 50000 := (i 0).isLt
    obtain ⟨t, ht⟩ : ∃ t : Fin cfg0.N, t.val = (i 0).val / 5000 := ⟨⟨_, by rw [show cfg0.N = 10 from N_0]; omega⟩, rfl⟩
    refine ⟨t, flush0_3 t, ?_⟩
    show i ∈ ((View.whole main_v17).slice (win0_3.rect t)).set
    rw [View.set_slice_whole, Rect.mem_set_unit]
    exact row_mem i ((row_map t).1.trans ht) (row_map t).2

end Cert.KernelIdeal.Reg0

end
-- ==== Proof.Aggregate.lean ====
import proofs.«408352_j17944373363255_2_alg».proof.Proof.Transform
import Idealize.ShloMosaic.Lib.ValueLayout
import Idealize.ShloMosaic.Lib.Tactic
import Mathlib.Algebra.BigOperators.Group.Finset.Basic
import Mathlib.Algebra.BigOperators.Fin

noncomputable section

namespace Cert.KernelIdeal.Aggregate

open Cert.KernelIdeal Cert.KernelIdeal.Gen Idealize.ShloMosaic Idealize.ShloMosaic.TcCoe Idealize.ShloMosaic.ValueIdx Idealize.SL.Sem Transform

section Pieces
variable {F : FTy → Type} [FloatOps F] {c : Dev nD} {i : grid1.Coords}
  {a1 : Memref sig .tc .vmem S5000x128 .f32} {h1 : a1.IsWhole} {a2 : Memref sig .tc .vmem S5000x128 .f32} {h2 : a2.IsWhole}
  {a3 : Memref sig .tc .vmem S5000x1 .f32} {h3 : a3.IsWhole} {a4 : Memref sig .tc .vmem S1x128 .f32} {h4 : a4.IsWhole}
  {a5 : Memref sig .tc .vmem S5000x128 .f32} (h5 : a5.IsWhole) {a6 : Memref sig .tc .vmem S1x128 .f32} (h6 : a6.IsWhole)
  {a7 : Memref sig .tc .vmem S1x128 .f32} (h7 : a7.IsWhole) (hA : cond1_0 i) (hB : ¬cond1_0 i)
  {x0 x1 : Vec F S5000x128 .f32} {x2 : Vec F S5000x1 .f32} {x3 xo5 xo6 : Vec F S1x128 .f32}

-- In either control case each output block ends as the value last stored to it.
theorem canon_A_4 : View.canon (kernelRun1_A c i a1 h1 a2 h2 a3 h3 a4 h4 a5 h5 a6 h6 a7 h7 hA x0 x1 x2 x3).1 = k1_pay3 x0 x1 x2 x3 := by
  unfold kernelRun1_A
  dsimp only
  sl_unfold_words
  rw [View.canon_unit_zero hz]
  simp only [View.readAt_eq_ld, Memref.IsWhole.read_unread,
    View.ld_unit_zero (S := S5000x128) hz, View.ld_unit_zero (S := S5000x1) hz, View.ld_unit_zero (S := S1x128) hz]

theorem canon_A_5 : View.canon (kernelRun1_A c i a1 h1 a2 h2 a3 h3 a4 h4 a5 h5 a6 h6 a7 h7 hA x0 x1 x2 x3).2.1 = k1_pay4 x0 x1 x2 x3 (k1_pay1 (F := F)) := by
  unfold kernelRun1_A
  dsimp only
  sl_unfold_words
  rw [View.canon_cons_unit_zero (S := S1x128) hz, View.readCov_unit_zero (S := S1x128) _ hz]
  simp only [View.readAt_eq_ld, Memref.IsWhole.read_unread,
    View.ld_unit_zero (S := S5000x128) hz, View.ld_unit_zero (S := S5000x1) hz, View.ld_unit_zero (S := S1x128) hz]

theorem canon_A_6 : View.canon (kernelRun1_A c i a1 h1 a2 h2 a3 h3 a4 h4 a5 h5 a6 h6 a7 h7 hA x0 x1 x2 x3).2.2.1 = k1_pay5 x0 x1 x2 x3 (k1_pay2 (F := F)) := by
  unfold kernelRun1_A
  dsimp only
  sl_unfold_words
  rw [View.canon_cons_unit_zero (S := S1x128) hz, View.readCov_unit_zero (S := S1x128) _ hz]
  simp only [View.readAt_eq_ld, Memref.IsWhole.read_unread,
    View.ld_unit_zero (S := S5000x128) hz, View.ld_unit_zero (S := S5000x1) hz, View.ld_unit_zero (S := S1x128) hz]

theorem canon_B_4 : View.canon (kernelRun1_B c i a1 h1 a2 h2 a3 h3 a4 h4 a5 h5 a6 h6 a7 h7 hB x0 x1 x2 x3 xo5 xo6).1 = k1_pay3 x0 x1 x2 x3 := by
  unfold kernelRun1_B
  dsimp only
  sl_unfold_words
  rw [View.canon_unit_zero hz]
  simp only [View.readAt_eq_ld, Memref.IsWhole.read_unread,
    View.ld_unit_zero (S := S5000x128) hz, View.ld_unit_zero (S := S5000x1) hz, View.ld_unit_zero (S := S1x128) hz]

theorem canon_B_5 : View.canon (kernelRun1_B c i a1 h1 a2 h2 a3 h3 a4 h4 a5 h5 a6 h6 a7 h7 hB x0 x1 x2 x3 xo5 xo6).2.1 = k1_pay4 x0 x1 x2 x3 xo5 := by
  unfold kernelRun1_B
  dsimp only
  sl_unfold_words
  rw [View.canon_unit_zero hz]
  simp only [View.readAt_eq_ld, Memref.IsWhole.read_unread,
    View.ld_unit_zero (S := S5000x128) hz, View.ld_unit_zero (S := S5000x1) hz, View.ld_unit_zero (S := S1x128) hz]

theorem canon_B_6 : View.canon (kernelRun1_B c i a1 h1 a2 h2 a3 h3 a4 h4 a5 h5 a6 h6 a7 h7 hB x0 x1 x2 x3 xo5 xo6).2.2.1 = k1_pay5 x0 x1 x2 x3 xo6 := by
  unfold kernelRun1_B
  dsimp only
  sl_unfold_words
  rw [View.canon_unit_zero hz]
  simp only [View.readAt_eq_ld, Memref.IsWhole.read_unread,
    View.ld_unit_zero (S := S5000x128) hz, View.ld_unit_zero (S := S5000x1) hz, View.ld_unit_zero (S := S1x128) hz]

end Pieces

-- A one-row array has the one block.
theorem mem_one_row (i : S1x128.Idx) (off : Fin 2 → ℕ) (h0 : off 0 = 0) (h1 : off 1 = 0) (a : Fin 2) :
    off a * S1x128.size a ≤ (i a).val ∧ (i a).val < off a * S1x128.size a + S1x128.size a := by
  have hi0 : (i 0).val < 1 := (i 0).isLt
  have hi1 : (i 1).val < 128 := (i 1).isLt
  match a with
  | ⟨0, _⟩ => show off 0 * 1 ≤ (i 0).val ∧ (i 0).val < off 0 * 1 + 1; rw [h0]; omega
  | ⟨1, _⟩ => show off 1 * 128 ≤ (i 1).val ∧ (i 1).val < off 1 * 128 + 128; rw [h1]; omega

section Payload
variable (x0 x1 : Vec Ideal S5000x128 .f32) (x2 : Vec Ideal S5000x1 .f32) (x3 acc : Vec Ideal S1x128 .f32) (r : Fin 5000) (q : Fin 128)

theorem pay3_apply :
    k1_pay3 x0 x1 x2 x3 (ix2 r q) = x0 (ix2 r q) + x1 (ix2 r q) * x2 (ix2 r (0 : Fin 1)) + x3 (ix2 (0 : Fin 1) q) := by
  unfold k1_pay3
  simp only [shapeCast_self, addf_apply, mulf_apply]
  rw [bcast_apply x2 _ r q, broadcastTo_1b_ab_apply x3 _ r q]

theorem pay1_apply (u : Fin 1) : k1_pay1 (F := Ideal) (ix2 u q) = 0 := Ideal.ofBits_zero_f32
theorem pay2_apply (u : Fin 1) : k1_pay2 (F := Ideal) (ix2 u q) = 0 := Ideal.ofBits_zero_f32

-- The reduction over the rows of a block, at column q, is the sum of the column.
theorem reduce_rows (v : Vec Ideal S5000x128 .f32) :
    multiReduction (F := Ideal) .add [0] S128 v 0x00000000#32 reduces_S5000x128_S128 (.inl rfl) rfl (ix1 q) = ∑ r : Fin 5000, v (ix2 r q) := by
  refine (Ideal.multiReduction_add_single v 0x00000000#32 reduces_S5000x128_S128 (.inl rfl) rfl (ix1 q)).trans ?_
  show ∑ r : Fin 5000, _ = _
  refine Finset.sum_congr rfl fun r _ => congrArg _ (funext fun a => ?_)
  match a with
  | ⟨0, _⟩ => rfl
  | ⟨1, _⟩ => rfl

theorem pay4_apply :
    k1_pay4 x0 x1 x2 x3 acc (ix2 (0 : Fin 1) q) = acc (ix2 (0 : Fin 1) q) + ∑ r : Fin 5000, k1_pay3 x0 x1 x2 x3 (ix2 r q) := by
  unfold k1_pay4
  rw [addf_apply, shapeCast_self, shapeCast_a_1a_apply, reduce_rows]

theorem pay5_apply :
    k1_pay5 x0 x1 x2 x3 acc (ix2 (0 : Fin 1) q)
      = acc (ix2 (0 : Fin 1) q) + ∑ r : Fin 5000, k1_pay3 x0 x1 x2 x3 (ix2 r q) * k1_pay3 x0 x1 x2 x3 (ix2 r q) := by
  unfold k1_pay5
  rw [addf_apply, shapeCast_self, shapeCast_a_1a_apply, reduce_rows]
  simp only [mulf_apply]

example : k4_pay3 x0 x1 x2 x3 = k1_pay3 x0 x1 x2 x3 := rfl
example : k7_pay5 x0 x1 x2 x3 acc = k1_pay5 x0 x1 x2 x3 acc := rfl
example : k4_pay4 x0 x1 x2 x3 (k4_pay1 (F := Ideal)) = k1_pay4 x0 x1 x2 x3 (k1_pay1 (F := Ideal)) := rfl

end Payload

section Sums
variable (a : Gcn.Arr) (q : Fin 128) (φ : EReal → EReal)

-- Column q of a, continued by zero beyond its last row, so that sums can run over ranges of naturals.
def rowN (n : ℕ) : EReal := if h : n < 50000 then a (ix2 ⟨n, h⟩ q) else 0

theorem sum_rows_eq_range : ∑ n : Fin 50000, φ (a (ix2 n q)) = ∑ n ∈ Finset.range 50000, φ (rowN a q n) := by
  rw [Finset.sum_range]
  refine Finset.sum_congr rfl fun n _ => ?_
  unfold rowN
  rw [dif_pos n.isLt]

-- Block s contributes the 5000 consecutive rows from 5000 s on.
theorem sum_block (g : Fin 5000 → EReal) (s : ℕ) (hs : s < 10)
    (h : ∀ (r : Fin 5000) (n : Fin 50000), n.val = 5000 * s + r.val → g r = a (ix2 n q)) :
    ∑ r : Fin 5000, φ (g r) = ∑ x ∈ Finset.range 5000, φ (rowN a q (5000 * s + x)) := by
  rw [Finset.sum_range]
  refine Finset.sum_congr rfl fun r _ => ?_
  have hr := r.isLt
  have hlt : 5000 * s + r.val < 50000 := by omega
  unfold rowN
  rw [dif_pos hlt]
  exact congrArg φ (h r ⟨_, hlt⟩ rfl)

-- Adding the blocks' sums one after another, from zero, gives the sum over all 50000 rows.
theorem fold_sum {N : ℕ} (hN : N = 10) (S : (n : ℕ) → n < N → EReal) (g : Fin N → Fin 5000 → EReal)
    (hg : ∀ (t : Fin N) (r : Fin 5000) (n : Fin 50000), n.val = 5000 * t.val + r.val → g t r = a (ix2 n q))
    (h0 : ∀ h, S 0 h = 0 + ∑ r, φ (g ⟨0, h⟩ r))
    (hs : ∀ n h, S (n + 1) h = S n (Nat.lt_of_succ_lt h) + ∑ r, φ (g ⟨n + 1, h⟩ r)) :
    ∀ n h, S n h = ∑ i ∈ Finset.range (5000 * (n + 1)), φ (rowN a q i)
  | 0, h => by
    rw [h0, zero_add, sum_block a q φ (g ⟨0, h⟩) 0 (by omega) (hg ⟨0, h⟩)]
    simp only [Nat.mul_zero, Nat.zero_add, Nat.mul_one]
  | n + 1, h => by
    rw [hs, fold_sum hN S g hg h0 hs n, Nat.mul_add_one 5000 (n + 1), Finset.sum_range_add,
      sum_block a q φ (g ⟨n + 1, h⟩) (n + 1) (by omega) (hg ⟨n + 1, h⟩)]

theorem fold_sum_last {N : ℕ} (hN : N = 10) (S : (n : ℕ) → n < N → EReal) (g : Fin N → Fin 5000 → EReal)
    (hg : ∀ (t : Fin N) (r : Fin 5000) (n : Fin 50000), n.val = 5000 * t.val + r.val → g t r = a (ix2 n q))
    (h0 : ∀ h, S 0 h = 0 + ∑ r, φ (g ⟨0, h⟩ r))
    (hs : ∀ n h, S (n + 1) h = S n (Nat.lt_of_succ_lt h) + ∑ r, φ (g ⟨n + 1, h⟩ r))
    (t : Fin N) (h9 : t.val = 9) : S t.val t.isLt = ∑ n : Fin 50000, φ (a (ix2 n q)) :=
  (fold_sum a q φ hN S g hg h0 hs t.val t.isLt).trans (by rw [h9]; exact (sum_rows_eq_range a q φ).symm)

end Sums

-- One point's three results, from its four input blocks and the two carried rows.
def point (x0 x1 : Vec Ideal S5000x128 .f32) (x2 : Vec Ideal S5000x1 .f32) (x3 a5 a6 : Vec Ideal S1x128 .f32) :
    Vec Ideal S5000x128 .f32 × Vec Ideal S1x128 .f32 × Vec Ideal S1x128 .f32 :=
  (k1_pay3 x0 x1 x2 x3, k1_pay4 x0 x1 x2 x3 a5, k1_pay5 x0 x1 x2 x3 a6)

section Fold
variable {N : ℕ} (hN : N = 10)
  (O : (n : ℕ) → n < N → Vec Ideal S5000x128 .f32 × Vec Ideal S1x128 .f32 × Vec Ideal S1x128 .f32)
  (X0 X1 : Gcn.Arr) (X2 : S50000x1.Idx → EReal) (X3 : S1x128.Idx → EReal)
  {e0 e1 e4 : Fin N → S5000x128.Idx → S50000x128.Idx} {e2 : Fin N → S5000x1.Idx → S50000x1.Idx} {e3 e5 e6 : Fin N → S1x128.Idx → S1x128.Idx}
  {i0 i1 i2 i3 i4 i5 i6 : Fin N → Fin 2 → ℕ}
  (E0 : ∀ t y a, (e0 t y a : ℕ) = i0 t a * S5000x128.size a + y a) (E1 : ∀ t y a, (e1 t y a : ℕ) = i1 t a * S5000x128.size a + y a)
  (E2 : ∀ t y a, (e2 t y a : ℕ) = i2 t a * S5000x1.size a + y a) (E3 : ∀ t y a, (e3 t y a : ℕ) = i3 t a * S1x128.size a + y a)
  (E4 : ∀ t y a, (e4 t y a : ℕ) = i4 t a * S5000x128.size a + y a) (E5 : ∀ t y a, (e5 t y a : ℕ) = i5 t a * S1x128.size a + y a)
  (E6 : ∀ t y a, (e6 t y a : ℕ) = i6 t a * S1x128.size a + y a)
  (hi : ∀ t, i0 t 0 = t.val ∧ i0 t 1 = 0 ∧ i1 t 0 = t.val ∧ i1 t 1 = 0 ∧ i2 t 0 = t.val ∧ i2 t 1 = 0 ∧ i3 t 0 = 0 ∧ i3 t 1 = 0
    ∧ i4 t 0 = t.val ∧ i4 t 1 = 0 ∧ i5 t 0 = 0 ∧ i5 t 1 = 0 ∧ i6 t 0 = 0 ∧ i6 t 1 = 0)
  (hA : ∀ t : Fin N, t.val % 10 = 0 → O t.val t.isLt = point (fun y => X0 (e0 t y)) (fun y => X1 (e1 t y)) (fun y => X2 (e2 t y)) (fun y => X3 (e3 t y)) (k1_pay1 (F := Ideal)) (k1_pay2 (F := Ideal)))
  (hB : ∀ t : Fin N, ¬t.val % 10 = 0 → O t.val t.isLt = point (fun y => X0 (e0 t y)) (fun y => X1 (e1 t y)) (fun y => X2 (e2 t y)) (fun y => X3 (e3 t y)) (O (t.val - 1) (Nat.lt_of_le_of_lt (Nat.sub_le _ _) t.isLt)).2.1 (O (t.val - 1) (Nat.lt_of_le_of_lt (Nat.sub_le _ _) t.isLt)).2.2)

include E0 E1 E2 E3 hi in
-- Entry (r, q) of point t's block is entry (5000 t + r, q) of a.
theorem blk_a (t : Fin N) (r : Fin 5000) (q : Fin 128) (n : Fin 50000) (hn : n.val = 5000 * t.val + r.val) :
    k1_pay3 (F := Ideal) (fun y => X0 (e0 t y)) (fun y => X1 (e1 t y)) (fun y => X2 (e2 t y)) (fun y => X3 (e3 t y)) (ix2 r q) = Gcn.aggArr X0 X1 (fun n => X2 (ix2 n 0)) (fun d => X3 (ix2 0 d)) (ix2 n q) := by
  obtain ⟨a0, b0, a1, b1, a2, b2, a3, b3, -⟩ := hi t
  have hn' : n.val = t.val * 5000 + r.val := by omega
  rw [pay3_apply, blk_ix2 a0 b0 (E0 t (ix2 r q) 0) (E0 t (ix2 r q) 1) n q hn' rfl, blk_ix2 a1 b1 (E1 t (ix2 r q) 0) (E1 t (ix2 r q) 1) n q hn' rfl,
    blk_ix2 a2 b2 (E2 t (ix2 r 0) 0) (E2 t (ix2 r 0) 1) n 0 hn' rfl, blk_ix2 a3 b3 (E3 t (ix2 0 q) 0) (E3 t (ix2 0 q) 1) 0 q rfl rfl]
  rfl

include hA hB in
theorem out4_eq (t : Fin N) : (O t.val t.isLt).1 = k1_pay3 (F := Ideal) (fun y => X0 (e0 t y)) (fun y => X1 (e1 t y)) (fun y => X2 (e2 t y)) (fun y => X3 (e3 t y)) :=
  if h : t.val % 10 = 0 then congrArg Prod.fst (hA t h) else congrArg Prod.fst (hB t h)

include hN E0 E1 E2 E3 E4 hi hA hB in
theorem out4 (t : Fin N) (j : S5000x128.Idx) : (O t.val t.isLt).1 j = Gcn.aggArr X0 X1 (fun n => X2 (ix2 n 0)) (fun d => X3 (ix2 0 d)) (e4 t j) := by
  obtain ⟨r, q, rfl⟩ : ∃ (r : Fin 5000) (q : Fin 128), j = ix2 r q := ⟨j 0, j 1, eq_ix2 j⟩
  have hlt : 5000 * t.val + r.val < 50000 := by have := r.isLt; have := lt_of_lt_of_eq t.isLt hN; omega
  obtain ⟨-, -, -, -, -, -, -, -, a4, b4, -⟩ := hi t
  rw [blk_ix2 a4 b4 (E4 t (ix2 r q) 0) (E4 t (ix2 r q) 1) ⟨_, hlt⟩ q (by show 5000 * t.val + r.val = t.val * 5000 + r.val; omega) rfl]
  exact (congrFun (out4_eq O X0 X1 X2 X3 hA hB t) _).trans (blk_a X0 X1 X2 X3 E0 E1 E2 E3 hi t r q _ rfl)

include hN E0 E1 E2 E3 E5 hi hA hB in
-- After the last point the carried rows hold the column sums of a, and of its squares, over all rows.
theorem out5 (t : Fin N) (h9 : t.val % 10 = 9) (j : S1x128.Idx) : (O t.val t.isLt).2.1 j = Gcn.colSum (Gcn.aggArr X0 X1 (fun n => X2 (ix2 n 0)) (fun d => X3 (ix2 0 d))) (e5 t j 1) := by
  obtain ⟨u, q, rfl⟩ : ∃ (u : Fin 1) (q : Fin 128), j = ix2 u q := ⟨j 0, j 1, eq_ix2 j⟩
  obtain rfl : u = 0 := Subsingleton.elim _ _
  obtain ⟨-, -, -, -, -, -, -, -, -, -, a5, b5, -⟩ := hi t
  rw [blk_ix2 a5 b5 (E5 t (ix2 0 q) 0) (E5 t (ix2 0 q) 1) 0 q rfl rfl]
  refine fold_sum_last (Gcn.aggArr X0 X1 (fun n => X2 (ix2 n 0)) (fun d => X3 (ix2 0 d))) q (fun x => x) hN (fun n h => (O n h).2.1 (ix2 (0 : Fin 1) q))
    (fun t r => k1_pay3 (F := Ideal) (fun y => X0 (e0 t y)) (fun y => X1 (e1 t y)) (fun y => X2 (e2 t y)) (fun y => X3 (e3 t y)) (ix2 r q)) (fun t r => blk_a X0 X1 X2 X3 E0 E1 E2 E3 hi t r q)
    (fun h => ?_) (fun n h => ?_) t (by have := lt_of_lt_of_eq t.isLt hN; omega)
  · exact (congrFun (congrArg (·.2.1) (hA ⟨0, h⟩ rfl)) _).trans ((pay4_apply ..).trans (congrArg (· + _) (pay1_apply q 0)))
  · have hn : n + 1 < 10 := hN ▸ h
    exact (congrFun (congrArg (·.2.1) (hB ⟨n + 1, h⟩ (by show ¬(n + 1) % 10 = 0; omega))) _).trans (pay4_apply ..)

include hN E0 E1 E2 E3 E6 hi hA hB in
theorem out6 (t : Fin N) (h9 : t.val % 10 = 9) (j : S1x128.Idx) : (O t.val t.isLt).2.2 j = Gcn.colSumSq (Gcn.aggArr X0 X1 (fun n => X2 (ix2 n 0)) (fun d => X3 (ix2 0 d))) (e6 t j 1) := by
  obtain ⟨u, q, rfl⟩ : ∃ (u : Fin 1) (q : Fin 128), j = ix2 u q := ⟨j 0, j 1, eq_ix2 j⟩
  obtain rfl : u = 0 := Subsingleton.elim _ _
  obtain ⟨-, -, -, -, -, -, -, -, -, -, -, -, a6, b6⟩ := hi t
  rw [blk_ix2 a6 b6 (E6 t (ix2 0 q) 0) (E6 t (ix2 0 q) 1) 0 q rfl rfl]
  refine fold_sum_last (Gcn.aggArr X0 X1 (fun n => X2 (ix2 n 0)) (fun d => X3 (ix2 0 d))) q (fun x => x * x) hN (fun n h => (O n h).2.2 (ix2 (0 : Fin 1) q))
    (fun t r => k1_pay3 (F := Ideal) (fun y => X0 (e0 t y)) (fun y => X1 (e1 t y)) (fun y => X2 (e2 t y)) (fun y => X3 (e3 t y)) (ix2 r q)) (fun t r => blk_a X0 X1 X2 X3 E0 E1 E2 E3 hi t r q)
    (fun h => ?_) (fun n h => ?_) t (by have := lt_of_lt_of_eq t.isLt hN; omega)
  · exact (congrFun (congrArg (·.2.2) (hA ⟨0, h⟩ rfl)) _).trans ((pay5_apply ..).trans (congrArg (· + _) (pay2_apply q 0)))
  · have hn : n + 1 < 10 := hN ▸ h
    exact (congrFun (congrArg (·.2.2) (hB ⟨n + 1, h⟩ (by show ¬(n + 1) % 10 = 0; omega))) _).trans (pay5_apply ..)

end Fold

end Cert.KernelIdeal.Aggregate

end
-- ==== Proof.Reg1.lean ====
import proofs.«408352_j17944373363255_2_alg».proof.Proof.Aggregate

noncomputable section

namespace Cert.KernelIdeal.Reg1

open Cert.KernelIdeal Cert.KernelIdeal.Gen Idealize.ShloMosaic Idealize.ShloMosaic.TcCoe Idealize.ShloMosaic.ValueIdx Idealize.SL.Sem Aggregate Transform
open Idealize.ShloMosaic.Pipeline (Dat)

variable (V : (c : Dev nD) → (b : Ref sig .tc) → Buf (Elt Ideal) ((c : Thread nD τ).loc b))

theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0 :=
  (by decide +kernel : ∀ t : Fin grid1.N, _)

abbrev aArr (c : Dev nD) : Gcn.Arr := Gcn.aggArr (V c main_v45) (V c main_v17) (fun n => V c main_v12 (ix2 n 0)) (fun d => V c main_v48 (ix2 0 d))

-- The first point starts the two carried rows from zero; a later point adds to what the point before left.
theorem outs_A (c : Dev nD) (t : Fin cfg1.N) (h0 : t.val % 10 = 0) :
    outsAt1 V c t.val t.isLt = point (iblk1 V c 0 t) (iblk1 V c 1 t) (iblk1 V c 2 t) (iblk1 V c 3 t) (k1_pay1 (F := Ideal)) (k1_pay2 (F := Ideal)) := by
  have hc := (hcond1_0 t).mpr h0
  exact (outsAt1_A V c t h0).trans (congrArg₂ Prod.mk ((View.read_writes_eq_canon _ _ _ fun y => cover1_A_4 (y := y) ..).trans (canon_A_4 (hs1_4 t) (hs1_5 t) (hs1_6 t) hc))
    (congrArg₂ Prod.mk ((View.read_writes_eq_canon _ _ _ fun y => cover1_A_5 (y := y) ..).trans (canon_A_5 (hs1_4 t) (hs1_5 t) (hs1_6 t) hc))
      ((View.read_writes_eq_canon _ _ _ fun y => cover1_A_6 (y := y) ..).trans (canon_A_6 (hs1_4 t) (hs1_5 t) (hs1_6 t) hc))))

theorem outs_B (c : Dev nD) (t : Fin cfg1.N) (h0 : ¬t.val % 10 = 0) :
    outsAt1 V c t.val t.isLt = point (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2 := by
  have hc : ¬cond1_0 (grid1.coords t) := fun h => h0 ((hcond1_0 t).mp h)
  exact (outsAt1_B V c t h0).trans (congrArg₂ Prod.mk ((View.read_writes_eq_canon _ _ _ fun y => cover1_B_4 (y := y) ..).trans (canon_B_4 (hs1_4 t) (hs1_5 t) (hs1_6 t) hc))
    (congrArg₂ Prod.mk ((View.read_writes_eq_canon _ _ _ fun y => cover1_B_5 (y := y) ..).trans (canon_B_5 (hs1_4 t) (hs1_5 t) (hs1_6 t) hc))
      ((View.read_writes_eq_canon _ _ _ fun y => cover1_B_6 (y := y) ..).trans (canon_B_6 (hs1_4 t) (hs1_5 t) (hs1_6 t) hc))))

theorem val4 (c : Dev nD) : (Gen.dat1 (F := Ideal) V c).arrAt 4 cfg1.N = aArr V c := by
  refine (dat1 (F := Ideal) V c).arrAt_eq_of_cover 4 (aArr V c) (fun t _ => ?_) fun i => ?_
  · show (cfg1.win 4).cut (grid1.coords t) ((dat1 V c).after 4 t) = _
    rw [after1_4]
    exact funext fun j => out4 N_1 (outsAt1 V c) (V c main_v45) (V c main_v17) (V c main_v12) (V c main_v48) win1_0.rect_emb_val win1_1.rect_emb_val win1_2.rect_emb_val
      win1_3.rect_emb_val win1_4.rect_emb_val idx_facts (outs_A V c) (outs_B V c) t j
  · have hi0 : (i 0).val < 50000 := (i 0).isLt
    obtain ⟨t, ht⟩ : ∃ t : Fin cfg1.N, t.val = (i 0).val / 5000 := ⟨⟨(i 0).val / 5000, lt_of_lt_of_eq (by omega) N_1.symm⟩, rfl⟩
    refine ⟨t, flush1_4 t, ?_⟩
    show i ∈ ((View.whole main_v49_0).slice (win1_4.rect t)).set
    rw [View.set_slice_whole, Rect.mem_set_unit]
    exact row_mem i ((idx_facts t).2.2.2.2.2.2.2.2.1.trans ht) (idx_facts t).2.2.2.2.2.2.2.2.2.1

theorem val5 (c : Dev nD) (d : Fin 128) : (Gen.dat1 (F := Ideal) V c).arrAt 5 cfg1.N (ix2 0 d) = Gcn.colSum (aArr V c) d := by
  refine congrFun ((dat1 (F := Ideal) V c).arrAt_eq_of_cover 5 (fun i => Gcn.colSum (aArr V c) (i 1)) (fun t hf => ?_) fun i => ?_) (ix2 0 d)
  · show (cfg1.win 5).cut (grid1.coords t) ((dat1 V c).after 5 t) = _
    rw [after1_5]
    funext j
    rw [View.read_apply]
    exact (out5 N_1 (outsAt1 V c) (V c main_v45) (V c main_v17) (V c main_v12) (V c main_v48) win1_0.rect_emb_val win1_1.rect_emb_val win1_2.rect_emb_val
      win1_3.rect_emb_val win1_5.rect_emb_val idx_facts (outs_A V c) (outs_B V c) t ((flush1_5 t).mp hf) j).trans (cast_eq _ _).symm
  · refine ⟨t1_9, (flush1_5 t1_9).mpr rfl, ?_⟩
    show i ∈ ((View.whole main_v49_1).slice (win1_5.rect t1_9)).set
    rw [View.set_slice_whole, Rect.mem_set_unit]
    exact mem_one_row i (win1_5.index t1_9) (idx_facts t1_9).2.2.2.2.2.2.2.2.2.2.1 (idx_facts t1_9).2.2.2.2.2.2.2.2.2.2.2.1

theorem val6 (c : Dev nD) (d : Fin 128) : (Gen.dat1 (F := Ideal) V c).arrAt 6 cfg1.N (ix2 0 d) = Gcn.colSumSq (aArr V c) d := by
  refine congrFun ((dat1 (F := Ideal) V c).arrAt_eq_of_cover 6 (fun i => Gcn.colSumSq (aArr V c) (i 1)) (fun t hf => ?_) fun i => ?_) (ix2 0 d)
  · show (cfg1.win 6).cut (grid1.coords t) ((dat1 V c).after 6 t) = _
    rw [after1_6]
    funext j
    rw [View.read_apply]
    exact (out6 N_1 (outsAt1 V c) (V c main_v45) (V c main_v17) (V c main_v12) (V c main_v48) win1_0.rect_emb_val win1_1.rect_emb_val win1_2.rect_emb_val
      win1_3.rect_emb_val win1_6.rect_emb_val idx_facts (outs_A V c) (outs_B V c) t ((flush1_6 t).mp hf) j).trans (cast_eq _ _).symm
  · refine ⟨t1_9, (flush1_6 t1_9).mpr rfl, ?_⟩
    show i ∈ ((View.whole main_v49_2).slice (win1_6.rect t1_9)).set
    rw [View.set_slice_whole, Rect.mem_set_unit]
    exact mem_one_row i (win1_6.index t1_9) (idx_facts t1_9).2.2.2.2.2.2.2.2.2.2.2.2.1 (idx_facts t1_9).2.2.2.2.2.2.2.2.2.2.2.2.2

end Cert.KernelIdeal.Reg1

end
-- ==== Proof.Normalise.lean ====
import proofs.«408352_j17944373363255_2_alg».proof.Proof.Transform
import Idealize.ShloMosaic.Lib.ValueLayout

noncomputable section

namespace Cert.KernelIdeal.Normalise

open Cert.KernelIdeal Cert.KernelIdeal.Gen Idealize.ShloMosaic Idealize.ShloMosaic.TcCoe Idealize.ShloMosaic.ValueIdx Idealize.SL.Sem
open Cert.KernelIdeal.Transform (hz blk_ix2)

-- The payload at row p and channel q: centred, scaled by the inverse square root of the variance plus the constant, mapped affinely, clipped at zero.
theorem pay2 (xv xg : Vec Ideal S1x128 .f32) (xa : Vec Ideal S5000x128 .f32) (xm xb : Vec Ideal S1x128 .f32)
    (p : Fin 5000) (q : Fin 128) :
    k2_pay1 xv xg xa xm xb (ix2 p q)
      = max (xg (ix2 0 q) * (xa (ix2 p q) - xm (ix2 0 q)) * Ideal.rsqrt (xv (ix2 0 q) + Gcn.eps) + xb (ix2 0 q)) 0 := by
  unfold k2_pay1
  simp only [shapeCast_self]
  rw [maximumf_apply, addf_apply, mulf_apply, mulf_apply, subf_apply, broadcast_apply,
    broadcastTo_1b_ab_apply, broadcastTo_1b_ab_apply, broadcastTo_1b_ab_apply, broadcastTo_1b_ab_apply,
    show (FloatOps.ofBits (F := Ideal) FTy.f32 0x00000000#32) = 0 from Ideal.ofBits_zero_f32]
  rfl

-- One piece over the whole index set, computed from whole reads of the arguments, is the payload of the arguments.
theorem out_whole {F : FTy → Type} [FloatOps F]
    (P : Vec F S1x128 .f32 → Vec F S1x128 .f32 → Vec F S5000x128 .f32 → Vec F S1x128 .f32 → Vec F S1x128 .f32 → FVec F S5000x128 .f32)
    (x0 : Vec F S5000x128 .f32) (x1 x2 x3 x4 : Vec F S1x128 .f32) :
    (View.canon [⟨r2_1, P (View.ld x2 r2_0) (View.ld x3 r2_0) (View.ld x0 r2_1) (View.ld x1 r2_0) (View.ld x4 r2_0)⟩]
      : Vec F S5000x128 .f32) = P x2 x3 x0 x1 x4 := by
  rw [View.canon_unit_zero hz]
  simp only [View.ld_unit_zero (S := S5000x128) hz, View.ld_unit_zero (S := S1x128) hz]

-- A block of rows t * 5000 + p of the array and the one row of each parameter array make the body's value the normalised array at the output's place.
theorem block_eq (A : Gcn.Arr) (Mu Va Ga Be : S1x128.Idx → EReal)
    {e0 e5 : S5000x128.Idx → S50000x128.Idx} {e1 e2 e3 e4 : S1x128.Idx → S1x128.Idx}
    {i0 i1 i2 i3 i4 i5 : Fin 2 → ℕ} {t : ℕ}
    (h0 : ∀ y a, (e0 y a : ℕ) = i0 a * S5000x128.size a + y a) (h1 : ∀ y a, (e1 y a : ℕ) = i1 a * S1x128.size a + y a)
    (h2 : ∀ y a, (e2 y a : ℕ) = i2 a * S1x128.size a + y a) (h3 : ∀ y a, (e3 y a : ℕ) = i3 a * S1x128.size a + y a)
    (h4 : ∀ y a, (e4 y a : ℕ) = i4 a * S1x128.size a + y a) (h5 : ∀ y a, (e5 y a : ℕ) = i5 a * S5000x128.size a + y a)
    (hi : (i0 0 = t ∧ i0 1 = 0) ∧ (i1 0 = 0 ∧ i1 1 = 0) ∧ (i2 0 = 0 ∧ i2 1 = 0) ∧ (i3 0 = 0 ∧ i3 1 = 0)
      ∧ (i4 0 = 0 ∧ i4 1 = 0) ∧ (i5 0 = t ∧ i5 1 = 0))
    (P : Vec Ideal S1x128 .f32 → Vec Ideal S1x128 .f32 → Vec Ideal S5000x128 .f32 → Vec Ideal S1x128 .f32 → Vec Ideal S1x128 .f32
      → FVec Ideal S5000x128 .f32)
    (hP : ∀ xv xg xa xm xb p q, P xv xg xa xm xb (ix2 p q)
      = max (xg (ix2 0 q) * (xa (ix2 p q) - xm (ix2 0 q)) * Ideal.rsqrt (xv (ix2 0 q) + Gcn.eps) + xb (ix2 0 q)) 0)
    (j : S5000x128.Idx) :
    P (fun y => Va (e2 y)) (fun y => Ga (e3 y)) (fun y => A (e0 y)) (fun y => Mu (e1 y)) (fun y => Be (e4 y)) j
      = Gcn.bn (fun d => Ga (ix2 0 d)) (fun d => Be (ix2 0 d)) A (fun d => Mu (ix2 0 d)) (fun d => Va (ix2 0 d)) (e5 j) := by
  obtain ⟨⟨a0, b0⟩, ⟨a1, b1⟩, ⟨a2, b2⟩, ⟨a3, b3⟩, ⟨a4, b4⟩, ⟨a5, b5⟩⟩ := hi
  obtain ⟨p, q, rfl⟩ : ∃ (p : Fin 5000) (q : Fin 128), j = ix2 p q := ⟨j 0, j 1, eq_ix2 j⟩
  have hn : t * 5000 + p.val < 50000 := by
    have := (e5 (ix2 p q) 0).isLt; rw [h5, a5] at this; exact this
  have z : ((0 : Fin 1) : ℕ) = 0 * 1 + ((0 : Fin 1) : ℕ) := rfl
  rw [hP, blk_ix2 a5 b5 (h5 _ 0) (h5 _ 1) ⟨_, hn⟩ q rfl rfl, blk_ix2 a0 b0 (h0 (ix2 p q) 0) (h0 _ 1) ⟨_, hn⟩ q rfl rfl,
    blk_ix2 a1 b1 (h1 (ix2 0 q) 0) (h1 _ 1) 0 q z rfl, blk_ix2 a2 b2 (h2 (ix2 0 q) 0) (h2 _ 1) 0 q z rfl,
    blk_ix2 a3 b3 (h3 (ix2 0 q) 0) (h3 _ 1) 0 q z rfl, blk_ix2 a4 b4 (h4 (ix2 0 q) 0) (h4 _ 1) 0 q z rfl]
  rfl

end Cert.KernelIdeal.Normalise

end
-- ==== Proof.Reg2.lean ====
import proofs.«408352_j17944373363255_2_alg».proof.Proof.Normalise

noncomputable section

namespace Cert.KernelIdeal.Reg2

open Cert.KernelIdeal Cert.KernelIdeal.Gen Idealize.ShloMosaic Idealize.ShloMosaic.TcCoe Idealize.ShloMosaic.ValueIdx Idealize.SL.Sem Normalise
open Cert.KernelIdeal.Transform (row_map fix_map row_mem)

variable (V : (c : Dev nD) → (b : Ref sig .tc) → Buf (Elt Ideal) ((c : Thread nD τ).loc b))

theorem val (c : Dev nD) :
    (Gen.dat2 (F := Ideal) V c).arrAt 5 cfg2.N
      = Gcn.bn (fun d => V c main_v58 (ix2 0 d)) (fun d => V c main_v61 (ix2 0 d)) (V c main_v49_0)
          (fun d => V c main_v51 (ix2 0 d)) (fun d => V c main_v55 (ix2 0 d)) := by
  refine (dat2 V c).arrAt_eq_of_cover 5 _ (fun t _ => ?_) fun i => ?_
  · show (cfg2.win 5).cut (grid2.coords t) ((dat2 V c).after 5 t) = _
    rw [after2_5]
    exact funext fun j => (congrFun (out_whole k2_pay1 _ _ _ _ _) _).trans
      (block_eq (V c main_v49_0) (V c main_v51) (V c main_v55) (V c main_v58) (V c main_v61) (win2_0.rect_emb_val t) (win2_1.rect_emb_val t)
        (win2_2.rect_emb_val t) (win2_3.rect_emb_val t) (win2_4.rect_emb_val t) (win2_5.rect_emb_val t)
        ⟨row_map t, fix_map t, fix_map t, fix_map t, fix_map t, row_map t⟩ k2_pay1 pay2 j)
  · have hi : (i 0).val < 50000 := (i 0).isLt
    obtain ⟨t, ht⟩ : ∃ t : Fin cfg2.N, t.val = (i 0).val / 5000 := ⟨⟨_, by rw [show cfg2.N = 10 from N_2]; omega⟩, rfl⟩
    refine ⟨t, flush2_5 t, ?_⟩
    show i ∈ ((View.whole main_v62).slice (win2_5.rect t)).set
    rw [View.set_slice_whole, Rect.mem_set_unit]
    exact row_mem i ((row_map t).1.trans ht) (row_map t).2

end Cert.KernelIdeal.Reg2

end
-- ==== Proof.KLayer0.lean ====
import proofs.«408352_j17944373363255_2_alg».proof.Proof.KLayerLib
import proofs.«408352_j17944373363255_2_alg».proof.Proof.Reg0
import proofs.«408352_j17944373363255_2_alg».proof.Proof.Reg1
import proofs.«408352_j17944373363255_2_alg».proof.Proof.Reg2

noncomputable section

namespace Cert.KernelIdeal.KLayer0

open Cert.KernelIdeal Cert.KernelIdeal.Gen Cert.KernelIdeal.KLayerLib Idealize.ShloMosaic Idealize.ShloMosaic.TcCoe Idealize.ShloMosaic.ValueIdx Idealize.SL.Sem
open Cert.ReferenceIdeal.Shared (srcW dstW dinv msg rowOf)

variable (W : Dev nD → Valuation τ sig (Elt Ideal))

def XA (c : Dev nD) : Valuation τ sig (Elt Ideal) :=
  Pipeline.withArrays spec0 c (W c) fun w => (dat0 (F := Ideal) (Vof W) c).arrAt w cfg0.N
abbrev XB : Dev nD → Valuation τ sig (Elt Ideal) := fun c => StableHlo.after hostOps1 (XA W c)
def XC (c : Dev nD) : Valuation τ sig (Elt Ideal) :=
  Pipeline.withArrays spec1 c (XB W c) fun w => (dat1 (F := Ideal) (Vof (XB W)) c).arrAt w cfg1.N
abbrev XD : Dev nD → Valuation τ sig (Elt Ideal) := fun c => StableHlo.after hostOps2 (XC W c)
def XE (c : Dev nD) : Valuation τ sig (Elt Ideal) :=
  Pipeline.withArrays spec2 c (XD W c) fun w => (dat2 (F := Ideal) (Vof (XD W)) c).arrAt w cfg2.N

theorem exit_eq (m : (ℓ : Loc nD τ sig) → Buf (Elt Ideal) ℓ) (ρ : Dev nD → PrngReg) (c : Dev nD) :
    W6 (F := Ideal) m ρ c = XE (W1 (F := Ideal) m ρ) c := by
  unfold W6 XE
  rfl

variable (c : Dev nD)

theorem XA_of_ne (b : Ref sig .tc) (hb : ∀ w, Pipeline.arrRef spec0 w ≠ b) : XA W c (Proc.devRef .tc b) = W c (Proc.devRef .tc b) :=
  Pipeline.withArrays_of_ne spec0 c _ _ b hb
theorem XC_arr (w : Fin cfg1.W) :
    XC W c (Proc.devRef .tc (Pipeline.arrRef spec1 w)) = (dat1 (F := Ideal) (Vof (XB W)) c).arrAt w cfg1.N :=
  Pipeline.withArrays_arr spec1 launch1.win.arr_inj c _ _ w
theorem XC_of_ne (b : Ref sig .tc) (hb : ∀ w, Pipeline.arrRef spec1 w ≠ b) : XC W c (Proc.devRef .tc b) = XB W c (Proc.devRef .tc b) :=
  Pipeline.withArrays_of_ne spec1 c _ _ b hb

-- No operation up to the second region's exit writes the scale and shift parameters.
theorem XC_params :
    XC W c (Proc.devRef .tc main_arg6) = W c (Proc.devRef .tc main_arg6) ∧ XC W c (Proc.devRef .tc main_arg7) = W c (Proc.devRef .tc main_arg7) := by
  rw [XC_of_ne W c main_arg6 (by decide), XC_of_ne W c main_arg7 (by decide)]
  simp only [XB, hostOps1]
  after_results_simp
  exact ⟨XA_of_ne W c main_arg6 (by decide), XA_of_ne W c main_arg7 (by decide)⟩

abbrev inHw : Gcn.Arr :=
  Gcn.hwOf (fun n => W c (Proc.devRef .tc main_v13) (ix2 n 0)) (fun k d => W c (Proc.devRef .tc main_v16) (ix2 k d)) (W c (Proc.devRef .tc main_arg0))
abbrev inA (ei : IVec Cert.ReferenceIdeal.S2x1600000 32) : Gcn.Arr :=
  Gcn.aggOf (msg ei) (fun n => W c (Proc.devRef .tc main_v12) (ix2 n 0)) (rowOf (W c (Proc.devRef .tc main_arg5)) 0) (inHw W c)

theorem XA_hw : XA W c (Proc.devRef .tc main_v17) = inHw W c :=
  (Pipeline.withArrays_arr spec0 launch0.win.arr_inj c _ _ 3).trans (Reg0.val (Vof W) c)

variable (ei : IVec Cert.ReferenceIdeal.S2x1600000 32)
  (h1 : W c (Proc.devRef .tc main_v1) = srcW ei) (h3 : W c (Proc.devRef .tc main_v3) = dstW ei) (h10 : W c (Proc.devRef .tc main_v10) = dinv ei)
include h1 h3 h10

-- The operations between the first two regions are the message operator's own, so the two agree by unfolding.
theorem XB_agg : Reg1.aArr (Vof (XB W)) c = inA W c ei := by
  simp only [Reg1.aArr, Vof, XB, hostOps1]
  after_results_simp
  rw [XA_of_ne W c main_v1 (by decide), XA_of_ne W c main_v3 (by decide), XA_of_ne W c main_v10 (by decide),
    XA_of_ne W c main_v12 (by decide), XA_of_ne W c main_arg5 (by decide), XA_hw W c, h1, h3, h10]
  exact congrArg (Gcn.aggArr _ _ _) (funext (row_read 0 _ _ 0 rfl))

theorem val :
    XE W c (Proc.devRef .tc main_v62)
      = Gcn.layerK (msg ei) (fun n => W c (Proc.devRef .tc main_v12) (ix2 n 0))
          (fun n => W c (Proc.devRef .tc main_v13) (ix2 n 0)) (fun k d => W c (Proc.devRef .tc main_v16) (ix2 k d))
          (rowOf (W c (Proc.devRef .tc main_arg5)) 0) (rowOf (W c (Proc.devRef .tc main_arg6)) 0) (rowOf (W c (Proc.devRef .tc main_arg7)) 0)
          (W c (Proc.devRef .tc main_arg0)) := by
  refine (Pipeline.withArrays_arr spec2 launch2.win.arr_inj c _ _ 5).trans ((Reg2.val (Vof (XD W)) c).trans ?_)
  simp only [Vof, XD, hostOps2]
  after_results_simp
  rw [(XC_params W c).1, (XC_params W c).2, XC_arr W c 4, XC_arr W c 5, XC_arr W c 6, Reg1.val4 (Vof (XB W)) c]
  exact bn_of_sums (row_read 0 _ _ 0 rfl) (row_read 0 _ _ 0 rfl) (Reg1.val5 (Vof (XB W)) c) (Reg1.val6 (Vof (XB W)) c)
    (XB_agg W c ei h1 h3 h10)

end Cert.KernelIdeal.KLayer0

end
-- ==== Proof.Reg3.lean ====
import proofs.«408352_j17944373363255_2_alg».proof.Proof.Transform

noncomputable section

namespace Cert.KernelIdeal.Reg3

open Cert.KernelIdeal Cert.KernelIdeal.Gen Idealize.ShloMosaic Idealize.ShloMosaic.TcCoe Idealize.ShloMosaic.ValueIdx Idealize.SL.Sem Transform

variable (V : (c : Dev nD) → (b : Ref sig .tc) → Buf (Elt Ideal) ((c : Thread nD τ).loc b))

theorem val (c : Dev nD) :
    (Gen.dat3 (F := Ideal) V c).arrAt 3 cfg3.N
      = Gcn.hwOf (fun n => V c main_v13 (ix2 n 0)) (fun k d => V c main_v64 (ix2 k d)) (V c main_v62) := by
  refine (dat3 (F := Ideal) V c).arrAt_eq_of_cover 3 _ (fun t _ => ?_) fun i => ?_
  · show (cfg3.win 3).cut (grid3.coords t) ((dat3 V c).after 3 t) = _
    rw [after3_3]
    exact funext fun j => (congrFun (out_whole k3_pay1 _ _ _) _).trans
      (block_eq (V c main_v62) (V c main_v13) (V c main_v64) (win3_0.rect_emb_val t) (win3_1.rect_emb_val t) (win3_2.rect_emb_val t)
        (win3_3.rect_emb_val t) ⟨row_map t, row_map t, fix_map t, row_map t⟩ k3_pay1 pay3 j)
  · have hi : (i 0).val < 50000 := (i 0).isLt
    obtain ⟨t, ht⟩ : ∃ t : Fin cfg3.N, t.val = (i 0).val / 5000 := ⟨⟨_, by rw [show cfg3.N = 10 from N_3]; omega⟩, rfl⟩
    refine ⟨t, flush3_3 t, ?_⟩
    show i ∈ ((View.whole main_v65).slice (win3_3.rect t)).set
    rw [View.set_slice_whole, Rect.mem_set_unit]
    exact row_mem i ((row_map t).1.trans ht) (row_map t).2

end Cert.KernelIdeal.Reg3

end
-- ==== Proof.Reg4.lean ====
import proofs.«408352_j17944373363255_2_alg».proof.Proof.Aggregate

noncomputable section

namespace Cert.KernelIdeal.Reg4

open Cert.KernelIdeal Cert.KernelIdeal.Gen Idealize.ShloMosaic Idealize.ShloMosaic.TcCoe Idealize.ShloMosaic.ValueIdx Idealize.SL.Sem Aggregate Transform
open Idealize.ShloMosaic.Pipeline (Dat)

variable (V : (c : Dev nD) → (b : Ref sig .tc) → Buf (Elt Ideal) ((c : Thread nD τ).loc b))

theorem idx_facts : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0
    ∧ win4_3.index t (0 : Fin 2) = 0 ∧ win4_3.index t (1 : Fin 2) = 0
    ∧ win4_4.index t (0 : Fin 2) = t.val ∧ win4_4.index t (1 : Fin 2) = 0
    ∧ win4_5.index t (0 : Fin 2) = 0 ∧ win4_5.index t (1 : Fin 2) = 0
    ∧ win4_6.index t (0 : Fin 2) = 0 ∧ win4_6.index t (1 : Fin 2) = 0 :=
  (by decide +kernel : ∀ t : Fin grid4.N, _)

abbrev aArr (c : Dev nD) : Gcn.Arr := Gcn.aggArr (V c main_v93) (V c main_v65) (fun n => V c main_v12 (ix2 n 0)) (fun d => V c main_v96 (ix2 0 d))

-- The first point starts the two carried rows from zero; a later point adds to what the point before left.
theorem outs_A (c : Dev nD) (t : Fin cfg4.N) (h0 : t.val % 10 = 0) :
    outsAt4 V c t.val t.isLt = point (iblk4 V c 0 t) (iblk4 V c 1 t) (iblk4 V c 2 t) (iblk4 V c 3 t) (k1_pay1 (F := Ideal)) (k1_pay2 (F := Ideal)) := by
  have hc := (hcond4_0 t).mpr h0
  exact (outsAt4_A V c t h0).trans (congrArg₂ Prod.mk ((View.read_writes_eq_canon _ _ _ fun y => cover4_A_4 (y := y) ..).trans (canon_A_4 (hs4_4 t) (hs4_5 t) (hs4_6 t) hc))
    (congrArg₂ Prod.mk ((View.read_writes_eq_canon _ _ _ fun y => cover4_A_5 (y := y) ..).trans (canon_A_5 (hs4_4 t) (hs4_5 t) (hs4_6 t) hc))
      ((View.read_writes_eq_canon _ _ _ fun y => cover4_A_6 (y := y) ..).trans (canon_A_6 (hs4_4 t) (hs4_5 t) (hs4_6 t) hc))))

theorem outs_B (c : Dev nD) (t : Fin cfg4.N) (h0 : ¬t.val % 10 = 0) :
    outsAt4 V c t.val t.isLt = point (iblk4 V c 0 t) (iblk4 V c 1 t) (iblk4 V c 2 t) (iblk4 V c 3 t) (outsAt4 V c (t.val - 1) (Nat.lt_of_le_of_lt (Nat.sub_le _ _) t.isLt)).2.1 (outsAt4 V c (t.val - 1) (Nat.lt_of_le_of_lt (Nat.sub_le _ _) t.isLt)).2.2 := by
  have hc : ¬cond4_0 (grid4.coords t) := fun h => h0 ((hcond4_0 t).mp h)
  exact (outsAt4_B V c t h0).trans (congrArg₂ Prod.mk ((View.read_writes_eq_canon _ _ _ fun y => cover4_B_4 (y := y) ..).trans (canon_B_4 (hs4_4 t) (hs4_5 t) (hs4_6 t) hc))
    (congrArg₂ Prod.mk ((View.read_writes_eq_canon _ _ _ fun y => cover4_B_5 (y := y) ..).trans (canon_B_5 (hs4_4 t) (hs4_5 t) (hs4_6 t) hc))
      ((View.read_writes_eq_canon _ _ _ fun y => cover4_B_6 (y := y) ..).trans (canon_B_6 (hs4_4 t) (hs4_5 t) (hs4_6 t) hc))))

theorem val4 (c : Dev nD) : (Gen.dat4 (F := Ideal) V c).arrAt 4 cfg4.N = aArr V c := by
  refine (dat4 (F := Ideal) V c).arrAt_eq_of_cover 4 (aArr V c) (fun t _ => ?_) fun i => ?_
  · show (cfg4.win 4).cut (grid4.coords t) ((dat4 V c).after 4 t) = _
    rw [after4_4]
    exact funext fun j => out4 N_4 (outsAt4 V c) (V c main_v93) (V c main_v65) (V c main_v12) (V c main_v96) win4_0.rect_emb_val win4_1.rect_emb_val win4_2.rect_emb_val
      win4_3.rect_emb_val win4_4.rect_emb_val idx_facts (outs_A V c) (outs_B V c) t j
  · have hi0 : (i 0).val < 50000 := (i 0).isLt
    obtain ⟨t, ht⟩ : ∃ t : Fin cfg4.N, t.val = (i 0).val / 5000 := ⟨⟨(i 0).val / 5000, lt_of_lt_of_eq (by omega) N_4.symm⟩, rfl⟩
    refine ⟨t, flush4_4 t, ?_⟩
    show i ∈ ((View.whole main_v97_0).slice (win4_4.rect t)).set
    rw [View.set_slice_whole, Rect.mem_set_unit]
    exact row_mem i ((idx_facts t).2.2.2.2.2.2.2.2.1.trans ht) (idx_facts t).2.2.2.2.2.2.2.2.2.1

theorem val5 (c : Dev nD) (d : Fin 128) : (Gen.dat4 (F := Ideal) V c).arrAt 5 cfg4.N (ix2 0 d) = Gcn.colSum (aArr V c) d := by
  refine congrFun ((dat4 (F := Ideal) V c).arrAt_eq_of_cover 5 (fun i => Gcn.colSum (aArr V c) (i 1)) (fun t hf => ?_) fun i => ?_) (ix2 0 d)
  · show (cfg4.win 5).cut (grid4.coords t) ((dat4 V c).after 5 t) = _
    rw [after4_5]
    funext j
    rw [View.read_apply]
    exact (out5 N_4 (outsAt4 V c) (V c main_v93) (V c main_v65) (V c main_v12) (V c main_v96) win4_0.rect_emb_val win4_1.rect_emb_val win4_2.rect_emb_val
      win4_3.rect_emb_val win4_5.rect_emb_val idx_facts (outs_A V c) (outs_B V c) t ((flush4_5 t).mp hf) j).trans (cast_eq _ _).symm
  · refine ⟨t4_9, (flush4_5 t4_9).mpr rfl, ?_⟩
    show i ∈ ((View.whole main_v97_1).slice (win4_5.rect t4_9)).set
    rw [View.set_slice_whole, Rect.mem_set_unit]
    exact mem_one_row i (win4_5.index t4_9) (idx_facts t4_9).2.2.2.2.2.2.2.2.2.2.1 (idx_facts t4_9).2.2.2.2.2.2.2.2.2.2.2.1

theorem val6 (c : Dev nD) (d : Fin 128) : (Gen.dat4 (F := Ideal) V c).arrAt 6 cfg4.N (ix2 0 d) = Gcn.colSumSq (aArr V c) d := by
  refine congrFun ((dat4 (F := Ideal) V c).arrAt_eq_of_cover 6 (fun i => Gcn.colSumSq (aArr V c) (i 1)) (fun t hf => ?_) fun i => ?_) (ix2 0 d)
  · show (cfg4.win 6).cut (grid4.coords t) ((dat4 V c).after 6 t) = _
    rw [after4_6]
    funext j
    rw [View.read_apply]
    exact (out6 N_4 (outsAt4 V c) (V c main_v93) (V c main_v65) (V c main_v12) (V c main_v96) win4_0.rect_emb_val win4_1.rect_emb_val win4_2.rect_emb_val
      win4_3.rect_emb_val win4_6.rect_emb_val idx_facts (outs_A V c) (outs_B V c) t ((flush4_6 t).mp hf) j).trans (cast_eq _ _).symm
  · refine ⟨t4_9, (flush4_6 t4_9).mpr rfl, ?_⟩
    show i ∈ ((View.whole main_v97_2).slice (win4_6.rect t4_9)).set
    rw [View.set_slice_whole, Rect.mem_set_unit]
    exact mem_one_row i (win4_6.index t4_9) (idx_facts t4_9).2.2.2.2.2.2.2.2.2.2.2.2.1 (idx_facts t4_9).2.2.2.2.2.2.2.2.2.2.2.2.2

end Cert.KernelIdeal.Reg4

end
-- ==== Proof.Reg5.lean ====
import proofs.«408352_j17944373363255_2_alg».proof.Proof.Normalise

noncomputable section

namespace Cert.KernelIdeal.Reg5

open Cert.KernelIdeal Cert.KernelIdeal.Gen Idealize.ShloMosaic Idealize.ShloMosaic.TcCoe Idealize.ShloMosaic.ValueIdx Idealize.SL.Sem Normalise
open Cert.KernelIdeal.Transform (row_map fix_map row_mem)

variable (V : (c : Dev nD) → (b : Ref sig .tc) → Buf (Elt Ideal) ((c : Thread nD τ).loc b))

theorem val (c : Dev nD) :
    (Gen.dat5 (F := Ideal) V c).arrAt 5 cfg5.N
      = Gcn.bn (fun d => V c main_v106 (ix2 0 d)) (fun d => V c main_v109 (ix2 0 d)) (V c main_v97_0)
          (fun d => V c main_v99 (ix2 0 d)) (fun d => V c main_v103 (ix2 0 d)) := by
  refine (dat5 V c).arrAt_eq_of_cover 5 _ (fun t _ => ?_) fun i => ?_
  · show (cfg5.win 5).cut (grid5.coords t) ((dat5 V c).after 5 t) = _
    rw [after5_5]
    exact funext fun j => (congrFun (out_whole k5_pay1 _ _ _ _ _) _).trans
      (block_eq (V c main_v97_0) (V c main_v99) (V c main_v103) (V c main_v106) (V c main_v109) (win5_0.rect_emb_val t) (win5_1.rect_emb_val t)
        (win5_2.rect_emb_val t) (win5_3.rect_emb_val t) (win5_4.rect_emb_val t) (win5_5.rect_emb_val t)
        ⟨row_map t, fix_map t, fix_map t, fix_map t, fix_map t, row_map t⟩ k5_pay1 pay2 j)
  · have hi : (i 0).val < 50000 := (i 0).isLt
    obtain ⟨t, ht⟩ : ∃ t : Fin cfg5.N, t.val = (i 0).val / 5000 := ⟨⟨_, by rw [show cfg5.N = 10 from N_5]; omega⟩, rfl⟩
    refine ⟨t, flush5_5 t, ?_⟩
    show i ∈ ((View.whole main_v110).slice (win5_5.rect t)).set
    rw [View.set_slice_whole, Rect.mem_set_unit]
    exact row_mem i ((row_map t).1.trans ht) (row_map t).2

end Cert.KernelIdeal.Reg5

end
-- ==== Proof.KLayer1.lean ====
import proofs.«408352_j17944373363255_2_alg».proof.Proof.KLayerLib
import proofs.«408352_j17944373363255_2_alg».proof.Proof.Reg3
import proofs.«408352_j17944373363255_2_alg».proof.Proof.Reg4
import proofs.«408352_j17944373363255_2_alg».proof.Proof.Reg5

noncomputable section

namespace Cert.KernelIdeal.KLayer1

open Cert.KernelIdeal Cert.KernelIdeal.Gen Cert.KernelIdeal.KLayerLib Idealize.ShloMosaic Idealize.ShloMosaic.TcCoe Idealize.ShloMosaic.ValueIdx Idealize.SL.Sem
open Cert.ReferenceIdeal.Shared (srcW dstW dinv msg rowOf)

variable (W : Dev nD → Valuation τ sig (Elt Ideal))

def XA (c : Dev nD) : Valuation τ sig (Elt Ideal) :=
  Pipeline.withArrays spec3 c (W c) fun w => (dat3 (F := Ideal) (Vof W) c).arrAt w cfg3.N
abbrev XB : Dev nD → Valuation τ sig (Elt Ideal) := fun c => StableHlo.after hostOps4 (XA W c)
def XC (c : Dev nD) : Valuation τ sig (Elt Ideal) :=
  Pipeline.withArrays spec4 c (XB W c) fun w => (dat4 (F := Ideal) (Vof (XB W)) c).arrAt w cfg4.N
abbrev XD : Dev nD → Valuation τ sig (Elt Ideal) := fun c => StableHlo.after hostOps5 (XC W c)
def XE (c : Dev nD) : Valuation τ sig (Elt Ideal) :=
  Pipeline.withArrays spec5 c (XD W c) fun w => (dat5 (F := Ideal) (Vof (XD W)) c).arrAt w cfg5.N

theorem exit_eq (m : (ℓ : Loc nD τ sig) → Buf (Elt Ideal) ℓ) (ρ : Dev nD → PrngReg) (c : Dev nD) :
    W12 (F := Ideal) m ρ c = XE (W7 (F := Ideal) m ρ) c := by
  unfold W12 XE
  rfl

variable (c : Dev nD)

theorem XA_of_ne (b : Ref sig .tc) (hb : ∀ w, Pipeline.arrRef spec3 w ≠ b) : XA W c (Proc.devRef .tc b) = W c (Proc.devRef .tc b) :=
  Pipeline.withArrays_of_ne spec3 c _ _ b hb
theorem XC_arr (w : Fin cfg4.W) :
    XC W c (Proc.devRef .tc (Pipeline.arrRef spec4 w)) = (dat4 (F := Ideal) (Vof (XB W)) c).arrAt w cfg4.N :=
  Pipeline.withArrays_arr spec4 launch4.win.arr_inj c _ _ w
theorem XC_of_ne (b : Ref sig .tc) (hb : ∀ w, Pipeline.arrRef spec4 w ≠ b) : XC W c (Proc.devRef .tc b) = XB W c (Proc.devRef .tc b) :=
  Pipeline.withArrays_of_ne spec4 c _ _ b hb

theorem XC_params :
    XC W c (Proc.devRef .tc main_arg6) = W c (Proc.devRef .tc main_arg6) ∧ XC W c (Proc.devRef .tc main_arg7) = W c (Proc.devRef .tc main_arg7) := by
  rw [XC_of_ne W c main_arg6 (by decide), XC_of_ne W c main_arg7 (by decide)]
  simp only [XB, hostOps4]
  after_results_simp
  exact ⟨XA_of_ne W c main_arg6 (by decide), XA_of_ne W c main_arg7 (by decide)⟩

abbrev inHw : Gcn.Arr :=
  Gcn.hwOf (fun n => W c (Proc.devRef .tc main_v13) (ix2 n 0)) (fun k d => W c (Proc.devRef .tc main_v64) (ix2 k d)) (W c (Proc.devRef .tc main_v62))
abbrev inA (ei : IVec Cert.ReferenceIdeal.S2x1600000 32) : Gcn.Arr :=
  Gcn.aggOf (msg ei) (fun n => W c (Proc.devRef .tc main_v12) (ix2 n 0)) (rowOf (W c (Proc.devRef .tc main_arg5)) 1) (inHw W c)

theorem XA_hw : XA W c (Proc.devRef .tc main_v65) = inHw W c :=
  (Pipeline.withArrays_arr spec3 launch3.win.arr_inj c _ _ 3).trans (Reg3.val (Vof W) c)

variable (ei : IVec Cert.ReferenceIdeal.S2x1600000 32)
  (h1 : W c (Proc.devRef .tc main_v1) = srcW ei) (h3 : W c (Proc.devRef .tc main_v3) = dstW ei) (h10 : W c (Proc.devRef .tc main_v10) = dinv ei)
include h1 h3 h10

theorem XB_agg : Reg4.aArr (Vof (XB W)) c = inA W c ei := by
  simp only [Reg4.aArr, Vof, XB, hostOps4]
  after_results_simp
  rw [XA_of_ne W c main_v1 (by decide), XA_of_ne W c main_v3 (by decide), XA_of_ne W c main_v10 (by decide),
    XA_of_ne W c main_v12 (by decide), XA_of_ne W c main_arg5 (by decide), XA_hw W c, h1, h3, h10]
  exact congrArg (Gcn.aggArr _ _ _) (funext (row_read 1 _ _ 1 rfl))

theorem val :
    XE W c (Proc.devRef .tc main_v110)
      = Gcn.layerK (msg ei) (fun n => W c (Proc.devRef .tc main_v12) (ix2 n 0))
          (fun n => W c (Proc.devRef .tc main_v13) (ix2 n 0)) (fun k d => W c (Proc.devRef .tc main_v64) (ix2 k d))
          (rowOf (W c (Proc.devRef .tc main_arg5)) 1) (rowOf (W c (Proc.devRef .tc main_arg6)) 1) (rowOf (W c (Proc.devRef .tc main_arg7)) 1)
          (W c (Proc.devRef .tc main_v62)) := by
  refine (Pipeline.withArrays_arr spec5 launch5.win.arr_inj c _ _ 5).trans ((Reg5.val (Vof (XD W)) c).trans ?_)
  simp only [Vof, XD, hostOps5]
  after_results_simp
  rw [(XC_params W c).1, (XC_params W c).2, XC_arr W c 4, XC_arr W c 5, XC_arr W c 6, Reg4.val4 (Vof (XB W)) c]
  exact bn_of_sums (row_read 1 _ _ 1 rfl) (row_read 1 _ _ 1 rfl) (Reg4.val5 (Vof (XB W)) c) (Reg4.val6 (Vof (XB W)) c)
    (XB_agg W c ei h1 h3 h10)

end Cert.KernelIdeal.KLayer1

end
-- ==== Proof.Reg6.lean ====
import proofs.«408352_j17944373363255_2_alg».proof.Proof.Transform

noncomputable section

namespace Cert.KernelIdeal.Reg6

open Cert.KernelIdeal Cert.KernelIdeal.Gen Idealize.ShloMosaic Idealize.ShloMosaic.TcCoe Idealize.ShloMosaic.ValueIdx Idealize.SL.Sem Transform

variable (V : (c : Dev nD) → (b : Ref sig .tc) → Buf (Elt Ideal) ((c : Thread nD τ).loc b))

theorem val (c : Dev nD) :
    (Gen.dat6 (F := Ideal) V c).arrAt 3 cfg6.N
      = Gcn.hwOf (fun n => V c main_v13 (ix2 n 0)) (fun k d => V c main_v112 (ix2 k d)) (V c main_v110) := by
  refine (dat6 (F := Ideal) V c).arrAt_eq_of_cover 3 _ (fun t _ => ?_) fun i => ?_
  · show (cfg6.win 3).cut (grid6.coords t) ((dat6 V c).after 3 t) = _
    rw [after6_3]
    exact funext fun j => (congrFun (out_whole k6_pay1 _ _ _) _).trans
      (block_eq (V c main_v110) (V c main_v13) (V c main_v112) (win6_0.rect_emb_val t) (win6_1.rect_emb_val t) (win6_2.rect_emb_val t)
        (win6_3.rect_emb_val t) ⟨row_map t, row_map t, fix_map t, row_map t⟩ k6_pay1 pay3 j)
  · have hi : (i 0).val < 50000 := (i 0).isLt
    obtain ⟨t, ht⟩ : ∃ t : Fin cfg6.N, t.val = (i 0).val / 5000 := ⟨⟨_, by rw [show cfg6.N = 10 from N_6]; omega⟩, rfl⟩
    refine ⟨t, flush6_3 t, ?_⟩
    show i ∈ ((View.whole main_v113).slice (win6_3.rect t)).set
    rw [View.set_slice_whole, Rect.mem_set_unit]
    exact row_mem i ((row_map t).1.trans ht) (row_map t).2

end Cert.KernelIdeal.Reg6

end
-- ==== Proof.Reg7.lean ====
import proofs.«408352_j17944373363255_2_alg».proof.Proof.Aggregate

noncomputable section

namespace Cert.KernelIdeal.Reg7

open Cert.KernelIdeal Cert.KernelIdeal.Gen Idealize.ShloMosaic Idealize.ShloMosaic.TcCoe Idealize.ShloMosaic.ValueIdx Idealize.SL.Sem Aggregate Transform
open Idealize.ShloMosaic.Pipeline (Dat)

variable (V : (c : Dev nD) → (b : Ref sig .tc) → Buf (Elt Ideal) ((c : Thread nD τ).loc b))

theorem idx_facts : ∀ t : Fin cfg7.N,
    win7_0.index t (0 : Fin 2) = t.val ∧ win7_0.index t (1 : Fin 2) = 0
    ∧ win7_1.index t (0 : Fin 2) = t.val ∧ win7_1.index t (1 : Fin 2) = 0
    ∧ win7_2.index t (0 : Fin 2) = t.val ∧ win7_2.index t (1 : Fin 2) = 0
    ∧ win7_3.index t (0 : Fin 2) = 0 ∧ win7_3.index t (1 : Fin 2) = 0
    ∧ win7_4.index t (0 : Fin 2) = t.val ∧ win7_4.index t (1 : Fin 2) = 0
    ∧ win7_5.index t (0 : Fin 2) = 0 ∧ win7_5.index t (1 : Fin 2) = 0
    ∧ win7_6.index t (0 : Fin 2) = 0 ∧ win7_6.index t (1 : Fin 2) = 0 :=
  (by decide +kernel : ∀ t : Fin grid7.N, _)

abbrev aArr (c : Dev nD) : Gcn.Arr := Gcn.aggArr (V c main_v141) (V c main_v113) (fun n => V c main_v12 (ix2 n 0)) (fun d => V c main_v144 (ix2 0 d))

-- The first point starts the two carried rows from zero; a later point adds to what the point before left.
theorem outs_A (c : Dev nD) (t : Fin cfg7.N) (h0 : t.val % 10 = 0) :
    outsAt7 V c t.val t.isLt = point (iblk7 V c 0 t) (iblk7 V c 1 t) (iblk7 V c 2 t) (iblk7 V c 3 t) (k1_pay1 (F := Ideal)) (k1_pay2 (F := Ideal)) := by
  have hc := (hcond7_0 t).mpr h0
  exact (outsAt7_A V c t h0).trans (congrArg₂ Prod.mk ((View.read_writes_eq_canon _ _ _ fun y => cover7_A_4 (y := y) ..).trans (canon_A_4 (hs7_4 t) (hs7_5 t) (hs7_6 t) hc))
    (congrArg₂ Prod.mk ((View.read_writes_eq_canon _ _ _ fun y => cover7_A_5 (y := y) ..).trans (canon_A_5 (hs7_4 t) (hs7_5 t) (hs7_6 t) hc))
      ((View.read_writes_eq_canon _ _ _ fun y => cover7_A_6 (y := y) ..).trans (canon_A_6 (hs7_4 t) (hs7_5 t) (hs7_6 t) hc))))

theorem outs_B (c : Dev nD) (t : Fin cfg7.N) (h0 : ¬t.val % 10 = 0) :
    outsAt7 V c t.val t.isLt = point (iblk7 V c 0 t) (iblk7 V c 1 t) (iblk7 V c 2 t) (iblk7 V c 3 t) (outsAt7 V c (t.val - 1) (Nat.lt_of_le_of_lt (Nat.sub_le _ _) t.isLt)).2.1 (outsAt7 V c (t.val - 1) (Nat.lt_of_le_of_lt (Nat.sub_le _ _) t.isLt)).2.2 := by
  have hc : ¬cond7_0 (grid7.coords t) := fun h => h0 ((hcond7_0 t).mp h)
  exact (outsAt7_B V c t h0).trans (congrArg₂ Prod.mk ((View.read_writes_eq_canon _ _ _ fun y => cover7_B_4 (y := y) ..).trans (canon_B_4 (hs7_4 t) (hs7_5 t) (hs7_6 t) hc))
    (congrArg₂ Prod.mk ((View.read_writes_eq_canon _ _ _ fun y => cover7_B_5 (y := y) ..).trans (canon_B_5 (hs7_4 t) (hs7_5 t) (hs7_6 t) hc))
      ((View.read_writes_eq_canon _ _ _ fun y => cover7_B_6 (y := y) ..).trans (canon_B_6 (hs7_4 t) (hs7_5 t) (hs7_6 t) hc))))

theorem val4 (c : Dev nD) : (Gen.dat7 (F := Ideal) V c).arrAt 4 cfg7.N = aArr V c := by
  refine (dat7 (F := Ideal) V c).arrAt_eq_of_cover 4 (aArr V c) (fun t _ => ?_) fun i => ?_
  · show (cfg7.win 4).cut (grid7.coords t) ((dat7 V c).after 4 t) = _
    rw [after7_4]
    exact funext fun j => out4 N_7 (outsAt7 V c) (V c main_v141) (V c main_v113) (V c main_v12) (V c main_v144) win7_0.rect_emb_val win7_1.rect_emb_val win7_2.rect_emb_val
      win7_3.rect_emb_val win7_4.rect_emb_val idx_facts (outs_A V c) (outs_B V c) t j
  · have hi0 : (i 0).val < 50000 := (i 0).isLt
    obtain ⟨t, ht⟩ : ∃ t : Fin cfg7.N, t.val = (i 0).val / 5000 := ⟨⟨(i 0).val / 5000, lt_of_lt_of_eq (by omega) N_7.symm⟩, rfl⟩
    refine ⟨t, flush7_4 t, ?_⟩
    show i ∈ ((View.whole main_v145_0).slice (win7_4.rect t)).set
    rw [View.set_slice_whole, Rect.mem_set_unit]
    exact row_mem i ((idx_facts t).2.2.2.2.2.2.2.2.1.trans ht) (idx_facts t).2.2.2.2.2.2.2.2.2.1

theorem val5 (c : Dev nD) (d : Fin 128) : (Gen.dat7 (F := Ideal) V c).arrAt 5 cfg7.N (ix2 0 d) = Gcn.colSum (aArr V c) d := by
  refine congrFun ((dat7 (F := Ideal) V c).arrAt_eq_of_cover 5 (fun i => Gcn.colSum (aArr V c) (i 1)) (fun t hf => ?_) fun i => ?_) (ix2 0 d)
  · show (cfg7.win 5).cut (grid7.coords t) ((dat7 V c).after 5 t) = _
    rw [after7_5]
    funext j
    rw [View.read_apply]
    exact (out5 N_7 (outsAt7 V c) (V c main_v141) (V c main_v113) (V c main_v12) (V c main_v144) win7_0.rect_emb_val win7_1.rect_emb_val win7_2.rect_emb_val
      win7_3.rect_emb_val win7_5.rect_emb_val idx_facts (outs_A V c) (outs_B V c) t ((flush7_5 t).mp hf) j).trans (cast_eq _ _).symm
  · refine ⟨t7_9, (flush7_5 t7_9).mpr rfl, ?_⟩
    show i ∈ ((View.whole main_v145_1).slice (win7_5.rect t7_9)).set
    rw [View.set_slice_whole, Rect.mem_set_unit]
    exact mem_one_row i (win7_5.index t7_9) (idx_facts t7_9).2.2.2.2.2.2.2.2.2.2.1 (idx_facts t7_9).2.2.2.2.2.2.2.2.2.2.2.1

theorem val6 (c : Dev nD) (d : Fin 128) : (Gen.dat7 (F := Ideal) V c).arrAt 6 cfg7.N (ix2 0 d) = Gcn.colSumSq (aArr V c) d := by
  refine congrFun ((dat7 (F := Ideal) V c).arrAt_eq_of_cover 6 (fun i => Gcn.colSumSq (aArr V c) (i 1)) (fun t hf => ?_) fun i => ?_) (ix2 0 d)
  · show (cfg7.win 6).cut (grid7.coords t) ((dat7 V c).after 6 t) = _
    rw [after7_6]
    funext j
    rw [View.read_apply]
    exact (out6 N_7 (outsAt7 V c) (V c main_v141) (V c main_v113) (V c main_v12) (V c main_v144) win7_0.rect_emb_val win7_1.rect_emb_val win7_2.rect_emb_val
      win7_3.rect_emb_val win7_6.rect_emb_val idx_facts (outs_A V c) (outs_B V c) t ((flush7_6 t).mp hf) j).trans (cast_eq _ _).symm
  · refine ⟨t7_9, (flush7_6 t7_9).mpr rfl, ?_⟩
    show i ∈ ((View.whole main_v145_2).slice (win7_6.rect t7_9)).set
    rw [View.set_slice_whole, Rect.mem_set_unit]
    exact mem_one_row i (win7_6.index t7_9) (idx_facts t7_9).2.2.2.2.2.2.2.2.2.2.2.2.1 (idx_facts t7_9).2.2.2.2.2.2.2.2.2.2.2.2.2

end Cert.KernelIdeal.Reg7

end
-- ==== Proof.Reg8.lean ====
import proofs.«408352_j17944373363255_2_alg».proof.Proof.Normalise

noncomputable section

namespace Cert.KernelIdeal.Reg8

open Cert.KernelIdeal Cert.KernelIdeal.Gen Idealize.ShloMosaic Idealize.ShloMosaic.TcCoe Idealize.ShloMosaic.ValueIdx Idealize.SL.Sem Normalise
open Cert.KernelIdeal.Transform (row_map fix_map row_mem)

variable (V : (c : Dev nD) → (b : Ref sig .tc) → Buf (Elt Ideal) ((c : Thread nD τ).loc b))

theorem val (c : Dev nD) :
    (Gen.dat8 (F := Ideal) V c).arrAt 5 cfg8.N
      = Gcn.bn (fun d => V c main_v154 (ix2 0 d)) (fun d => V c main_v157 (ix2 0 d)) (V c main_v145_0)
          (fun d => V c main_v147 (ix2 0 d)) (fun d => V c main_v151 (ix2 0 d)) := by
  refine (dat8 V c).arrAt_eq_of_cover 5 _ (fun t _ => ?_) fun i => ?_
  · show (cfg8.win 5).cut (grid8.coords t) ((dat8 V c).after 5 t) = _
    rw [after8_5]
    exact funext fun j => (congrFun (out_whole k8_pay1 _ _ _ _ _) _).trans
      (block_eq (V c main_v145_0) (V c main_v147) (V c main_v151) (V c main_v154) (V c main_v157) (win8_0.rect_emb_val t) (win8_1.rect_emb_val t)
        (win8_2.rect_emb_val t) (win8_3.rect_emb_val t) (win8_4.rect_emb_val t) (win8_5.rect_emb_val t)
        ⟨row_map t, fix_map t, fix_map t, fix_map t, fix_map t, row_map t⟩ k8_pay1 pay2 j)
  · have hi : (i 0).val < 50000 := (i 0).isLt
    obtain ⟨t, ht⟩ : ∃ t : Fin cfg8.N, t.val = (i 0).val / 5000 := ⟨⟨_, by rw [show cfg8.N = 10 from N_8]; omega⟩, rfl⟩
    refine ⟨t, flush8_5 t, ?_⟩
    show i ∈ ((View.whole main_v158).slice (win8_5.rect t)).set
    rw [View.set_slice_whole, Rect.mem_set_unit]
    exact row_mem i ((row_map t).1.trans ht) (row_map t).2

end Cert.KernelIdeal.Reg8

end
-- ==== Proof.KLayer2.lean ====
import proofs.«408352_j17944373363255_2_alg».proof.Proof.KLayerLib
import proofs.«408352_j17944373363255_2_alg».proof.Proof.Reg6
import proofs.«408352_j17944373363255_2_alg».proof.Proof.Reg7
import proofs.«408352_j17944373363255_2_alg».proof.Proof.Reg8

noncomputable section

namespace Cert.KernelIdeal.KLayer2

open Cert.KernelIdeal Cert.KernelIdeal.Gen Cert.KernelIdeal.KLayerLib Idealize.ShloMosaic Idealize.ShloMosaic.TcCoe Idealize.ShloMosaic.ValueIdx Idealize.SL.Sem
open Cert.ReferenceIdeal.Shared (srcW dstW dinv msg rowOf)

variable (W : Dev nD → Valuation τ sig (Elt Ideal))

def XA (c : Dev nD) : Valuation τ sig (Elt Ideal) :=
  Pipeline.withArrays spec6 c (W c) fun w => (dat6 (F := Ideal) (Vof W) c).arrAt w cfg6.N
abbrev XB : Dev nD → Valuation τ sig (Elt Ideal) := fun c => StableHlo.after hostOps7 (XA W c)
def XC (c : Dev nD) : Valuation τ sig (Elt Ideal) :=
  Pipeline.withArrays spec7 c (XB W c) fun w => (dat7 (F := Ideal) (Vof (XB W)) c).arrAt w cfg7.N
abbrev XD : Dev nD → Valuation τ sig (Elt Ideal) := fun c => StableHlo.after hostOps8 (XC W c)
def XE (c : Dev nD) : Valuation τ sig (Elt Ideal) :=
  Pipeline.withArrays spec8 c (XD W c) fun w => (dat8 (F := Ideal) (Vof (XD W)) c).arrAt w cfg8.N

theorem exit_eq (m : (ℓ : Loc nD τ sig) → Buf (Elt Ideal) ℓ) (ρ : Dev nD → PrngReg) (c : Dev nD) :
    W18 (F := Ideal) m ρ c = XE (W13 (F := Ideal) m ρ) c := by
  unfold W18 XE
  rfl

variable (c : Dev nD)

theorem XA_of_ne (b : Ref sig .tc) (hb : ∀ w, Pipeline.arrRef spec6 w ≠ b) : XA W c (Proc.devRef .tc b) = W c (Proc.devRef .tc b) :=
  Pipeline.withArrays_of_ne spec6 c _ _ b hb
theorem XC_arr (w : Fin cfg7.W) :
    XC W c (Proc.devRef .tc (Pipeline.arrRef spec7 w)) = (dat7 (F := Ideal) (Vof (XB W)) c).arrAt w cfg7.N :=
  Pipeline.withArrays_arr spec7 launch7.win.arr_inj c _ _ w
theorem XC_of_ne (b : Ref sig .tc) (hb : ∀ w, Pipeline.arrRef spec7 w ≠ b) : XC W c (Proc.devRef .tc b) = XB W c (Proc.devRef .tc b) :=
  Pipeline.withArrays_of_ne spec7 c _ _ b hb

theorem XC_params :
    XC W c (Proc.devRef .tc main_arg6) = W c (Proc.devRef .tc main_arg6) ∧ XC W c (Proc.devRef .tc main_arg7) = W c (Proc.devRef .tc main_arg7) := by
  rw [XC_of_ne W c main_arg6 (by decide), XC_of_ne W c main_arg7 (by decide)]
  simp only [XB, hostOps7]
  after_results_simp
  exact ⟨XA_of_ne W c main_arg6 (by decide), XA_of_ne W c main_arg7 (by decide)⟩

abbrev inHw : Gcn.Arr :=
  Gcn.hwOf (fun n => W c (Proc.devRef .tc main_v13) (ix2 n 0)) (fun k d => W c (Proc.devRef .tc main_v112) (ix2 k d)) (W c (Proc.devRef .tc main_v110))
abbrev inA (ei : IVec Cert.ReferenceIdeal.S2x1600000 32) : Gcn.Arr :=
  Gcn.aggOf (msg ei) (fun n => W c (Proc.devRef .tc main_v12) (ix2 n 0)) (rowOf (W c (Proc.devRef .tc main_arg5)) 2) (inHw W c)

theorem XA_hw : XA W c (Proc.devRef .tc main_v113) = inHw W c :=
  (Pipeline.withArrays_arr spec6 launch6.win.arr_inj c _ _ 3).trans (Reg6.val (Vof W) c)

variable (ei : IVec Cert.ReferenceIdeal.S2x1600000 32)
  (h1 : W c (Proc.devRef .tc main_v1) = srcW ei) (h3 : W c (Proc.devRef .tc main_v3) = dstW ei) (h10 : W c (Proc.devRef .tc main_v10) = dinv ei)
include h1 h3 h10

theorem XB_agg : Reg7.aArr (Vof (XB W)) c = inA W c ei := by
  simp only [Reg7.aArr, Vof, XB, hostOps7]
  after_results_simp
  rw [XA_of_ne W c main_v1 (by decide), XA_of_ne W c main_v3 (by decide), XA_of_ne W c main_v10 (by decide),
    XA_of_ne W c main_v12 (by decide), XA_of_ne W c main_arg5 (by decide), XA_hw W c, h1, h3, h10]
  exact congrArg (Gcn.aggArr _ _ _) (funext (row_read 2 _ _ 2 rfl))

theorem val :
    XE W c (Proc.devRef .tc main_v158)
      = Gcn.layerK (msg ei) (fun n => W c (Proc.devRef .tc main_v12) (ix2 n 0))
          (fun n => W c (Proc.devRef .tc main_v13) (ix2 n 0)) (fun k d => W c (Proc.devRef .tc main_v112) (ix2 k d))
          (rowOf (W c (Proc.devRef .tc main_arg5)) 2) (rowOf (W c (Proc.devRef .tc main_arg6)) 2) (rowOf (W c (Proc.devRef .tc main_arg7)) 2)
          (W c (Proc.devRef .tc main_v110)) := by
  refine (Pipeline.withArrays_arr spec8 launch8.win.arr_inj c _ _ 5).trans ((Reg8.val (Vof (XD W)) c).trans ?_)
  simp only [Vof, XD, hostOps8]
  after_results_simp
  rw [(XC_params W c).1, (XC_params W c).2, XC_arr W c 4, XC_arr W c 5, XC_arr W c 6, Reg7.val4 (Vof (XB W)) c]
  exact bn_of_sums (row_read 2 _ _ 2 rfl) (row_read 2 _ _ 2 rfl) (Reg7.val5 (Vof (XB W)) c) (Reg7.val6 (Vof (XB W)) c)
    (XB_agg W c ei h1 h3 h10)

end Cert.KernelIdeal.KLayer2

end
-- ==== Proof.Reg9.lean ====
import proofs.«408352_j17944373363255_2_alg».proof.Proof.Gen.KernelIdeal.Frame
import proofs.«408352_j17944373363255_2_alg».proof.Proof.Spec
import Idealize.ShloMosaic.Lib.ValueIdx
import Idealize.ShloMosaic.Lib.Pipeline.Value
import Idealize.ShloMosaic.Lib.Tactic
import Idealize.ShloMosaic.PureOps.Ideal.Laws
import Mathlib.Algebra.BigOperators.Fin
import Mathlib.Logic.Equiv.Fin.Basic

noncomputable section

namespace Cert.KernelIdeal.Reg9

open Cert.KernelIdeal Cert.KernelIdeal.Gen Idealize.ShloMosaic Idealize.ShloMosaic.TcCoe Idealize.ShloMosaic.ValueIdx Idealize.SL.Sem

/-- A sum over 50000 rows is the sum over ten blocks of the sums over each block's 5000 rows. -/
theorem sum_rows (f : Fin 50000 → EReal) :
    ∑ n : Fin 50000, f n = ∑ t : Fin 10, ∑ r : Fin 5000, f ⟨5000 * t.val + r.val, by have := t.isLt; have := r.isLt; omega⟩ := by
  rw [← Equiv.sum_comp (finProdFinEquiv : Fin 10 × Fin 5000 ≃ Fin (10 * 5000)) f, Fintype.sum_prod_type]
  refine Finset.sum_congr rfl fun t _ => Finset.sum_congr rfl fun r _ => congrArg f (Fin.ext ?_)
  show r.val + 5000 * t.val = 5000 * t.val + r.val
  omega

theorem sum_upto_succ (B : Fin 10 → EReal) (n : ℕ) (h : n + 1 < 10) :
    (∑ t : Fin 10, if t.val ≤ n + 1 then B t else 0) = (∑ t : Fin 10, if t.val ≤ n then B t else 0) + B ⟨n + 1, h⟩ := by
  have e : ∀ t : Fin 10, (if t.val ≤ n + 1 then B t else 0)
      = (if t.val ≤ n then B t else 0) + (if t = ⟨n + 1, h⟩ then B t else 0) := by
    intro t
    by_cases h1 : t.val ≤ n
    · have h2 : t ≠ ⟨n + 1, h⟩ := fun e => by have := congrArg Fin.val e; dsimp only at this; omega
      rw [if_pos (by omega), if_pos h1, if_neg h2, add_zero]
    · by_cases h2 : t = ⟨n + 1, h⟩
      · subst h2
        rw [if_pos (le_refl _), if_neg (by dsimp only; omega), if_pos rfl, zero_add]
      · have h3 : ¬t.val ≤ n + 1 := fun h3 => h2 (Fin.ext (by dsimp only; omega))
        rw [if_neg h3, if_neg h1, if_neg h2, add_zero]
  rw [Finset.sum_congr rfl fun t _ => e t, Finset.sum_add_distrib, Finset.sum_ite_eq' Finset.univ (⟨n + 1, h⟩ : Fin 10) B,
    if_pos (Finset.mem_univ _)]

theorem sum_upto_zero (B : Fin 10 → EReal) : (∑ t : Fin 10, if t.val ≤ 0 then B t else 0) = B 0 := by
  have e : ∀ t : Fin 10, (if t.val ≤ 0 then B t else 0) = (if t = 0 then B t else 0) := by
    intro t
    by_cases h : t = 0
    · subst h; rw [if_pos (show ((0 : Fin 10) : ℕ) ≤ 0 from le_refl _), if_pos rfl]
    · have h' : ¬t.val ≤ 0 := fun h' => h (Fin.ext (by have : (0 : Fin 10).val = 0 := rfl; omega))
      rw [if_neg h', if_neg h]
  rw [Finset.sum_congr rfl fun t _ => e t, Finset.sum_ite_eq' Finset.univ (0 : Fin 10) B, if_pos (Finset.mem_univ _)]

theorem sum_upto_nine (B : Fin 10 → EReal) : (∑ t : Fin 10, if t.val ≤ 9 then B t else 0) = ∑ t : Fin 10, B t :=
  Finset.sum_congr rfl fun t _ => if_pos (by have := t.isLt; omega)

theorem word_eq_iff (w : BitVec 32) (g : Fin 64) : w = BitVec.ofNat 32 g.val ↔ w.toInt = (g.val : ℤ) := by
  have hg := g.isLt
  have e : (BitVec.ofNat 32 g.val).toInt = (g.val : ℤ) := by
    rw [BitVec.toInt_eq_toNat_cond, BitVec.toNat_ofNat]
    have e1 : g.val % 2 ^ 32 = g.val := Nat.mod_eq_of_lt (by omega)
    rw [e1, if_pos (by omega)]
  constructor
  · rintro rfl; exact e
  · intro h; exact BitVec.eq_of_toInt_eq (h.trans e.symm)

/-- The zero-one factor of a group word: one exactly when the word is the group's number. -/
theorem onehot_word (w : BitVec 32) (g : Fin 64) :
    (FloatOps.sitofp (F := Ideal) .f32 ((IntOp.cmpi .eq w (BitVec.ofNat 32 g.val)).setWidth 32) : EReal)
      = if w.toInt = (g.val : ℤ) then 1 else 0 := by
  by_cases h : w = BitVec.ofNat 32 g.val
  · rw [if_pos ((word_eq_iff w g).mp h)]
    subst h
    show (((((IntOp.cmpi .eq (BitVec.ofNat 32 g.val) (BitVec.ofNat 32 g.val)).setWidth 32).toInt : ℝ)) : EReal) = 1
    have : (IntOp.cmpi .eq (BitVec.ofNat 32 g.val) (BitVec.ofNat 32 g.val)) = 1#1 := by
      simp [IntOp.cmpi]
    rw [this]
    norm_num
  · rw [if_neg (fun h' => h ((word_eq_iff w g).mpr h'))]
    show (((((IntOp.cmpi .eq w (BitVec.ofNat 32 g.val)).setWidth 32).toInt : ℝ)) : EReal) = 0
    have hb : (w == BitVec.ofNat 32 g.val) = false := beq_eq_false_iff_ne.mpr h
    have : (IntOp.cmpi .eq w (BitVec.ofNat 32 g.val)) = 0#1 := by
      show BitVec.ofBool (w == BitVec.ofNat 32 g.val) = 0#1
      rw [hb]; rfl
    rw [this]
    norm_num

section Pieces
variable {F : FTy → Type} [FloatOps F]

theorem hz : (![0, 0] : Fin 2 → Nat) = fun _ => 0 := funext fun a => by fin_cases a <;> rfl

theorem out_B (c : Dev nD) (i : grid9.Coords) (a1 : Memref sig .tc .vmem S5000x128 .f32) (h1 : a1.IsWhole)
    (a2 : Memref sig .tc .vmem S5000x1 .f32) (h2 : a2.IsWhole) (a3 : Memref sig .tc .vmem S5000x1 .i32) (h3 : a3.IsWhole)
    (a4 : Memref sig .tc .vmem S64x128 .f32) (h4 : a4.IsWhole) (hc : ¬cond9_0 i)
    (x0 : Vec F S5000x128 .f32) (x1 : Vec F S5000x1 .f32) (x2 : Vec F S5000x1 .i32) (xo : Vec F S64x128 .f32) :
    out9_B_3 c i a1 h1 a2 h2 a3 h3 a4 h4 hc x0 x1 x2 xo = k9_pay2 x0 x1 x2 xo := by
  unfold out9_B_3
  rw [View.read_writes_eq_canon _ _ _ (cover9_B_3 c i a1 h1 a2 h2 a3 h3 a4 h4 hc x0 x1 x2 xo)]
  unfold kernelRun9_B
  dsimp only
  sl_unfold_words
  rw [View.canon_unit_zero hz]
  simp only [View.readAt_eq_ld, h1.read_unread, h2.read_unread, h3.read_unread, h4.read_unread,
    View.ld_unit_zero (S := S5000x128) hz, View.ld_unit_zero (S := S5000x1) hz, View.ld_unit_zero (S := S64x128) hz]

theorem out_A (c : Dev nD) (i : grid9.Coords) (a1 : Memref sig .tc .vmem S5000x128 .f32) (h1 : a1.IsWhole)
    (a2 : Memref sig .tc .vmem S5000x1 .f32) (h2 : a2.IsWhole) (a3 : Memref sig .tc .vmem S5000x1 .i32) (h3 : a3.IsWhole)
    (a4 : Memref sig .tc .vmem S64x128 .f32) (h4 : a4.IsWhole) (hc : cond9_0 i)
    (x0 : Vec F S5000x128 .f32) (x1 : Vec F S5000x1 .f32) (x2 : Vec F S5000x1 .i32) :
    out9_A_3 c i a1 h1 a2 h2 a3 h3 a4 h4 hc x0 x1 x2 = k9_pay2 x0 x1 x2 (k9_pay1 (F := F)) := by
  unfold out9_A_3
  rw [View.read_writes_eq_canon _ _ _ (cover9_A_3 c i a1 h1 a2 h2 a3 h3 a4 h4 hc x0 x1 x2)]
  unfold kernelRun9_A
  dsimp only
  sl_unfold_words
  rw [View.canon_cons_unit_zero (S := S64x128) hz]
  simp only [View.readAt_eq_ld, h1.read_unread, h2.read_unread, h3.read_unread,
    View.ld_unit_zero (S := S5000x128) hz, View.ld_unit_zero (S := S5000x1) hz, View.ld_unit_zero (S := S64x128) hz,
    View.readCov_unit_zero (S := S64x128) _ hz]

end Pieces

section Payload

theorem lhs9_0 (j : S64x128.Idx) (k : dot_S5000x64_S5000x128_S64x128_0_0_1_1_n_n.contr.Idx) :
    (dot_S5000x64_S5000x128_S64x128_0_0_1_1_n_n.lhsIdx j k 0 : ℕ) = k ⟨0, by decide⟩ := by
  simp [DotDims.lhsIdx, dot_S5000x64_S5000x128_S64x128_0_0_1_1_n_n]; rfl
theorem lhs9_1 (j : S64x128.Idx) (k : dot_S5000x64_S5000x128_S64x128_0_0_1_1_n_n.contr.Idx) :
    (dot_S5000x64_S5000x128_S64x128_0_0_1_1_n_n.lhsIdx j k 1 : ℕ) = j 0 := by
  simp [DotDims.lhsIdx, dot_S5000x64_S5000x128_S64x128_0_0_1_1_n_n]; rfl
theorem rhs9_0 (j : S64x128.Idx) (k : dot_S5000x64_S5000x128_S64x128_0_0_1_1_n_n.contr.Idx) :
    (dot_S5000x64_S5000x128_S64x128_0_0_1_1_n_n.rhsIdx j k 0 : ℕ) = k ⟨0, by decide⟩ := by
  simp [DotDims.rhsIdx, dot_S5000x64_S5000x128_S64x128_0_0_1_1_n_n]; rfl
theorem rhs9_1 (j : S64x128.Idx) (k : dot_S5000x64_S5000x128_S64x128_0_0_1_1_n_n.contr.Idx) :
    (dot_S5000x64_S5000x128_S64x128_0_0_1_1_n_n.rhsIdx j k 1 : ℕ) = j 1 := by
  simp [DotDims.rhsIdx, dot_S5000x64_S5000x128_S64x128_0_0_1_1_n_n]; rfl

theorem bcast_col {α : Type} {C : ℕ} (x : (⟨2, ![5000, 1]⟩ : Shape).Idx → α)
    (h : (⟨2, ![5000, 1]⟩ : Shape).Broadcasts ⟨2, ![5000, C]⟩) (r : Fin 5000) (q : Fin C) :
    broadcastTo ⟨2, ![5000, C]⟩ x h (ix2 r q) = x (ix2 r 0) :=
  broadcastTo_apply x h (ix2 r q) (ix2 r 0) (fun a => by match a with | ⟨0, _⟩ => rfl | ⟨1, _⟩ => rfl)

abbrev D9 := dot_S5000x64_S5000x128_S64x128_0_0_1_1_n_n

theorem matmul9_apply (l : FVec Ideal S5000x64 .bf16) (r : FVec Ideal S5000x128 .bf16) (g : Fin 64) (d : Fin 128) :
    matmul D9 none l r (constant (F := Ideal) S64x128 .f32 0x00000000#32) (ix2 g d)
      = ∑ k : Fin 5000, l (ix2 k g) * r (ix2 k d) := by
  refine (Ideal.matmul_constant_zero_apply D9 none l r (ix2 g d)).trans ?_
  rw [← Equiv.sum_comp (contrEquiv1 D9 5000 rfl rfl).symm]
  refine Finset.sum_congr rfl fun k _ => ?_
  have el : D9.lhsIdx (ix2 g d) ((contrEquiv1 D9 5000 rfl rfl).symm k) = ix2 k g := by
    apply Shape.idx_ext₂
    · exact (lhs9_0 _ _).trans (contrEquiv1_symm_val D9 5000 rfl rfl k)
    · exact lhs9_1 _ _
  have er : D9.rhsIdx (ix2 g d) ((contrEquiv1 D9 5000 rfl rfl).symm k) = ix2 k d := by
    apply Shape.idx_ext₂
    · exact (rhs9_0 _ _).trans (contrEquiv1_symm_val D9 5000 rfl rfl k)
    · exact rhs9_1 _ _
  rw [el, er]

theorem pay2_apply (x0 : Vec Ideal S5000x128 .f32) (x1 : Vec Ideal S5000x1 .f32) (x2 : Vec Ideal S5000x1 .i32)
    (xo : Vec Ideal S64x128 .f32) (g : Fin 64) (d : Fin 128) :
    k9_pay2 (F := Ideal) x0 x1 x2 xo (ix2 g d)
      = xo (ix2 g d) + ∑ r : Fin 5000, (if (x2 (ix2 r 0) : BitVec 32).toInt = (g.val : ℤ) then (1 : EReal) else 0) * (x0 (ix2 r d) * x1 (ix2 r 0)) := by
  unfold k9_pay2
  dsimp only
  refine (addf_apply _ _ (ix2 g d)).trans ?_
  refine congrArg₂ (· + ·) (congrFun (shapeCast_self xo _) (ix2 g d)) ?_
  refine (matmul9_apply _ _ g d).trans ?_
  refine Finset.sum_congr rfl fun r _ => ?_
  refine congrArg₂ (· * ·) ?_ ?_
  · show FloatOps.sitofp (F := Ideal) .f32 ((IntOp.cmpi .eq
        (broadcastTo S5000x64 (shapeCast S5000x1 x2 shapeCasts_S5000x1_S5000x1) broadcasts_S5000x1_S5000x64 (ix2 r g))
        (iota .tc S5000x64 32 [1] iota_S5000x64_d1_w32 (ix2 r g))).setWidth 32) = _
    rw [bcast_col, shapeCast_self, iota_single_apply]
    exact onehot_word _ g
  · show (shapeCast S5000x128 x0 shapeCasts_S5000x128_S5000x128 (ix2 r d))
        * (broadcastTo S5000x128 (shapeCast S5000x1 x1 shapeCasts_S5000x1_S5000x1) broadcasts_S5000x1_S5000x128 (ix2 r d)) = _
    rw [shapeCast_self, bcast_col, shapeCast_self]

end Payload

section Value
variable (V : (c : Dev nD) → (b : Ref sig .tc) → Buf (Elt Ideal) ((c : Thread nD τ).loc b))

abbrev harr (c : Dev nD) : Vec Ideal S50000x128 .f32 := V c main_v158
abbrev marr (c : Dev nD) : Vec Ideal S50000x1 .f32 := V c main_v13
abbrev garr (c : Dev nD) : Vec Ideal S50000x1 .i32 := V c main_v14
abbrev hblk (c : Dev nD) (t : Fin cfg9.N) : Vec Ideal S5000x128 .f32 := iblk9 V c 0 t
abbrev mblk (c : Dev nD) (t : Fin cfg9.N) : Vec Ideal S5000x1 .f32 := iblk9 V c 1 t
abbrev gblk (c : Dev nD) (t : Fin cfg9.N) : Vec Ideal S5000x1 .i32 := iblk9 V c 2 t

theorem idx9 : ∀ t : Fin cfg9.N, (win9_0.index t 0 = t.val ∧ win9_0.index t 1 = 0)
    ∧ (win9_1.index t 0 = t.val ∧ win9_1.index t 1 = 0) ∧ (win9_2.index t 0 = t.val ∧ win9_2.index t 1 = 0) :=
  (by decide +kernel : ∀ t : Fin grid9.N, (win9_0.index t 0 = t.val ∧ win9_0.index t 1 = 0)
    ∧ (win9_1.index t 0 = t.val ∧ win9_1.index t 1 = 0) ∧ (win9_2.index t 0 = t.val ∧ win9_2.index t 1 = 0))

theorem row_lt (t : Fin cfg9.N) (r : Fin 5000) : 5000 * t.val + r.val < 50000 := by
  have := t.isLt; have hN : cfg9.N = 10 := N_9; have := r.isLt; omega

theorem hblk_apply (c : Dev nD) (t : Fin cfg9.N) (r : Fin 5000) (d : Fin 128) :
    hblk V c t (ix2 r d) = harr V c (ix2 ⟨5000 * t.val + r.val, row_lt t r⟩ d) := by
  unfold hblk harr iblk9
  rw [View.read_apply]
  show V c main_v158 _ = V c main_v158 _
  congr 1
  funext a
  apply Fin.ext
  match a with
  | ⟨0, _⟩ => show win9_0.index t 0 * 5000 + 1 * r.val = 5000 * t.val + r.val; rw [(idx9 t).1.1]; omega
  | ⟨1, _⟩ => show win9_0.index t 1 * 128 + 1 * d.val = d.val; rw [(idx9 t).1.2]; omega

theorem mblk_apply (c : Dev nD) (t : Fin cfg9.N) (r : Fin 5000) :
    mblk V c t (ix2 r 0) = marr V c (ix2 ⟨5000 * t.val + r.val, row_lt t r⟩ 0) := by
  unfold mblk marr iblk9
  rw [View.read_apply]
  show V c main_v13 _ = V c main_v13 _
  congr 1
  funext a
  apply Fin.ext
  match a with
  | ⟨0, _⟩ => show win9_1.index t 0 * 5000 + 1 * r.val = 5000 * t.val + r.val; rw [(idx9 t).2.1.1]; omega
  | ⟨1, _⟩ => show win9_1.index t 1 * 1 + 1 * 0 = 0; rw [(idx9 t).2.1.2]

theorem gblk_apply (c : Dev nD) (t : Fin cfg9.N) (r : Fin 5000) :
    gblk V c t (ix2 r 0) = garr V c (ix2 ⟨5000 * t.val + r.val, row_lt t r⟩ 0) := by
  unfold gblk garr iblk9
  rw [View.read_apply]
  show V c main_v14 _ = V c main_v14 _
  congr 1
  funext a
  apply Fin.ext
  match a with
  | ⟨0, _⟩ => show win9_2.index t 0 * 5000 + 1 * r.val = 5000 * t.val + r.val; rw [(idx9 t).2.2.1]; omega
  | ⟨1, _⟩ => show win9_2.index t 1 * 1 + 1 * 0 = 0; rw [(idx9 t).2.2.2]

abbrev term (c : Dev nD) (g : Fin 64) (d : Fin 128) (n : Fin 50000) : EReal :=
  (if (garr V c (ix2 n 0) : BitVec 32).toInt = (g.val : ℤ) then (1 : EReal) else 0)
    * (harr V c (ix2 n d) * marr V c (ix2 n 0))

abbrev blockSum (c : Dev nD) (g : Fin 64) (d : Fin 128) (t : Fin 10) : EReal :=
  ∑ r : Fin 5000, term V c g d ⟨5000 * t.val + r.val, by have := t.isLt; have := r.isLt; omega⟩

theorem pt_lt (t : Fin cfg9.N) : t.val < 10 := lt_of_lt_of_eq t.isLt (show cfg9.N = 10 from N_9)

theorem step (c : Dev nD) (t : Fin cfg9.N) (xo : Vec Ideal S64x128 .f32) (g : Fin 64) (d : Fin 128) :
    k9_pay2 (F := Ideal) (hblk V c t) (mblk V c t) (gblk V c t) xo (ix2 g d)
      = xo (ix2 g d) + blockSum V c g d ⟨t.val, pt_lt t⟩ := by
  refine (pay2_apply (hblk V c t) (mblk V c t) (gblk V c t) xo g d).trans ?_
  refine congrArg (xo (ix2 g d) + ·) (Finset.sum_congr rfl fun r _ => ?_)
  exact congrArg₂ (· * ·) (by rw [gblk_apply]) (congrArg₂ (· * ·) (hblk_apply V c t r d) (mblk_apply V c t r))

theorem pay1_apply (g : Fin 64) (d : Fin 128) : k9_pay1 (F := Ideal) (ix2 g d) = 0 := by
  unfold k9_pay1
  exact Ideal.ofBits_zero_f32

/-- After point n the output block is the sum of the first n + 1 row blocks' contributions. -/
theorem outs_eq (c : Dev nD) : ∀ (n : ℕ) (h : n < cfg9.N) (g : Fin 64) (d : Fin 128),
    outsAt9 V c n h (ix2 g d) = ∑ t : Fin 10, if t.val ≤ n then blockSum V c g d t else 0
  | 0, h, g, d => by
    rw [sum_upto_zero (blockSum V c g d)]
    refine (congrFun (outsAt9_A V c ⟨0, h⟩ rfl) (ix2 g d)).trans ?_
    refine (congrFun (out_A (F := Ideal) c (grid9.coords ⟨0, h⟩) (ms9_0 ⟨0, h⟩) (hs9_0 ⟨0, h⟩) (ms9_1 ⟨0, h⟩) (hs9_1 ⟨0, h⟩)
      (ms9_2 ⟨0, h⟩) (hs9_2 ⟨0, h⟩) (ms9_3 ⟨0, h⟩) (hs9_3 ⟨0, h⟩) ((hcond9_0 ⟨0, h⟩).mpr rfl)
      (hblk V c ⟨0, h⟩) (mblk V c ⟨0, h⟩) (gblk V c ⟨0, h⟩)) (ix2 g d)).trans ?_
    refine (step V c ⟨0, h⟩ (k9_pay1 (F := Ideal)) g d).trans ?_
    refine (congrArg (· + blockSum V c g d ⟨(⟨0, h⟩ : Fin cfg9.N).val, pt_lt _⟩) (pay1_apply g d)).trans ?_
    exact zero_add _
  | n + 1, h, g, d => by
    have hN : cfg9.N = 10 := N_9
    have hB : ¬(⟨n + 1, h⟩ : Fin cfg9.N).val % 10 = 0 := by dsimp only; omega
    rw [sum_upto_succ (blockSum V c g d) n (by omega)]
    refine (congrFun (outsAt9_B V c ⟨n + 1, h⟩ hB) (ix2 g d)).trans ?_
    refine (congrFun (out_B (F := Ideal) c (grid9.coords ⟨n + 1, h⟩) (ms9_0 ⟨n + 1, h⟩) (hs9_0 ⟨n + 1, h⟩) (ms9_1 ⟨n + 1, h⟩) (hs9_1 ⟨n + 1, h⟩)
      (ms9_2 ⟨n + 1, h⟩) (hs9_2 ⟨n + 1, h⟩) (ms9_3 ⟨n + 1, h⟩) (hs9_3 ⟨n + 1, h⟩) (fun hh => hB ((hcond9_0 ⟨n + 1, h⟩).mp hh))
      (hblk V c ⟨n + 1, h⟩) (mblk V c ⟨n + 1, h⟩) (gblk V c ⟨n + 1, h⟩) (outsAt9 V c n (Nat.lt_of_succ_lt h))) (ix2 g d)).trans ?_
    refine (step V c ⟨n + 1, h⟩ (outsAt9 V c n (Nat.lt_of_succ_lt h)) g d).trans ?_
    exact congrArg (· + blockSum V c g d ⟨n + 1, by omega⟩) (outs_eq c n (Nat.lt_of_succ_lt h) g d)

abbrev pooled (c : Dev nD) : Vec Ideal S64x128 .f32 :=
  Gcn.poolK (fun n g => (V c main_v14 (ix2 n 0)).toInt = (g.val : ℤ)) (fun n => V c main_v13 (ix2 n 0)) (V c main_v158)

abbrev result (c : Dev nD) : Buf (Elt Ideal) ((c : Thread nD τ).loc main_v159) := pooled V c

theorem outs_last (c : Dev nD) : outsAt9 V c t9_9.val t9_9.isLt = pooled V c := by
  funext j
  obtain ⟨g, d, rfl⟩ : ∃ (g : Fin 64) (d : Fin 128), j = ix2 g d := ⟨j 0, j 1, eq_ix2 j⟩
  refine (outs_eq V c 9 t9_9.isLt g d).trans ?_
  rw [sum_upto_nine (blockSum V c g d)]
  exact (sum_rows (term V c g d)).symm

theorem flushed_eq (c : Dev nD) (t : Fin cfg9.N) (hf : (cfg9.win 3).flush t = true) :
    (dat9 V c).flushed 3 t = ((cfg9.win 3).blk t).view.read (Elt Ideal) (result V c) := by
  have hN : cfg9.N = 10 := N_9
  have h9 : t.val = 9 := by have := (flush9_3 t).mp hf; have := t.isLt; omega
  obtain rfl : t = t9_9 := Fin.ext h9
  show (cfg9.win 3).cut (grid9.coords t9_9) ((dat9 V c).after 3 t9_9) = _
  rw [after9_3, outs_last]
  have hz' : (fun a => win9_3.index t9_9 a * main_v159.ty.shape.size a) = fun _ => 0 := funext fun a => by fin_cases a <;> decide
  exact (Memref.read_access_unit_zero (Elt Ideal) main_v159 hz' (fun a => by rw [congrFun hz' a]; simp) (result V c)).symm

/-- The pooled array after the run is the masked sum per group, with a zero-one factor. -/
theorem val (c : Dev nD) :
    (Gen.dat9 (F := Ideal) V c).arrAt 3 cfg9.N
      = Gcn.poolK (fun n g => (V c main_v14 (ix2 n 0)).toInt = (g.val : ℤ)) (fun n => V c main_v13 (ix2 n 0)) (V c main_v158) :=
  (dat9 V c).arrAt_eq_of_cover 3 (result V c) (flushed_eq V c) fun i =>
    ⟨t9_9, (flush9_3 t9_9).mpr rfl, by
      show i ∈ ((View.whole main_v159).slice (win9_3.rect t9_9)).set
      rw [View.set_slice_whole, Rect.mem_set_unit]
      intro a
      have h0 : (i 0 : Nat) < 64 := (i 0).isLt
      have h1 : (i 1 : Nat) < 128 := (i 1).isLt
      match a with
      | ⟨0, _⟩ =>
        show win9_3.index t9_9 0 * win9_3.size 0 ≤ (i 0 : Nat)
          ∧ (i 0 : Nat) < win9_3.index t9_9 0 * win9_3.size 0 + win9_3.xsize (grid9.coords t9_9) 0
        rw [show win9_3.index t9_9 0 * win9_3.size 0 = 0 from by decide +kernel,
          show win9_3.xsize (grid9.coords t9_9) 0 = 64 from by decide +kernel]
        omega
      | ⟨1, _⟩ =>
        show win9_3.index t9_9 1 * win9_3.size 1 ≤ (i 1 : Nat)
          ∧ (i 1 : Nat) < win9_3.index t9_9 1 * win9_3.size 1 + win9_3.xsize (grid9.coords t9_9) 1
        rw [show win9_3.index t9_9 1 * win9_3.size 1 = 0 from by decide +kernel,
          show win9_3.xsize (grid9.coords t9_9) 1 = 128 from by decide +kernel]
        omega⟩

end Value

end Cert.KernelIdeal.Reg9

end
-- ==== Proof.KVal.lean ====
import proofs.«408352_j17944373363255_2_alg».proof.Proof.Gen.KernelIdeal.Frame
import proofs.«408352_j17944373363255_2_alg».proof.Proof.KBase
import proofs.«408352_j17944373363255_2_alg».proof.Proof.KLayer0
import proofs.«408352_j17944373363255_2_alg».proof.Proof.KLayer1
import proofs.«408352_j17944373363255_2_alg».proof.Proof.KLayer2
import proofs.«408352_j17944373363255_2_alg».proof.Proof.Reg9
import proofs.«408352_j17944373363255_2_alg».proof.Proof.Shared
import proofs.«408352_j17944373363255_2_alg».proof.Proof.Spec
import Idealize.ShloMosaic.Lib.ValueIdx
import Idealize.ShloMosaic.Lib.StableHlo.Run

set_option maxRecDepth 16384

noncomputable section

namespace Cert.KernelIdeal.KVal

open Cert.KernelIdeal Cert.KernelIdeal.Gen Cert.KernelIdeal.KBase Idealize.ShloMosaic Idealize.ShloMosaic.TcCoe Idealize.ShloMosaic.ValueIdx Idealize.SL.Sem
open Cert.ReferenceIdeal.Shared (srcW dstW dinv dd msg maskOf wtOf rowOf P tail)

variable (m : (ℓ : Loc nD τ sig) → Buf (Elt Ideal) ℓ) (ρ : Dev nD → PrngReg)

theorem poolK_congr {P Q : Fin 50000 → Fin 64 → Prop} [∀ n g, Decidable (P n g)] [∀ n g, Decidable (Q n g)]
    (hPQ : ∀ n g, P n g ↔ Q n g) {mask mask' : Fin 50000 → EReal} (hm : ∀ n, mask n = mask' n) (h : Gcn.Arr) :
    Gcn.poolK P mask h = Gcn.poolK Q mask' h := by
  funext j
  unfold Gcn.poolK Gcn.poolKAt
  refine Finset.sum_congr rfl fun n _ => ?_
  rw [hm n]
  congr 1
  by_cases hp : P n (j 0)
  · rw [if_pos hp, if_pos ((hPQ _ _).mp hp)]
  · rw [if_neg hp, if_neg (fun hq => hp ((hPQ _ _).mpr hq))]

theorem layer0 (c : Dev nD) :
    W6 (F := Ideal) m ρ c (Proc.devRef .tc main_v62)
      = Gcn.layerK (msg (a1 m c)) (dd (a1 m c)) (maskOf (a2 m c)) (wtOf (a4 m c) 0) (rowOf (a5 m c) 0) (rowOf (a6 m c) 0)
          (rowOf (a7 m c) 0) (a0 m c) := by
  have h12 : (fun n => W1 (F := Ideal) m ρ c (Proc.devRef .tc main_v12) (ix2 n 0)) = dd (a1 m c) := funext (W1_v12 m ρ c)
  have h13 : (fun n => W1 (F := Ideal) m ρ c (Proc.devRef .tc main_v13) (ix2 n 0)) = maskOf (a2 m c) := funext (W1_v13 m ρ c)
  have h16 : (fun k d => W1 (F := Ideal) m ρ c (Proc.devRef .tc main_v16) (ix2 k d)) = wtOf (a4 m c) 0 :=
    funext fun k => funext fun d => W1_v16 m ρ c k d
  rw [KLayer0.exit_eq m ρ c, KLayer0.val (W1 (F := Ideal) m ρ) c (a1 m c) (W1_v1 m ρ c) (W1_v3 m ρ c) (W1_v10 m ρ c),
    h12, h13, h16, W1_arg5, W1_arg6, W1_arg7, W1_arg0]

theorem layer1 (c : Dev nD) :
    W12 (F := Ideal) m ρ c (Proc.devRef .tc main_v110)
      = Gcn.layerK (msg (a1 m c)) (dd (a1 m c)) (maskOf (a2 m c)) (wtOf (a4 m c) 1) (rowOf (a5 m c) 1) (rowOf (a6 m c) 1)
          (rowOf (a7 m c) 1) (W6 (F := Ideal) m ρ c (Proc.devRef .tc main_v62)) := by
  have h12 : (fun n => W7 (F := Ideal) m ρ c (Proc.devRef .tc main_v12) (ix2 n 0)) = dd (a1 m c) := funext (W7_v12 m ρ c)
  have h13 : (fun n => W7 (F := Ideal) m ρ c (Proc.devRef .tc main_v13) (ix2 n 0)) = maskOf (a2 m c) := funext (W7_v13 m ρ c)
  have h64 : (fun k d => W7 (F := Ideal) m ρ c (Proc.devRef .tc main_v64) (ix2 k d)) = wtOf (a4 m c) 1 :=
    funext fun k => funext fun d => W7_v64 m ρ c k d
  rw [KLayer1.exit_eq m ρ c, KLayer1.val (W7 (F := Ideal) m ρ) c (a1 m c) (W7_v1 m ρ c) (W7_v3 m ρ c) (W7_v10 m ρ c),
    h12, h13, h64, W7_arg5, W7_arg6, W7_arg7, W7_v62]

theorem layer2 (c : Dev nD) :
    W18 (F := Ideal) m ρ c (Proc.devRef .tc main_v158)
      = Gcn.layerK (msg (a1 m c)) (dd (a1 m c)) (maskOf (a2 m c)) (wtOf (a4 m c) 2) (rowOf (a5 m c) 2) (rowOf (a6 m c) 2)
          (rowOf (a7 m c) 2) (W12 (F := Ideal) m ρ c (Proc.devRef .tc main_v110)) := by
  have h12 : (fun n => W13 (F := Ideal) m ρ c (Proc.devRef .tc main_v12) (ix2 n 0)) = dd (a1 m c) := funext (W13_v12 m ρ c)
  have h13 : (fun n => W13 (F := Ideal) m ρ c (Proc.devRef .tc main_v13) (ix2 n 0)) = maskOf (a2 m c) := funext (W13_v13 m ρ c)
  have h112 : (fun k d => W13 (F := Ideal) m ρ c (Proc.devRef .tc main_v112) (ix2 k d)) = wtOf (a4 m c) 2 :=
    funext fun k => funext fun d => W13_v112 m ρ c k d
  rw [KLayer2.exit_eq m ρ c, KLayer2.val (W13 (F := Ideal) m ρ) c (a1 m c) (W13_v1 m ρ c) (W13_v3 m ρ c) (W13_v10 m ρ c),
    h12, h13, h112, W13_arg5, W13_arg6, W13_arg7, W13_v110]

/-- The three layers nested are the network of the specification on the launched features. -/
theorem net (c : Dev nD) :
    W18 (F := Ideal) m ρ c (Proc.devRef .tc main_v158)
      = Gcn.netK (msg (a1 m c)) (dd (a1 m c)) (maskOf (a2 m c)) (wtOf (a4 m c)) (rowOf (a5 m c)) (rowOf (a6 m c))
          (rowOf (a7 m c)) (a0 m c) := by
  rw [layer2, layer1, layer0]; rfl

theorem pool (c : Dev nD) :
    W19 (F := Ideal) m ρ c (Proc.devRef .tc main_v159)
      = Gcn.poolK (P (a3 m c)) (maskOf (a2 m c)) (W18 (F := Ideal) m ρ c (Proc.devRef .tc main_v158)) := by
  have h : W19 (F := Ideal) m ρ c (Proc.devRef .tc main_v159) = (dat9 (V18 (F := Ideal) m ρ) c).arrAt 3 cfg9.N :=
    W19_arr (F := Ideal) m ρ c 3
  rw [h, Reg9.val]
  refine poolK_congr (fun n g => ?_) (fun n => W18_v13 m ρ c n) _
  show (W18 (F := Ideal) m ρ c (Proc.devRef .tc main_v14) (ix2 n 0)).toInt = (g.val : ℤ) ↔ P (a3 m c) n g
  rw [W18_v14]; exact Iff.rfl

theorem tail_eq (c : Dev nD) :
    W20 (F := Ideal) m ρ c (Proc.devRef .tc main_v173)
      = tail (W19 (F := Ideal) m ρ c (Proc.devRef .tc main_v159)) (W19 (F := Ideal) m ρ c (Proc.devRef .tc main_arg3))
          (W19 (F := Ideal) m ρ c (Proc.devRef .tc main_arg8)) (W19 (F := Ideal) m ρ c (Proc.devRef .tc main_arg9)) := by
  show StableHlo.after hostOps10 (W19 (F := Ideal) m ρ c) (Proc.devRef .tc main_v173) = _
  generalize W19 (F := Ideal) m ρ c = V
  simp only [hostOps10]
  after_results_simp
  unfold Cert.ReferenceIdeal.Shared.tail Cert.ReferenceIdeal.Shared.cnt
  rfl

/-- The kernel program's result: the read-out of the pooled three-layer network, variance as mean of squares less squared mean. -/
theorem result (c : Dev nD) :
    W20 (F := Ideal) m ρ c (Proc.devRef .tc main_v173)
      = tail (Gcn.poolK (P (a3 m c)) (maskOf (a2 m c))
          (Gcn.netK (msg (a1 m c)) (dd (a1 m c)) (maskOf (a2 m c)) (wtOf (a4 m c)) (rowOf (a5 m c)) (rowOf (a6 m c)) (rowOf (a7 m c)) (a0 m c)))
          (a3 m c) (a8 m c) (a9 m c) := by
  rw [tail_eq, pool, net, W19_arg3, W19_arg8, W19_arg9]

end Cert.KernelIdeal.KVal

end
-- ==== Proof.RefOps.lean ====
import proofs.«408352_j17944373363255_2_alg».proof.ReferenceIdeal
import proofs.«408352_j17944373363255_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem
open Idealize.ShloMosaic.StableHlo

variable {F : FTy → Type} [FloatOps F]

/-- The edge words and the degree scales: one over the square root of one plus a node's in-degree. -/
abbrev opsPre : List (HloOp τ sig (Elt F)) :=
  [ StableHlo.unary main_arg1 main_v0 (extractStridedSlice S1x1600000 ![0, 0] · slices_S2x1600000_S1x1600000_0_0),
    StableHlo.reshape main_v0 main_v1 rfl shapeCasts_S1x1600000_S1600000,
    StableHlo.unary main_arg1 main_v2 (extractStridedSlice S1x1600000 ![1, 0] · slices_S2x1600000_S1x1600000_1_0),
    StableHlo.reshape main_v2 main_v3 rfl shapeCasts_S1x1600000_S1600000,
    StableHlo.nullary main_cst (constant S_ .f32 0x3F800000#32),
    StableHlo.unary main_cst main_v4 (broadcastInDim S1600000 ![] bcast_S_S1600000),
    StableHlo.nullary main_cst_0 (constant S_ .f32 0x00000000#32),
    StableHlo.unary main_cst_0 main_v5 (broadcastInDim S50000 ![] bcast_S_S50000),
    StableHlo.unary main_v3 main_v6 (broadcastInDim S1600000x1 ![0] bcast_S1600000_S1600000x1_0),
    StableHlo.ternary main_v5 main_v6 main_v4 main_v7 (Host.scatterAdd scatter_S50000_S1600000x1_S1600000_n_0_0_1),
    StableHlo.nullary main_cst_1 (constant S_ .f32 0x3F800000#32),
    StableHlo.unary main_cst_1 main_v8 (broadcastInDim S50000 ![] bcast_S_S50000),
    StableHlo.binary main_v7 main_v8 main_v9 addf,
    StableHlo.unary main_v9 main_v10 Host.rsqrt ]

/-- The first layer, with the outlined variance and rectifier laid out in place. -/
abbrev opsL0 : List (HloOp τ sig (Elt F)) :=
  [ StableHlo.unary main_arg2 main_v11 (broadcastInDim S50000x1 ![0] bcast_S50000_S50000x1_0),
    StableHlo.unary main_v11 main_v12 (broadcastInDim S50000x128 ![0, 1] bcast_S50000x1_S50000x128_0_1),
    StableHlo.binary main_arg0 main_v12 main_v13 mulf,
    StableHlo.unary main_arg4 main_v14 (extractStridedSlice S1x128x128 ![0, 0, 0] · slices_S3x128x128_S1x128x128_0_0_0),
    StableHlo.reshape main_v14 main_v15 rfl shapeCasts_S1x128x128_S128x128,
    StableHlo.unary main_arg5 main_v16 (extractStridedSlice S1x128 ![0, 0] · slices_S3x128_S1x128_0_0),
    StableHlo.reshape main_v16 main_v17 rfl shapeCasts_S1x128_S128,
    StableHlo.binary main_v13 main_v15 main_v18 (Host.dotGeneral dot_S50000x128_S128x128_S50000x128_1_0_0_1_n_n none),
    StableHlo.nullary main_c (constantI S_ 32 0#32),
    StableHlo.unary main_c main_v19 (broadcastInDim S1600000 ![] bcast_S_S1600000),
    StableHlo.binary main_v1 main_v19 main_v20 (cmpi .slt),
    StableHlo.nullary main_c_2 (constantI S_ 32 50000#32),
    StableHlo.unary main_c_2 main_v21 (broadcastInDim S1600000 ![] bcast_S_S1600000),
    StableHlo.binary main_v1 main_v21 main_v22 addi,
    StableHlo.ternary main_v20 main_v22 main_v1 main_v23 select,
    StableHlo.unary main_v23 main_v24 (broadcastInDim S1600000x1 ![0] bcast_S1600000_S1600000x1_0),
    StableHlo.binary main_v10 main_v24 main_v25 (Host.gather gather_S50000_S1600000x1_S1600000_n_0_n_n_0_1_1),
    StableHlo.nullary main_c_3 (constantI S_ 32 0#32),
    StableHlo.unary main_c_3 main_v26 (broadcastInDim S1600000 ![] bcast_S_S1600000),
    StableHlo.binary main_v3 main_v26 main_v27 (cmpi .slt),
    StableHlo.nullary main_c_4 (constantI S_ 32 50000#32),
    StableHlo.unary main_c_4 main_v28 (broadcastInDim S1600000 ![] bcast_S_S1600000),
    StableHlo.binary main_v3 main_v28 main_v29 addi,
    StableHlo.ternary main_v27 main_v29 main_v3 main_v30 select,
    StableHlo.unary main_v30 main_v31 (broadcastInDim S1600000x1 ![0] bcast_S1600000_S1600000x1_0),
    StableHlo.binary main_v10 main_v31 main_v32 (Host.gather gather_S50000_S1600000x1_S1600000_n_0_n_n_0_1_1),
    StableHlo.binary main_v25 main_v32 main_v33 mulf,
    StableHlo.nullary main_c_5 (constantI S_ 32 0#32),
    StableHlo.unary main_c_5 main_v34 (broadcastInDim S1600000 ![] bcast_S_S1600000),
    StableHlo.binary main_v1 main_v34 main_v35 (cmpi .slt),
    StableHlo.nullary main_c_6 (constantI S_ 32 50000#32),
    StableHlo.unary main_c_6 main_v36 (broadcastInDim S1600000 ![] bcast_S_S1600000),
    StableHlo.binary main_v1 main_v36 main_v37 addi,
    StableHlo.ternary main_v35 main_v37 main_v1 main_v38 select,
    StableHlo.unary main_v38 main_v39 (broadcastInDim S1600000x1 ![0] bcast_S1600000_S1600000x1_0),
    StableHlo.binary main_v18 main_v39 main_v40 (Host.gather gather_S50000x128_S1600000x1_S1600000x128_1_0_n_n_0_1_1128),
    StableHlo.unary main_v33 main_v41 (broadcastInDim S1600000x1 ![0] bcast_S1600000_S1600000x1_0),
    StableHlo.unary main_v41 main_v42 (broadcastInDim S1600000x128 ![0, 1] bcast_S1600000x1_S1600000x128_0_1),
    StableHlo.binary main_v40 main_v42 main_v43 mulf,
    StableHlo.nullary main_cst_7 (constant S_ .f32 0x00000000#32),
    StableHlo.unary main_cst_7 main_v44 (broadcastInDim S50000x128 ![] bcast_S_S50000x128),
    StableHlo.unary main_v3 main_v45 (broadcastInDim S1600000x1 ![0] bcast_S1600000_S1600000x1_0),
    StableHlo.ternary main_v44 main_v45 main_v43 main_v46 (Host.scatterAdd scatter_S50000x128_S1600000x1_S1600000x128_1_0_0_1),
    StableHlo.binary main_v10 main_v10 main_v47 mulf,
    StableHlo.unary main_v47 main_v48 (broadcastInDim S50000x1 ![0] bcast_S50000_S50000x1_0),
    StableHlo.unary main_v48 main_v49 (broadcastInDim S50000x128 ![0, 1] bcast_S50000x1_S50000x128_0_1),
    StableHlo.binary main_v18 main_v49 main_v50 mulf,
    StableHlo.binary main_v46 main_v50 main_v51 addf,
    StableHlo.unary main_v17 main_v52 (broadcastInDim S1x128 ![1] bcast_S128_S1x128_1),
    StableHlo.unary main_v52 main_v53 (broadcastInDim S50000x128 ![0, 1] bcast_S1x128_S50000x128_0_1),
    StableHlo.binary main_v51 main_v53 main_v54 addf,
    StableHlo.nullary main_cst_8 (constant S_ .f32 0x00000000#32),
    StableHlo.binary main_v54 main_cst_8 main_v55 (fun x v => Host.reduceAdd x v reducesTo_S50000x128_S128_d0 h_S_),
    StableHlo.nullary main_cst_9 (constant S_ .f32 0x47435000#32),
    StableHlo.unary main_cst_9 main_v56 (broadcastInDim S128 ![] bcast_S_S128),
    StableHlo.binary main_v55 main_v56 main_v57 Host.divf,
    StableHlo.nullary main_c_10 (constantI S_ 32 0#32),
    StableHlo.TRef.nullary main_call0.cst (constant S_ .f32 0x00000000#32),
    StableHlo.TRef.binary (.of main_v54 : StableHlo.TRef sig ⟨S50000x128, .f32⟩) main_call0.cst main_call0.v0 (fun x v => Host.reduceAdd x v reducesTo_S50000x128_S128_d0 h_S_),
    StableHlo.TRef.unary main_call0.v0 main_call0.v1 (broadcastInDim S1x128 ![1] bcast_S128_S1x128_1),
    StableHlo.TRef.nullary main_call0.cst_0 (constant S_ .f32 0x47435000#32),
    StableHlo.TRef.unary main_call0.cst_0 main_call0.v2 (broadcastInDim S1x128 ![] bcast_S_S1x128),
    StableHlo.TRef.binary main_call0.v1 main_call0.v2 main_call0.v3 Host.divf,
    StableHlo.TRef.unary main_call0.v3 main_call0.v4 (broadcastInDim S50000x128 ![0, 1] bcast_S1x128_S50000x128_0_1),
    StableHlo.TRef.binary (.of main_v54 : StableHlo.TRef sig ⟨S50000x128, .f32⟩) main_call0.v4 main_call0.v5 subf,
    StableHlo.TRef.binary main_call0.v5 main_call0.v5 main_call0.v6 mulf,
    StableHlo.TRef.unary (.of main_c_10 : StableHlo.TRef sig ⟨S_, .i32⟩) main_call0.v7 (sitofp .f32),
    StableHlo.TRef.nullary main_call0.cst_1 (constant S_ .f32 0x47435000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S50000x128_S128_d0 h_S_),
    StableHlo.TRef.unary main_call0.v8 main_call0.v10 (broadcastInDim S128 ![] bcast_S_S128),
    StableHlo.TRef.binary main_call0.v9 main_call0.v10 main_call0.v11 Host.divf,
    StableHlo.TRef.nullary main_call0.cst_3 (constant S_ .f32 0x00000000#32),
    StableHlo.TRef.binary main_call0.v8 main_call0.cst_3 main_call0.v12 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S128 ![] bcast_S_S128),
    StableHlo.TRef.ternary main_call0.v12 main_call0.v11 main_call0.call0.v1 main_call0.call0.v2 (fun p a b => select (broadcastInDim S128 ![] bcast_S_S128 p) a b),
    StableHlo.unary main_arg6 main_v59 (extractStridedSlice S1x128 ![0, 0] · slices_S3x128_S1x128_0_0),
    StableHlo.reshape main_v59 main_v60 rfl shapeCasts_S1x128_S128,
    StableHlo.unary main_v57 main_v61 (broadcastInDim S1x128 ![1] bcast_S128_S1x128_1),
    StableHlo.unary main_v61 main_v62 (broadcastInDim S50000x128 ![0, 1] bcast_S1x128_S50000x128_0_1),
    StableHlo.binary main_v54 main_v62 main_v63 subf,
    StableHlo.unary main_v60 main_v64 (broadcastInDim S1x128 ![1] bcast_S128_S1x128_1),
    StableHlo.unary main_v64 main_v65 (broadcastInDim S50000x128 ![0, 1] bcast_S1x128_S50000x128_0_1),
    StableHlo.binary main_v65 main_v63 main_v66 mulf,
    StableHlo.nullary main_cst_11 (constant S_ .f32 0x3727C5AC#32),
    StableHlo.unary main_cst_11 main_v67 (broadcastInDim S128 ![] bcast_S_S128),
    StableHlo.binary main_v58 main_v67 main_v68 addf,
    StableHlo.unary main_v68 main_v69 Host.rsqrt,
    StableHlo.unary main_v69 main_v70 (broadcastInDim S1x128 ![1] bcast_S128_S1x128_1),
    StableHlo.unary main_v70 main_v71 (broadcastInDim S50000x128 ![0, 1] bcast_S1x128_S50000x128_0_1),
    StableHlo.binary main_v66 main_v71 main_v72 mulf,
    StableHlo.unary main_arg7 main_v73 (extractStridedSlice S1x128 ![0, 0] · slices_S3x128_S1x128_0_0),
    StableHlo.reshape main_v73 main_v74 rfl shapeCasts_S1x128_S128,
    StableHlo.unary main_v74 main_v75 (broadcastInDim S1x128 ![1] bcast_S128_S1x128_1),
    StableHlo.unary main_v75 main_v76 (broadcastInDim S50000x128 ![0, 1] bcast_S1x128_S50000x128_0_1),
    StableHlo.binary main_v72 main_v76 main_v77 addf,
    StableHlo.TRef.nullary main_call1.cst (constant S_ .f32 0x00000000#32),
    StableHlo.TRef.unary main_call1.cst main_call1.v0 (broadcastInDim S50000x128 ![] bcast_S_S50000x128),
    StableHlo.TRef.binary (.of main_v77 : StableHlo.TRef sig ⟨S50000x128, .f32⟩) main_call1.v0 main_call1.v1 maximumf ]

/-- The second layer. -/
abbrev opsL1 : List (HloOp τ sig (Elt F)) :=
  [ StableHlo.unary main_arg2 main_v79 (broadcastInDim S50000x1 ![0] bcast_S50000_S50000x1_0),
    StableHlo.unary main_v79 main_v80 (broadcastInDim S50000x128 ![0, 1] bcast_S50000x1_S50000x128_0_1),
    StableHlo.binary main_v78 main_v80 main_v81 mulf,
    StableHlo.unary main_arg4 main_v82 (extractStridedSlice S1x128x128 ![1, 0, 0] · slices_S3x128x128_S1x128x128_1_0_0),
    StableHlo.reshape main_v82 main_v83 rfl shapeCasts_S1x128x128_S128x128,
    StableHlo.unary main_arg5 main_v84 (extractStridedSlice S1x128 ![1, 0] · slices_S3x128_S1x128_1_0),
    StableHlo.reshape main_v84 main_v85 rfl shapeCasts_S1x128_S128,
    StableHlo.binary main_v81 main_v83 main_v86 (Host.dotGeneral dot_S50000x128_S128x128_S50000x128_1_0_0_1_n_n none),
    StableHlo.nullary main_c_12 (constantI S_ 32 0#32),
    StableHlo.unary main_c_12 main_v87 (broadcastInDim S1600000 ![] bcast_S_S1600000),
    StableHlo.binary main_v1 main_v87 main_v88 (cmpi .slt),
    StableHlo.nullary main_c_13 (constantI S_ 32 50000#32),
    StableHlo.unary main_c_13 main_v89 (broadcastInDim S1600000 ![] bcast_S_S1600000),
    StableHlo.binary main_v1 main_v89 main_v90 addi,
    StableHlo.ternary main_v88 main_v90 main_v1 main_v91 select,
    StableHlo.unary main_v91 main_v92 (broadcastInDim S1600000x1 ![0] bcast_S1600000_S1600000x1_0),
    StableHlo.binary main_v10 main_v92 main_v93 (Host.gather gather_S50000_S1600000x1_S1600000_n_0_n_n_0_1_1),
    StableHlo.nullary main_c_14 (constantI S_ 32 0#32),
    StableHlo.unary main_c_14 main_v94 (broadcastInDim S1600000 ![] bcast_S_S1600000),
    StableHlo.binary main_v3 main_v94 main_v95 (cmpi .slt),
    StableHlo.nullary main_c_15 (constantI S_ 32 50000#32),
    StableHlo.unary main_c_15 main_v96 (broadcastInDim S1600000 ![] bcast_S_S1600000),
    StableHlo.binary main_v3 main_v96 main_v97 addi,
    StableHlo.ternary main_v95 main_v97 main_v3 main_v98 select,
    StableHlo.unary main_v98 main_v99 (broadcastInDim S1600000x1 ![0] bcast_S1600000_S1600000x1_0),
    StableHlo.binary main_v10 main_v99 main_v100 (Host.gather gather_S50000_S1600000x1_S1600000_n_0_n_n_0_1_1),
    StableHlo.binary main_v93 main_v100 main_v101 mulf,
    StableHlo.nullary main_c_16 (constantI S_ 32 0#32),
    StableHlo.unary main_c_16 main_v102 (broadcastInDim S1600000 ![] bcast_S_S1600000),
    StableHlo.binary main_v1 main_v102 main_v103 (cmpi .slt),
    StableHlo.nullary main_c_17 (constantI S_ 32 50000#32),
    StableHlo.unary main_c_17 main_v104 (broadcastInDim S1600000 ![] bcast_S_S1600000),
    StableHlo.binary main_v1 main_v104 main_v105 addi,
    StableHlo.ternary main_v103 main_v105 main_v1 main_v106 select,
    StableHlo.unary main_v106 main_v107 (broadcastInDim S1600000x1 ![0] bcast_S1600000_S1600000x1_0),
    StableHlo.binary main_v86 main_v107 main_v108 (Host.gather gather_S50000x128_S1600000x1_S1600000x128_1_0_n_n_0_1_1128),
    StableHlo.unary main_v101 main_v109 (broadcastInDim S1600000x1 ![0] bcast_S1600000_S1600000x1_0),
    StableHlo.unary main_v109 main_v110 (broadcastInDim S1600000x128 ![0, 1] bcast_S1600000x1_S1600000x128_0_1),
    StableHlo.binary main_v108 main_v110 main_v111 mulf,
    StableHlo.nullary main_cst_18 (constant S_ .f32 0x00000000#32),
    StableHlo.unary main_cst_18 main_v112 (broadcastInDim S50000x128 ![] bcast_S_S50000x128),
    StableHlo.unary main_v3 main_v113 (broadcastInDim S1600000x1 ![0] bcast_S1600000_S1600000x1_0),
    StableHlo.ternary main_v112 main_v113 main_v111 main_v114 (Host.scatterAdd scatter_S50000x128_S1600000x1_S1600000x128_1_0_0_1),
    StableHlo.binary main_v10 main_v10 main_v115 mulf,
    StableHlo.unary main_v115 main_v116 (broadcastInDim S50000x1 ![0] bcast_S50000_S50000x1_0),
    StableHlo.unary main_v116 main_v117 (broadcastInDim S50000x128 ![0, 1] bcast_S50000x1_S50000x128_0_1),
    StableHlo.binary main_v86 main_v117 main_v118 mulf,
    StableHlo.binary main_v114 main_v118 main_v119 addf,
    StableHlo.unary main_v85 main_v120 (broadcastInDim S1x128 ![1] bcast_S128_S1x128_1),
    StableHlo.unary main_v120 main_v121 (broadcastInDim S50000x128 ![0, 1] bcast_S1x128_S50000x128_0_1),
    StableHlo.binary main_v119 main_v121 main_v122 addf,
    StableHlo.nullary main_cst_19 (constant S_ .f32 0x00000000#32),
    StableHlo.binary main_v122 main_cst_19 main_v123 (fun x v => Host.reduceAdd x v reducesTo_S50000x128_S128_d0 h_S_),
    StableHlo.nullary main_cst_20 (constant S_ .f32 0x47435000#32),
    StableHlo.unary main_cst_20 main_v124 (broadcastInDim S128 ![] bcast_S_S128),
    StableHlo.binary main_v123 main_v124 main_v125 Host.divf,
    StableHlo.nullary main_c_21 (constantI S_ 32 0#32),
    StableHlo.TRef.nullary main_call2.cst (constant S_ .f32 0x00000000#32),
    StableHlo.TRef.binary (.of main_v122 : StableHlo.TRef sig ⟨S50000x128, .f32⟩) main_call2.cst main_call2.v0 (fun x v => Host.reduceAdd x v reducesTo_S50000x128_S128_d0 h_S_),
    StableHlo.TRef.unary main_call2.v0 main_call2.v1 (broadcastInDim S1x128 ![1] bcast_S128_S1x128_1),
    StableHlo.TRef.nullary main_call2.cst_0 (constant S_ .f32 0x47435000#32),
    StableHlo.TRef.unary main_call2.cst_0 main_call2.v2 (broadcastInDim S1x128 ![] bcast_S_S1x128),
    StableHlo.TRef.binary main_call2.v1 main_call2.v2 main_call2.v3 Host.divf,
    StableHlo.TRef.unary main_call2.v3 main_call2.v4 (broadcastInDim S50000x128 ![0, 1] bcast_S1x128_S50000x128_0_1),
    StableHlo.TRef.binary (.of main_v122 : StableHlo.TRef sig ⟨S50000x128, .f32⟩) main_call2.v4 main_call2.v5 subf,
    StableHlo.TRef.binary main_call2.v5 main_call2.v5 main_call2.v6 mulf,
    StableHlo.TRef.unary (.of main_c_21 : StableHlo.TRef sig ⟨S_, .i32⟩) main_call2.v7 (sitofp .f32),
    StableHlo.TRef.nullary main_call2.cst_1 (constant S_ .f32 0x47435000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S50000x128_S128_d0 h_S_),
    StableHlo.TRef.unary main_call2.v8 main_call2.v10 (broadcastInDim S128 ![] bcast_S_S128),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S128 ![] bcast_S_S128),
    StableHlo.TRef.ternary main_call2.v12 main_call2.v11 main_call2.call0.v1 main_call2.call0.v2 (fun p a b => select (broadcastInDim S128 ![] bcast_S_S128 p) a b),
    StableHlo.unary main_arg6 main_v127 (extractStridedSlice S1x128 ![1, 0] · slices_S3x128_S1x128_1_0),
    StableHlo.reshape main_v127 main_v128 rfl shapeCasts_S1x128_S128,
    StableHlo.unary main_v125 main_v129 (broadcastInDim S1x128 ![1] bcast_S128_S1x128_1),
    StableHlo.unary main_v129 main_v130 (broadcastInDim S50000x128 ![0, 1] bcast_S1x128_S50000x128_0_1),
    StableHlo.binary main_v122 main_v130 main_v131 subf,
    StableHlo.unary main_v128 main_v132 (broadcastInDim S1x128 ![1] bcast_S128_S1x128_1),
    StableHlo.unary main_v132 main_v133 (broadcastInDim S50000x128 ![0, 1] bcast_S1x128_S50000x128_0_1),
    StableHlo.binary main_v133 main_v131 main_v134 mulf,
    StableHlo.nullary main_cst_22 (constant S_ .f32 0x3727C5AC#32),
    StableHlo.unary main_cst_22 main_v135 (broadcastInDim S128 ![] bcast_S_S128),
    StableHlo.binary main_v126 main_v135 main_v136 addf,
    StableHlo.unary main_v136 main_v137 Host.rsqrt,
    StableHlo.unary main_v137 main_v138 (broadcastInDim S1x128 ![1] bcast_S128_S1x128_1),
    StableHlo.unary main_v138 main_v139 (broadcastInDim S50000x128 ![0, 1] bcast_S1x128_S50000x128_0_1),
    StableHlo.binary main_v134 main_v139 main_v140 mulf,
    StableHlo.unary main_arg7 main_v141 (extractStridedSlice S1x128 ![1, 0] · slices_S3x128_S1x128_1_0),
    StableHlo.reshape main_v141 main_v142 rfl shapeCasts_S1x128_S128,
    StableHlo.unary main_v142 main_v143 (broadcastInDim S1x128 ![1] bcast_S128_S1x128_1),
    StableHlo.unary main_v143 main_v144 (broadcastInDim S50000x128 ![0, 1] bcast_S1x128_S50000x128_0_1),
    StableHlo.binary main_v140 main_v144 main_v145 addf,
    StableHlo.TRef.nullary main_call3.cst (constant S_ .f32 0x00000000#32),
    StableHlo.TRef.unary main_call3.cst main_call3.v0 (broadcastInDim S50000x128 ![] bcast_S_S50000x128),
    StableHlo.TRef.binary (.of main_v145 : StableHlo.TRef sig ⟨S50000x128, .f32⟩) main_call3.v0 main_call3.v1 maximumf ]

/-- The third layer. -/
abbrev opsL2 : List (HloOp τ sig (Elt F)) :=
  [ StableHlo.unary main_arg2 main_v147 (broadcastInDim S50000x1 ![0] bcast_S50000_S50000x1_0),
    StableHlo.unary main_v147 main_v148 (broadcastInDim S50000x128 ![0, 1] bcast_S50000x1_S50000x128_0_1),
    StableHlo.binary main_v146 main_v148 main_v149 mulf,
    StableHlo.unary main_arg4 main_v150 (extractStridedSlice S1x128x128 ![2, 0, 0] · slices_S3x128x128_S1x128x128_2_0_0),
    StableHlo.reshape main_v150 main_v151 rfl shapeCasts_S1x128x128_S128x128,
    StableHlo.unary main_arg5 main_v152 (extractStridedSlice S1x128 ![2, 0] · slices_S3x128_S1x128_2_0),
    StableHlo.reshape main_v152 main_v153 rfl shapeCasts_S1x128_S128,
    StableHlo.binary main_v149 main_v151 main_v154 (Host.dotGeneral dot_S50000x128_S128x128_S50000x128_1_0_0_1_n_n none),
    StableHlo.nullary main_c_23 (constantI S_ 32 0#32),
    StableHlo.unary main_c_23 main_v155 (broadcastInDim S1600000 ![] bcast_S_S1600000),
    StableHlo.binary main_v1 main_v155 main_v156 (cmpi .slt),
    StableHlo.nullary main_c_24 (constantI S_ 32 50000#32),
    StableHlo.unary main_c_24 main_v157 (broadcastInDim S1600000 ![] bcast_S_S1600000),
    StableHlo.binary main_v1 main_v157 main_v158 addi,
    StableHlo.ternary main_v156 main_v158 main_v1 main_v159 select,
    StableHlo.unary main_v159 main_v160 (broadcastInDim S1600000x1 ![0] bcast_S1600000_S1600000x1_0),
    StableHlo.binary main_v10 main_v160 main_v161 (Host.gather gather_S50000_S1600000x1_S1600000_n_0_n_n_0_1_1),
    StableHlo.nullary main_c_25 (constantI S_ 32 0#32),
    StableHlo.unary main_c_25 main_v162 (broadcastInDim S1600000 ![] bcast_S_S1600000),
    StableHlo.binary main_v3 main_v162 main_v163 (cmpi .slt),
    StableHlo.nullary main_c_26 (constantI S_ 32 50000#32),
    StableHlo.unary main_c_26 main_v164 (broadcastInDim S1600000 ![] bcast_S_S1600000),
    StableHlo.binary main_v3 main_v164 main_v165 addi,
    StableHlo.ternary main_v163 main_v165 main_v3 main_v166 select,
    StableHlo.unary main_v166 main_v167 (broadcastInDim S1600000x1 ![0] bcast_S1600000_S1600000x1_0),
    StableHlo.binary main_v10 main_v167 main_v168 (Host.gather gather_S50000_S1600000x1_S1600000_n_0_n_n_0_1_1),
    StableHlo.binary main_v161 main_v168 main_v169 mulf,
    StableHlo.nullary main_c_27 (constantI S_ 32 0#32),
    StableHlo.unary main_c_27 main_v170 (broadcastInDim S1600000 ![] bcast_S_S1600000),
    StableHlo.binary main_v1 main_v170 main_v171 (cmpi .slt),
    StableHlo.nullary main_c_28 (constantI S_ 32 50000#32),
    StableHlo.unary main_c_28 main_v172 (broadcastInDim S1600000 ![] bcast_S_S1600000),
    StableHlo.binary main_v1 main_v172 main_v173 addi,
    StableHlo.ternary main_v171 main_v173 main_v1 main_v174 select,
    StableHlo.unary main_v174 main_v175 (broadcastInDim S1600000x1 ![0] bcast_S1600000_S1600000x1_0),
    StableHlo.binary main_v154 main_v175 main_v176 (Host.gather gather_S50000x128_S1600000x1_S1600000x128_1_0_n_n_0_1_1128),
    StableHlo.unary main_v169 main_v177 (broadcastInDim S1600000x1 ![0] bcast_S1600000_S1600000x1_0),
    StableHlo.unary main_v177 main_v178 (broadcastInDim S1600000x128 ![0, 1] bcast_S1600000x1_S1600000x128_0_1),
    StableHlo.binary main_v176 main_v178 main_v179 mulf,
    StableHlo.nullary main_cst_29 (constant S_ .f32 0x00000000#32),
    StableHlo.unary main_cst_29 main_v180 (broadcastInDim S50000x128 ![] bcast_S_S50000x128),
    StableHlo.unary main_v3 main_v181 (broadcastInDim S1600000x1 ![0] bcast_S1600000_S1600000x1_0),
    StableHlo.ternary main_v180 main_v181 main_v179 main_v182 (Host.scatterAdd scatter_S50000x128_S1600000x1_S1600000x128_1_0_0_1),
    StableHlo.binary main_v10 main_v10 main_v183 mulf,
    StableHlo.unary main_v183 main_v184 (broadcastInDim S50000x1 ![0] bcast_S50000_S50000x1_0),
    StableHlo.unary main_v184 main_v185 (broadcastInDim S50000x128 ![0, 1] bcast_S50000x1_S50000x128_0_1),
    StableHlo.binary main_v154 main_v185 main_v186 mulf,
    StableHlo.binary main_v182 main_v186 main_v187 addf,
    StableHlo.unary main_v153 main_v188 (broadcastInDim S1x128 ![1] bcast_S128_S1x128_1),
    StableHlo.unary main_v188 main_v189 (broadcastInDim S50000x128 ![0, 1] bcast_S1x128_S50000x128_0_1),
    StableHlo.binary main_v187 main_v189 main_v190 addf,
    StableHlo.nullary main_cst_30 (constant S_ .f32 0x00000000#32),
    StableHlo.binary main_v190 main_cst_30 main_v191 (fun x v => Host.reduceAdd x v reducesTo_S50000x128_S128_d0 h_S_),
    StableHlo.nullary main_cst_31 (constant S_ .f32 0x47435000#32),
    StableHlo.unary main_cst_31 main_v192 (broadcastInDim S128 ![] bcast_S_S128),
    StableHlo.binary main_v191 main_v192 main_v193 Host.divf,
    StableHlo.nullary main_c_32 (constantI S_ 32 0#32),
    StableHlo.TRef.nullary main_call4.cst (constant S_ .f32 0x00000000#32),
    StableHlo.TRef.binary (.of main_v190 : StableHlo.TRef sig ⟨S50000x128, .f32⟩) main_call4.cst main_call4.v0 (fun x v => Host.reduceAdd x v reducesTo_S50000x128_S128_d0 h_S_),
    StableHlo.TRef.unary main_call4.v0 main_call4.v1 (broadcastInDim S1x128 ![1] bcast_S128_S1x128_1),
    StableHlo.TRef.nullary main_call4.cst_0 (constant S_ .f32 0x47435000#32),
    StableHlo.TRef.unary main_call4.cst_0 main_call4.v2 (broadcastInDim S1x128 ![] bcast_S_S1x128),
    StableHlo.TRef.binary main_call4.v1 main_call4.v2 main_call4.v3 Host.divf,
    StableHlo.TRef.unary main_call4.v3 main_call4.v4 (broadcastInDim S50000x128 ![0, 1] bcast_S1x128_S50000x128_0_1),
    StableHlo.TRef.binary (.of main_v190 : StableHlo.TRef sig ⟨S50000x128, .f32⟩) main_call4.v4 main_call4.v5 subf,
    StableHlo.TRef.binary main_call4.v5 main_call4.v5 main_call4.v6 mulf,
    StableHlo.TRef.unary (.of main_c_32 : StableHlo.TRef sig ⟨S_, .i32⟩) main_call4.v7 (sitofp .f32),
    StableHlo.TRef.nullary main_call4.cst_1 (constant S_ .f32 0x47435000#32),
    StableHlo.TRef.binary main_call4.cst_1 main_call4.v7 main_call4.v8 subf,
    StableHlo.TRef.nullary main_call4.cst_2 (constant S_ .f32 0x00000000#32),
    StableHlo.TRef.binary main_call4.v6 main_call4.cst_2 main_call4.v9 (fun x v => Host.reduceAdd x v reducesTo_S50000x128_S128_d0 h_S_),
    StableHlo.TRef.unary main_call4.v8 main_call4.v10 (broadcastInDim S128 ![] bcast_S_S128),
    StableHlo.TRef.binary main_call4.v9 main_call4.v10 main_call4.v11 Host.divf,
    StableHlo.TRef.nullary main_call4.cst_3 (constant S_ .f32 0x00000000#32),
    StableHlo.TRef.binary main_call4.v8 main_call4.cst_3 main_call4.v12 (cmpf .ogt),
    StableHlo.TRef.nullary main_call4.cst_4 (constant S_ .f32 0x7FC00000#32),
    StableHlo.TRef.unary main_call4.cst_4 main_call4.call0.v0 id,
    StableHlo.TRef.unary main_call4.call0.v0 main_call4.call0.v1 (broadcastInDim S128 ![] bcast_S_S128),
    StableHlo.TRef.ternary main_call4.v12 main_call4.v11 main_call4.call0.v1 main_call4.call0.v2 (fun p a b => select (broadcastInDim S128 ![] bcast_S_S128 p) a b),
    StableHlo.unary main_arg6 main_v195 (extractStridedSlice S1x128 ![2, 0] · slices_S3x128_S1x128_2_0),
    StableHlo.reshape main_v195 main_v196 rfl shapeCasts_S1x128_S128,
    StableHlo.unary main_v193 main_v197 (broadcastInDim S1x128 ![1] bcast_S128_S1x128_1),
    StableHlo.unary main_v197 main_v198 (broadcastInDim S50000x128 ![0, 1] bcast_S1x128_S50000x128_0_1),
    StableHlo.binary main_v190 main_v198 main_v199 subf,
    StableHlo.unary main_v196 main_v200 (broadcastInDim S1x128 ![1] bcast_S128_S1x128_1),
    StableHlo.unary main_v200 main_v201 (broadcastInDim S50000x128 ![0, 1] bcast_S1x128_S50000x128_0_1),
    StableHlo.binary main_v201 main_v199 main_v202 mulf,
    StableHlo.nullary main_cst_33 (constant S_ .f32 0x3727C5AC#32),
    StableHlo.unary main_cst_33 main_v203 (broadcastInDim S128 ![] bcast_S_S128),
    StableHlo.binary main_v194 main_v203 main_v204 addf,
    StableHlo.unary main_v204 main_v205 Host.rsqrt,
    StableHlo.unary main_v205 main_v206 (broadcastInDim S1x128 ![1] bcast_S128_S1x128_1),
    StableHlo.unary main_v206 main_v207 (broadcastInDim S50000x128 ![0, 1] bcast_S1x128_S50000x128_0_1),
    StableHlo.binary main_v202 main_v207 main_v208 mulf,
    StableHlo.unary main_arg7 main_v209 (extractStridedSlice S1x128 ![2, 0] · slices_S3x128_S1x128_2_0),
    StableHlo.reshape main_v209 main_v210 rfl shapeCasts_S1x128_S128,
    StableHlo.unary main_v210 main_v211 (broadcastInDim S1x128 ![1] bcast_S128_S1x128_1),
    StableHlo.unary main_v211 main_v212 (broadcastInDim S50000x128 ![0, 1] bcast_S1x128_S50000x128_0_1),
    StableHlo.binary main_v208 main_v212 main_v213 addf,
    StableHlo.TRef.nullary main_call5.cst (constant S_ .f32 0x00000000#32),
    StableHlo.TRef.unary main_call5.cst main_call5.v0 (broadcastInDim S50000x128 ![] bcast_S_S50000x128),
    StableHlo.TRef.binary (.of main_v213 : StableHlo.TRef sig ⟨S50000x128, .f32⟩) main_call5.v0 main_call5.v1 maximumf ]

/-- The masked pool per group, the division by the member counts and the output product. -/
abbrev opsPost : List (HloOp τ sig (Elt F)) :=
  [ StableHlo.unary main_arg2 main_v215 (broadcastInDim S50000x1 ![0] bcast_S50000_S50000x1_0),
    StableHlo.unary main_v215 main_v216 (broadcastInDim S50000x128 ![0, 1] bcast_S50000x1_S50000x128_0_1),
    StableHlo.binary main_v214 main_v216 main_v217 mulf,
    StableHlo.nullary main_cst_34 (constant S_ .f32 0x3F800000#32),
    StableHlo.unary main_cst_34 main_v218 (broadcastInDim S50000 ![] bcast_S_S50000),
    StableHlo.nullary main_cst_35 (constant S_ .f32 0x00000000#32),
    StableHlo.unary main_cst_35 main_v219 (broadcastInDim S64 ![] bcast_S_S64),
    StableHlo.unary main_arg3 main_v220 (broadcastInDim S50000x1 ![0] bcast_S50000_S50000x1_0),
    StableHlo.ternary main_v219 main_v220 main_v218 main_v221 (Host.scatterAdd scatter_S64_S50000x1_S50000_n_0_0_1),
    StableHlo.nullary main_cst_36 (constant S_ .f32 0x00000000#32),
    StableHlo.unary main_cst_36 main_v222 (broadcastInDim S64x128 ![] bcast_S_S64x128),
    StableHlo.unary main_arg3 main_v223 (broadcastInDim S50000x1 ![0] bcast_S50000_S50000x1_0),
    StableHlo.ternary main_v222 main_v223 main_v217 main_v224 (Host.scatterAdd scatter_S64x128_S50000x1_S50000x128_1_0_0_1),
    StableHlo.nullary main_cst_37 (constant S_ .f32 0x3F800000#32),
    StableHlo.unary main_cst_37 main_v225 (broadcastInDim S64 ![] bcast_S_S64),
    StableHlo.binary main_v221 main_v225 main_v226 maximumf,
    StableHlo.unary main_v226 main_v227 (broadcastInDim S64x1 ![0] bcast_S64_S64x1_0),
    StableHlo.unary main_v227 main_v228 (broadcastInDim S64x128 ![0, 1] bcast_S64x1_S64x128_0_1),
    StableHlo.binary main_v224 main_v228 main_v229 Host.divf,
    StableHlo.binary main_v229 main_arg8 main_v230 (Host.dotGeneral dot_S64x128_S128x1_S64x1_1_0_0_1_n_n none),
    StableHlo.unary main_arg9 main_v231 (broadcastInDim S1x1 ![1] bcast_S1_S1x1_1),
    StableHlo.unary main_v231 main_v232 (broadcastInDim S64x1 ![0, 1] bcast_S1x1_S64x1_0_1),
    StableHlo.binary main_v230 main_v232 main_v233 addf,
    StableHlo.reshape main_v233 main_v234 rfl shapeCasts_S64x1_S64 ]

abbrev ops : List (HloOp τ sig (Elt F)) := opsPre ++ (opsL0 ++ (opsL1 ++ (opsL2 ++ opsPost)))

end Cert.ReferenceIdeal.RefRun

end
-- ==== Proof.RefRun.lean ====
import proofs.«408352_j17944373363255_2_alg».proof.Proof.RefOps

noncomputable section

namespace Cert.ReferenceIdeal.RefRun

open Cert.ReferenceIdeal Cert.ReferenceIdeal.Gen Idealize.ShloMosaic Idealize.ShloMosaic.TcCoe Idealize.SL.Sem
open Idealize.ShloMosaic.StableHlo

variable {F : FTy → Type} [FloatOps F]

theorem main_part0_eq (d : Dev nD) : main_part0 (F := F) d = seq ((ops : List (HloOp τ sig (Elt F))).take 60) := rfl

theorem main_part1_eq (d : Dev nD) : main_part1 (F := F) d = seq (((ops : List (HloOp τ sig (Elt F))).drop 60).take 83) := rfl

theorem main_part2_eq (d : Dev nD) : main_part2 (F := F) d = seq ((((ops : List (HloOp τ sig (Elt F))).drop 60).drop 83).take 83) := rfl

theorem main_part3_eq (d : Dev nD) : main_part3 (F := F) d = seq (((((ops : List (HloOp τ sig (Elt F))).drop 60).drop 83).drop 83).take 81) := rfl

theorem main_part4_eq (d : Dev nD) : main_part4 (F := F) d = seq (((((ops : List (HloOp τ sig (Elt F))).drop 60).drop 83).drop 83).drop 81) := rfl

theorem ops_split :
    (ops : List (HloOp τ sig (Elt F))).take 60 ++ (((ops : List (HloOp τ sig (Elt F))).drop 60).take 83 ++ ((((ops : List (HloOp τ sig (Elt F))).drop 60).drop 83).take 83 ++ (((((ops : List (HloOp τ sig (Elt F))).drop 60).drop 83).drop 83).take 81 ++ ((((ops : List (HloOp τ sig (Elt F))).drop 60).drop 83).drop 83).drop 81))) = (ops : List (HloOp τ sig (Elt F))) := by
  simp only [List.take_append_drop]

/-- The printed program is the line: its five parts are consecutive stretches of it. -/
theorem main_eq (d : Dev nD) : main (F := F) d = seq ops := by
  rw [← ops_split, seq_append, seq_append, seq_append, seq_append, ← main_part0_eq d, ← main_part1_eq d,
    ← main_part2_eq d, ← main_part3_eq d, ← main_part4_eq d]
  rfl

theorem scopedRefs_eq : (Finset.univ.filter fun b : Ref sig .tc => b.isScoped) = ∅ := by decide

theorem scopedSems_eq : (Finset.univ.filter fun sm : SemLoc sig => sm.isScoped .tc) = ∅ := by decide

/-- Every operation of the line touches TensorCore buffers only. -/
theorem ops_sub : (ops : List (HloOp τ sig (Elt F))).Forall fun op => op.bufs ⊆ tcRefs τ sig := by
  repeat' apply And.intro
  all_goals simp only [List.Forall, nullary_bufs_sub, unary_bufs_sub, binary_bufs_sub, ternary_bufs_sub, reshape_bufs_sub]

/-- No operation of the line leaves a buffer's contents undetermined. -/
theorem ops_fresh : ∀ op ∈ (ops : List (HloOp τ sig (Elt F))), op.fresh = ∅ :=
  List.forall_iff_forall_mem.mp (by
    repeat' apply And.intro
    all_goals rfl)

/-- Every weakly fair execution ends with each buffer at the fold of the line over the launch contents. -/
theorem run (m : (ℓ : Loc nD τ sig) → Buf (Elt F) ℓ) (ρ : Dev nD → PrngReg) :
    θ_run (defs (F := F)) (onTc (τ := τ) (main (F := F))) ⟨m, fun _ => 0, ρ⟩ fun r =>
      ∀ (d : Dev nD) (b : Ref sig .tc), r.2.mem ((d.tc : Thread nD τ).loc b) = StableHlo.after ops (StableHlo.launchContents m d) (Proc.devRef .tc b) :=
  run_seq scopedRefs_eq scopedSems_eq defs main (fun _ => ops) main_eq (fun _ => ops_sub) m ρ (fun _ => ops_fresh)

end Cert.ReferenceIdeal.RefRun

end
-- ==== Proof.Law.lean ====
import proofs.«408352_j17944373363255_2_alg».proof.Proof.Spec

noncomputable section

namespace Gcn

open Idealize.ShloMosaic Idealize.ShloMosaic.ValueIdx

def AllR (a : Arr) : Prop := ∀ i, IsR (a i)

theorem nRows_eq : nRows = ((50000 : ℝ) : EReal) := by
  simp [nRows, Ideal.ofBits, Ideal.ieee, -EReal.coe_mul]; norm_num

theorem eps_real : ∃ e : ℝ, 0 < e ∧ eps = (e : EReal) := by
  have h : eps = ((10995116 * (2 : ℝ) ^ (-40 : Int) : ℝ) : EReal) := by
    simp [eps, Ideal.ofBits, Ideal.ieee, -EReal.coe_mul]
  exact ⟨_, by positivity, h⟩

theorem IsR.zero : IsR 0 := ⟨0, EReal.coe_zero.symm⟩
theorem IsR.one : IsR 1 := ⟨1, EReal.coe_one.symm⟩
theorem IsR.add {x y : EReal} (hx : IsR x) (hy : IsR y) : IsR (x + y) := by
  obtain ⟨a, rfl⟩ := hx; obtain ⟨b, rfl⟩ := hy; exact ⟨a + b, (EReal.coe_add a b).symm⟩
theorem IsR.sub {x y : EReal} (hx : IsR x) (hy : IsR y) : IsR (x - y) := by
  obtain ⟨a, rfl⟩ := hx; obtain ⟨b, rfl⟩ := hy; exact ⟨a - b, (EReal.coe_sub a b).symm⟩
theorem IsR.mul {x y : EReal} (hx : IsR x) (hy : IsR y) : IsR (x * y) := by
  obtain ⟨a, rfl⟩ := hx; obtain ⟨b, rfl⟩ := hy; exact ⟨a * b, (EReal.coe_mul a b).symm⟩
theorem IsR.max {x y : EReal} (hx : IsR x) (hy : IsR y) : IsR (max x y) := by
  rcases le_total x y with h | h
  · rw [max_eq_right h]; exact hy
  · rw [max_eq_left h]; exact hx
theorem IsR.sum {ι : Type} (s : Finset ι) (f : ι → EReal) (h : ∀ i ∈ s, IsR (f i)) : IsR (∑ i ∈ s, f i) := by
  classical
  induction s using Finset.induction_on with
  | empty => simpa using IsR.zero
  | insert a s ha ih =>
    rw [Finset.sum_insert ha]
    exact (h a (Finset.mem_insert_self a s)).add (ih fun i hi => h i (Finset.mem_insert_of_mem hi))
theorem IsR.ite {p : Prop} [Decidable p] {x y : EReal} (hx : IsR x) (hy : IsR y) : IsR (if p then x else y) := by
  split_ifs
  · exact hx
  · exact hy
theorem IsR.div_nRows {x : EReal} (hx : IsR x) : IsR (Ideal.div x nRows) := by
  rw [nRows_eq, Ideal.div_coe (by norm_num)]
  exact hx.mul ⟨_, rfl⟩

theorem IsR.rsqrt_pos {r : ℝ} (hr : 0 < r) : IsR (Ideal.rsqrt (r : EReal)) := by
  rw [Ideal.rsqrt_coe, if_neg (not_lt.mpr hr.le), if_neg hr.ne']
  exact ⟨_, rfl⟩

private theorem coe_sum {ι : Type} (s : Finset ι) (g : ι → ℝ) :
    ((∑ i ∈ s, g i : ℝ) : EReal) = ∑ i ∈ s, (g i : EReal) := by
  classical
  induction s using Finset.induction_on with
  | empty => simp
  | insert a s ha ih => rw [Finset.sum_insert ha, Finset.sum_insert ha, EReal.coe_add, ih]

private theorem var_real {ι : Type} [Fintype ι] (g : ι → ℝ) (c : ℝ) (hc : (Fintype.card ι : ℝ) * c = 1) :
    (∑ n, g n * g n) * c - (∑ n, g n) * c * ((∑ n, g n) * c)
      = (∑ n, (g n - (∑ k, g k) * c) * (g n - (∑ k, g k) * c)) * c := by
  have h1 : ∑ n, (g n - (∑ k, g k) * c) * (g n - (∑ k, g k) * c)
      = (∑ n, g n * g n) - 2 * ((∑ k, g k) * c) * (∑ n, g n)
        + (Fintype.card ι : ℝ) * (((∑ k, g k) * c) * ((∑ k, g k) * c)) := by
    have h2 : ∀ n, (g n - (∑ k, g k) * c) * (g n - (∑ k, g k) * c)
        = g n * g n - 2 * ((∑ k, g k) * c) * g n + ((∑ k, g k) * c) * ((∑ k, g k) * c) := fun n => by ring
    simp only [h2]
    rw [Finset.sum_add_distrib, Finset.sum_sub_distrib, ← Finset.mul_sum, Finset.sum_const, Finset.card_univ,
      nsmul_eq_mul]
  rw [h1]
  linear_combination (-(((∑ k, g k) * c) * ((∑ k, g k) * c))) * hc

/-- On real entries the mean of the squares less the squared mean is the mean of the squared deviations. -/
theorem var_eq (a : Arr) (ha : AllR a) : varK a = varR a := by
  choose f hf using ha
  funext d
  have hN : (50000 : ℝ) ≠ 0 := by norm_num
  simp only [varK, varR, colMean, colSum, colSumSq, nRows_eq, Ideal.div_coe hN, hf]
  simp only [← EReal.coe_mul, ← coe_sum, ← EReal.coe_sub]
  exact congrArg _ (var_real (fun n => f (ix2 n d)) (1 / 50000) (by simp))

theorem hwOf_real {mask : Fin 50000 → EReal} {Wt : Fin 128 → Fin 128 → EReal} {h : Arr}
    (hmask : ∀ n, IsR (mask n)) (hW : ∀ k d, IsR (Wt k d)) (hh : AllR h) : AllR (hwOf mask Wt h) := by
  intro i
  exact IsR.sum _ _ fun k _ => ((hh _).mul (hmask _)).mul (hW _ _)

theorem aggOf_real {Msg : Arr → Arr} {dd : Fin 50000 → EReal} {b : Col} {hw : Arr}
    (hMsg : ∀ u, AllR u → AllR (Msg u)) (hdd : ∀ n, IsR (dd n)) (hb : ∀ d, IsR (b d)) (hhw : AllR hw) :
    AllR (aggOf Msg dd b hw) := by
  intro i
  exact ((hMsg hw hhw i).add ((hhw i).mul (hdd _))).add (hb _)

/-- A layer's value does not depend on the form of the variance when its input and parameters are real. -/
theorem layer_eq (Msg : Arr → Arr) (dd mask : Fin 50000 → EReal) (Wt : Fin 128 → Fin 128 → EReal) (b γ β : Col) (h : Arr)
    (ha : AllR (aggOf Msg dd b (hwOf mask Wt h))) :
    layerK Msg dd mask Wt b γ β h = layerR Msg dd mask Wt b γ β h := by
  unfold layerK layerR
  rw [var_eq _ ha]

private theorem colMean_real {a : Arr} (ha : AllR a) (d : Fin 128) : IsR (colMean a d) :=
  IsR.div_nRows (IsR.sum _ _ fun n _ => ha (ix2 n d))

private theorem varR_nonneg {a : Arr} (ha : AllR a) (d : Fin 128) : ∃ v : ℝ, 0 ≤ v ∧ varR a d = (v : EReal) := by
  obtain ⟨m, hm⟩ := colMean_real ha d
  choose f hf using ha
  have hN : (50000 : ℝ) ≠ 0 := by norm_num
  refine ⟨(∑ n : Fin 50000, (f (ix2 n d) - m) * (f (ix2 n d) - m)) * (1 / 50000), ?_, ?_⟩
  · exact mul_nonneg (Finset.sum_nonneg fun n _ => mul_self_nonneg _) (by norm_num)
  · simp only [varR, hm, nRows_eq, Ideal.div_coe hN, hf]
    simp only [← EReal.coe_mul, ← coe_sum, ← EReal.coe_sub]

/-- A layer keeps entries real: the variance is nonnegative, so the inverse square root is taken of a positive real. -/
theorem layerR_real {Msg : Arr → Arr} {dd mask : Fin 50000 → EReal} {Wt : Fin 128 → Fin 128 → EReal} {b γ β : Col} {h : Arr}
    (hMsg : ∀ u, AllR u → AllR (Msg u)) (hdd : ∀ n, IsR (dd n)) (hmask : ∀ n, IsR (mask n)) (hW : ∀ k d, IsR (Wt k d))
    (hb : ∀ d, IsR (b d)) (hγ : ∀ d, IsR (γ d)) (hβ : ∀ d, IsR (β d)) (hh : AllR h) :
    AllR (layerR Msg dd mask Wt b γ β h) := by
  have hA : AllR (aggOf Msg dd b (hwOf mask Wt h)) := aggOf_real hMsg hdd hb (hwOf_real hmask hW hh)
  intro i
  unfold layerR bn
  obtain ⟨v, hv, hvar⟩ := varR_nonneg hA (i 1)
  obtain ⟨e, he, hee⟩ := eps_real
  have hrs : IsR (Ideal.rsqrt (varR (aggOf Msg dd b (hwOf mask Wt h)) (i 1) + eps)) := by
    rw [hvar, hee, ← EReal.coe_add]
    exact IsR.rsqrt_pos (by linarith)
  exact ((((hγ _).mul ((hA i).sub (colMean_real hA _))).mul hrs).add (hβ _)).max IsR.zero

/-- The two arrangements of the three-layer network agree, layer after layer, on real inputs. -/
theorem net_eq (Msg : Arr → Arr) (dd mask : Fin 50000 → EReal) (Wt : Fin 3 → Fin 128 → Fin 128 → EReal) (b γ β : Fin 3 → Col) (x : Arr)
    (hMsg : ∀ u, AllR u → AllR (Msg u)) (hdd : ∀ n, IsR (dd n)) (hmask : ∀ n, IsR (mask n)) (hW : ∀ l k d, IsR (Wt l k d))
    (hb : ∀ l d, IsR (b l d)) (hγ : ∀ l d, IsR (γ l d)) (hβ : ∀ l d, IsR (β l d)) (hx : AllR x) :
    netK Msg dd mask Wt b γ β x = netR Msg dd mask Wt b γ β x := by
  have h1 := layerR_real hMsg hdd hmask (hW 0) (hb 0) (hγ 0) (hβ 0) hx
  have h2 := layerR_real hMsg hdd hmask (hW 1) (hb 1) (hγ 1) (hβ 1) h1
  have hA : ∀ (l : Fin 3) (u : Arr), AllR u → AllR (aggOf Msg dd (b l) (hwOf mask (Wt l) u)) :=
    fun l u hu => aggOf_real hMsg hdd (hb l) (hwOf_real hmask (hW l) hu)
  unfold netK netR
  rw [layer_eq _ _ _ _ _ _ _ _ (hA 0 x hx), layer_eq _ _ _ _ _ _ _ _ (hA 1 _ h1),
    layer_eq _ _ _ _ _ _ _ _ (hA 2 _ h2)]

/-- A zero-one factor times a term is the term or zero. -/
theorem pool_eq (P : Fin 50000 → Fin 64 → Prop) [∀ n g, Decidable (P n g)] (mask : Fin 50000 → EReal) (h : Arr) :
    poolK P mask h = poolR P mask h := by
  funext j
  simp only [poolK, poolR, poolKAt, poolRAt]
  refine Finset.sum_congr rfl fun n _ => ?_
  split_ifs
  · rw [one_mul]
  · rw [zero_mul]

end Gcn

end
-- ==== Proof.RStages.lean ====
import proofs.«408352_j17944373363255_2_alg».proof.Proof.Shared
import proofs.«408352_j17944373363255_2_alg».proof.Proof.Law
import Idealize.ShloMosaic.Lib.IdealHost
import Idealize.ShloMosaic.Lib.Pipeline.Value
import Idealize.ShloMosaic.Lib.StableHlo.Run

noncomputable section

namespace Cert.ReferenceIdeal.RStages

open Cert.ReferenceIdeal Cert.ReferenceIdeal.Shared Idealize.ShloMosaic Idealize.ShloMosaic.TcCoe Idealize.ShloMosaic.ValueIdx
open Idealize.SL.Sem Idealize.ShloMosaic.StableHlo

variable (l : Fin 3) (sW : S3x128x128.Slices ![l.val, 0, 0] S1x128x128) (sR : S3x128.Slices ![l.val, 0] S1x128)
  (ei : IVec S2x1600000 32) (a2 : FVec Ideal S50000 .f32) (a4 : FVec Ideal S3x128x128 .f32)
  (a5 a6 a7 : FVec Ideal S3x128 .f32) (W : FVec Ideal S128x128 .f32) (b γ β mu va : FVec Ideal S128 .f32)
  (di : FVec Ideal S50000 .f32) (h a ag x : FVec Ideal S50000x128 .f32) (n : Fin 50000) (k d : Fin 128)

theorem rowsBcast_apply :
    broadcastInDim S50000x128 ![0, 1] Gen.bcast_S50000x1_S50000x128_0_1
      (broadcastInDim S50000x1 ![0] Gen.bcast_S50000_S50000x1_0 a2) (ix2 n d) = a2 (ix1 n) :=
  (broadcastInDim_apply _ _ _ (ix2 n d) (ix2 n (0 : Fin 1)) (Fin.forall_fin_two.2 ⟨rfl, rfl⟩)).trans
    (broadcastInDim_apply _ _ a2 _ (ix1 n) (Fin.forall_fin_one.2 rfl))

theorem colsBcast_apply :
    broadcastInDim S50000x128 ![0, 1] Gen.bcast_S1x128_S50000x128_0_1
      (broadcastInDim S1x128 ![1] Gen.bcast_S128_S1x128_1 b) (ix2 n d) = b (ix1 d) :=
  (broadcastInDim_apply _ _ _ (ix2 n d) (ix2 (0 : Fin 1) d) (Fin.forall_fin_two.2 ⟨rfl, rfl⟩)).trans
    (broadcastInDim_apply _ _ b _ (ix1 d) (Fin.forall_fin_one.2 rfl))

/-- Matrix l of the stacked weights, as a 128 by 128 array. -/
def wT : FVec Ideal S128x128 .f32 :=
  shapeCast S128x128 (extractStridedSlice S1x128x128 ![l.val, 0, 0] a4 sW) Gen.shapeCasts_S1x128x128_S128x128

theorem wT_apply : wT l sW a4 (ix2 k d) = wtOf a4 l k d := by
  unfold wT
  rw [shapeCast_dropUnit_apply]
  exact extractStridedSlice_apply _ _ _ _ (ix3 l k d)
    (Fin.forall_fin_succ.2 ⟨rfl, Fin.forall_fin_two.2 ⟨(Nat.zero_add _).symm, (Nat.zero_add _).symm⟩⟩)

/-- Row l of a stacked 3 by 128 parameter, as a vector of 128. -/
def rowT (a : FVec Ideal S3x128 .f32) : FVec Ideal S128 .f32 :=
  shapeCast S128 (extractStridedSlice S1x128 ![l.val, 0] a sR) Gen.shapeCasts_S1x128_S128

theorem rowT_apply : rowT l sR a5 (ix1 d) = rowOf a5 l d := by
  unfold rowT
  rw [shapeCast_dropUnit_apply]
  exact extractStridedSlice_apply _ _ _ _ (ix2 l d) (Fin.forall_fin_two.2 ⟨rfl, (Nat.zero_add _).symm⟩)

/-- h with row n scaled by a2 n, times W. -/
def hwT : FVec Ideal S50000x128 .f32 :=
  Host.dotGeneral (F := Ideal) dot_S50000x128_S128x128_S50000x128_1_0_0_1_n_n none
    (mulf h (broadcastInDim S50000x128 ![0, 1] Gen.bcast_S50000x1_S50000x128_0_1
      (broadcastInDim S50000x1 ![0] Gen.bcast_S50000_S50000x1_0 a2))) W

theorem hw_lhs_0 (i : S50000x128.Idx) (q : dot_S50000x128_S128x128_S50000x128_1_0_0_1_n_n.contr.Idx) :
    (dot_S50000x128_S128x128_S50000x128_1_0_0_1_n_n.lhsIdx i q 0).val = (i 0).val := by
  unfold DotDims.lhsIdx
  rw [dif_neg (show ¬(0 : Fin S50000x128.rank) ∈ dot_S50000x128_S128x128_S50000x128_1_0_0_1_n_n.lhsBatch by decide),
    dif_pos (show (0 : Fin S50000x128.rank) ∈ dot_S50000x128_S128x128_S50000x128_1_0_0_1_n_n.lhsNonContracting by decide)]
  rfl
theorem hw_rhs_1 (i : S50000x128.Idx) (q : dot_S50000x128_S128x128_S50000x128_1_0_0_1_n_n.contr.Idx) :
    (dot_S50000x128_S128x128_S50000x128_1_0_0_1_n_n.rhsIdx i q 1).val = (i 1).val := by
  unfold DotDims.rhsIdx
  rw [dif_neg (show ¬(1 : Fin S128x128.rank) ∈ dot_S50000x128_S128x128_S50000x128_1_0_0_1_n_n.rhsBatch by decide),
    dif_pos (show (1 : Fin S128x128.rank) ∈ dot_S50000x128_S128x128_S50000x128_1_0_0_1_n_n.rhsNonContracting by decide)]
  rfl

/-- At output (n, d) and contraction position k the left operand is read at (n, k), the right at (k, d). -/
theorem hwT_apply : hwT a2 W h (ix2 n d) = ∑ k : Fin 128, (h (ix2 n k) * a2 (ix1 n)) * W (ix2 k d) := by
  unfold hwT
  simp only [Host.dotGeneral]
  rw [Ideal.dotGeneral_apply,
    ← Equiv.sum_comp (contrEquiv1 dot_S50000x128_S128x128_S50000x128_1_0_0_1_n_n 128 rfl rfl).symm]
  refine Finset.sum_congr rfl fun k _ => ?_
  have hk := contrEquiv1_symm_val dot_S50000x128_S128x128_S50000x128_1_0_0_1_n_n 128 rfl rfl k
  rw [show dot_S50000x128_S128x128_S50000x128_1_0_0_1_n_n.lhsIdx (ix2 n d) _ = ix2 n k from
      funext (Fin.forall_fin_two.2 ⟨Fin.ext (hw_lhs_0 _ _),
        Fin.ext ((dot_S50000x128_S128x128_S50000x128_1_0_0_1_n_n.lhsIdx_val_of_single rfl _ _).trans hk)⟩),
    show dot_S50000x128_S128x128_S50000x128_1_0_0_1_n_n.rhsIdx (ix2 n d) _ = ix2 k d from
      funext (Fin.forall_fin_two.2 ⟨Fin.ext ((dot_S50000x128_S128x128_S50000x128_1_0_0_1_n_n.rhsIdx_val_of_single rfl _ _).trans hk),
        Fin.ext (hw_rhs_1 _ _)⟩),
    mulf_apply, rowsBcast_apply]

/-- ag, plus x with row n scaled by the square of di n, plus b along every row. -/
def aggT : FVec Ideal S50000x128 .f32 :=
  addf
    (addf ag
      (mulf x (broadcastInDim S50000x128 ![0, 1] Gen.bcast_S50000x1_S50000x128_0_1
        (broadcastInDim S50000x1 ![0] Gen.bcast_S50000_S50000x1_0 (mulf di di)))))
    (broadcastInDim S50000x128 ![0, 1] Gen.bcast_S1x128_S50000x128_0_1 (broadcastInDim S1x128 ![1] Gen.bcast_S128_S1x128_1 b))

theorem aggT_apply :
    aggT b di ag x (ix2 n d) = ag (ix2 n d) + x (ix2 n d) * (di (ix1 n) * di (ix1 n)) + b (ix1 d) := by
  unfold aggT
  rw [addf_apply, addf_apply, mulf_apply, rowsBcast_apply, colsBcast_apply, mulf_apply]

def sumT : FVec Ideal S128 .f32 :=
  Host.reduceAdd a (constant (F := Ideal) S_ .f32 0x00000000#32) Gen.reducesTo_S50000x128_S128_d0 Gen.h_S_

theorem sumT_apply : sumT a (ix1 d) = ∑ n : Fin 50000, a (ix2 n d) := by
  unfold sumT
  rw [hostReduceAdd_apply, Ideal.hostReduceAdd_single Gen.reducesTo_S50000x128_S128_d0 (by decide), constant_apply,
    Ideal.ofBits_zero_f32, zero_add]
  exact Finset.sum_congr rfl fun k _ => congrArg a (funext (Fin.forall_fin_two.2 ⟨rfl, rfl⟩))

def meanT : FVec Ideal S128 .f32 :=
  Host.divf (sumT a) (broadcastInDim S128 ![] Gen.bcast_S_S128 (constant (F := Ideal) S_ .f32 0x47435000#32))

theorem meanT_apply : meanT a (ix1 d) = Gcn.colMean a d := by
  unfold meanT Gcn.colMean Gcn.colSum Gcn.nRows
  rw [hostDivf_apply, broadcastInDim_scalar_apply, constant_apply, sumT_apply]

/-- Every entry less its column's mean. -/
def devT : FVec Ideal S50000x128 .f32 :=
  subf a
    (broadcastInDim S50000x128 ![0, 1] Gen.bcast_S1x128_S50000x128_0_1
      (Host.divf (broadcastInDim S1x128 ![1] Gen.bcast_S128_S1x128_1 (sumT a))
        (broadcastInDim S1x128 ![] Gen.bcast_S_S1x128 (constant (F := Ideal) S_ .f32 0x47435000#32))))

theorem devT_apply : devT a (ix2 n d) = a (ix2 n d) - Gcn.colMean a d := by
  unfold devT Gcn.colMean Gcn.colSum Gcn.nRows
  rw [subf_apply, broadcastInDim_apply _ _ _ (ix2 n d) (ix2 (0 : Fin 1) d) (Fin.forall_fin_two.2 ⟨rfl, rfl⟩),
    hostDivf_apply, broadcastInDim_scalar_apply, constant_apply,
    broadcastInDim_apply _ _ (sumT a) _ (ix1 d) (Fin.forall_fin_one.2 rfl), sumT_apply]

/-- The row count less the integer word c read as a float. -/
def cntT (c : IVec S_ 32) : FVec Ideal S_ .f32 :=
  subf (constant (F := Ideal) S_ .f32 0x47435000#32) (sitofp .f32 c)

/-- The column sums of the squared deviations over cntT c, where cntT c is positive. -/
def varT (c : IVec S_ 32) : FVec Ideal S128 .f32 :=
  select (broadcastInDim S128 ![] Gen.bcast_S_S128 (cmpf .ogt (cntT c) (constant (F := Ideal) S_ .f32 0x00000000#32)))
    (Host.divf (sumT (mulf (devT a) (devT a))) (broadcastInDim S128 ![] Gen.bcast_S_S128 (cntT c)))
    (broadcastInDim S128 ![] Gen.bcast_S_S128 (id (constant (F := Ideal) S_ .f32 0x7FC00000#32)))

theorem cntT_zero : cntT (constantI S_ 32 0#32) ix0 = Gcn.nRows := by
  unfold cntT Gcn.nRows
  rw [subf_apply, constant_apply, sitofp_apply]
  show _ - ((((0#32 : BitVec 32).toInt : ℤ) : ℝ) : EReal) = _
  rw [BitVec.toInt_zero, Int.cast_zero, EReal.coe_zero, sub_zero]

/-- At the zero word the divisor is the row count, which is positive, so the guard holds. -/
theorem varT_apply : varT a (constantI S_ 32 0#32) (ix1 d) = Gcn.varR a d := by
  have hpos : Ideal.cmp .ogt Gcn.nRows 0 = 1#1 := by
    unfold Ideal.cmp
    simp [Gcn.nRows_eq]
  unfold varT
  rw [select_apply, broadcastInDim_scalar_apply, broadcastInDim_scalar_apply, cmpf_apply, Ideal.cmpf_def, cntT_zero,
    constant_apply, Ideal.ofBits_zero_f32, hpos, select_one, hostDivf_apply, broadcastInDim_scalar_apply, cntT_zero,
    sumT_apply]
  unfold Gcn.varR
  exact congrArg (Ideal.div · Gcn.nRows) (Finset.sum_congr rfl fun n _ => by rw [mulf_apply, devT_apply])

/-- The larger of zero and γ (a - mu) / sqrt (va + eps) + β, with γ, β, mu and va along every row. -/
def bnT : FVec Ideal S50000x128 .f32 :=
  maximumf
    (addf
      (mulf
        (mulf
          (broadcastInDim S50000x128 ![0, 1] Gen.bcast_S1x128_S50000x128_0_1 (broadcastInDim S1x128 ![1] Gen.bcast_S128_S1x128_1 γ))
          (subf a
            (broadcastInDim S50000x128 ![0, 1] Gen.bcast_S1x128_S50000x128_0_1 (broadcastInDim S1x128 ![1] Gen.bcast_S128_S1x128_1 mu))))
        (broadcastInDim S50000x128 ![0, 1] Gen.bcast_S1x128_S50000x128_0_1
          (broadcastInDim S1x128 ![1] Gen.bcast_S128_S1x128_1
            (Host.rsqrt (F := Ideal)
              (addf va (broadcastInDim S128 ![] Gen.bcast_S_S128 (constant (F := Ideal) S_ .f32 0x3727C5AC#32)))))))
      (broadcastInDim S50000x128 ![0, 1] Gen.bcast_S1x128_S50000x128_0_1 (broadcastInDim S1x128 ![1] Gen.bcast_S128_S1x128_1 β)))
    (broadcastInDim S50000x128 ![] Gen.bcast_S_S50000x128 (constant (F := Ideal) S_ .f32 0x00000000#32))

theorem bnT_apply :
    bnT γ β mu va a (ix2 n d)
      = max (γ (ix1 d) * (a (ix2 n d) - mu (ix1 d)) * Ideal.rsqrt (va (ix1 d) + Gcn.eps) + β (ix1 d)) 0 := by
  unfold bnT
  rw [maximumf_apply, addf_apply, mulf_apply, mulf_apply, subf_apply, colsBcast_apply, colsBcast_apply, colsBcast_apply,
    colsBcast_apply, broadcastInDim_scalar_apply, constant_apply, Ideal.ofBits_zero_f32]
  show max (γ (ix1 d) * (a (ix2 n d) - mu (ix1 d))
      * Ideal.rsqrt (va (ix1 d) + broadcastInDim S128 ![] Gen.bcast_S_S128 (constant (F := Ideal) S_ .f32 0x3727C5AC#32) (ix1 d))
      + β (ix1 d)) 0 = _
  rw [broadcastInDim_scalar_apply, constant_apply]
  rfl

/-- Arrays over nodes and channels that agree at every (n, d) are equal. -/
theorem arr_ext {f g : FVec Ideal S50000x128 .f32} (e : ∀ (n : Fin 50000) (d : Fin 128), f (ix2 n d) = g (ix2 n d)) :
    f = g :=
  funext fun i => by rw [eq_ix2 (n0 := 50000) (n1 := 128) i]; exact e _ _

theorem hwT_eq : hwT a2 (wT l sW a4) h = Gcn.hwOf (maskOf a2) (wtOf a4 l) h :=
  arr_ext fun n d => (hwT_apply ..).trans (Finset.sum_congr rfl fun k _ => by rw [wT_apply]; rfl)

theorem aggT_eq : aggT (rowT l sR a5) (dinv ei) (msg ei x) x = Gcn.aggOf (msg ei) (dd ei) (rowOf a5 l) x :=
  arr_ext fun n d => by rw [aggT_apply, rowT_apply]; rfl

/-- bnT at the array's own column means and variances. -/
def normT : FVec Ideal S50000x128 .f32 :=
  bnT γ β (meanT a) (varT a (constantI S_ 32 0#32)) a

theorem normT_eq :
    normT (rowT l sR a6) (rowT l sR a7) a = Gcn.bn (rowOf a6 l) (rowOf a7 l) a (Gcn.colMean a) (Gcn.varR a) :=
  arr_ext fun n d => by
    unfold normT
    rw [bnT_apply, meanT_apply, varT_apply, rowT_apply, rowT_apply]
    rfl

/-- One layer: the product, the messages with the self term and the bias, the normalisation. -/
def layerT : FVec Ideal S50000x128 .f32 :=
  normT γ β (aggT b (dinv ei) (msg ei (hwT a2 W h)) (hwT a2 W h))

/-- Stage by stage the composed layer is the specification's, at row l of every stacked parameter. -/
theorem layerT_eq :
    layerT ei a2 (wT l sW a4) (rowT l sR a5) (rowT l sR a6) (rowT l sR a7) h
      = Gcn.layerR (msg ei) (dd ei) (maskOf a2) (wtOf a4 l) (rowOf a5 l) (rowOf a6 l) (rowOf a7 l) h := by
  unfold layerT Gcn.layerR
  rw [hwT_eq, aggT_eq, normT_eq]

/-- The line leaves the buffer as it found it. -/
abbrev Keeps (s : List (HloOp τ sig (Elt Ideal))) (r : Ref sig .tc) : Prop :=
  ∀ V : Valuation τ sig (Elt Ideal), after s V (Proc.devRef .tc r) = V (Proc.devRef .tc r)

end Cert.ReferenceIdeal.RStages

end
-- ==== Proof.RLayer0.lean ====
import proofs.«408352_j17944373363255_2_alg».proof.Proof.RefOps
import proofs.«408352_j17944373363255_2_alg».proof.Proof.RStages

noncomputable section

namespace Cert.ReferenceIdeal.RLayer0

open Cert.ReferenceIdeal Cert.ReferenceIdeal.RefRun Cert.ReferenceIdeal.Shared Cert.ReferenceIdeal.RStages Idealize.ShloMosaic Idealize.ShloMosaic.TcCoe Idealize.SL.Sem Idealize.ShloMosaic.StableHlo

abbrev sA := (opsL0 (F := Ideal)).take 8
abbrev sB := ((opsL0 (F := Ideal)).drop 8).take 35
abbrev sC := ((opsL0 (F := Ideal)).drop 43).take 8
abbrev sD := ((opsL0 (F := Ideal)).drop 51).take 6
abbrev sE := ((opsL0 (F := Ideal)).drop 57).take 22
abbrev sF := (opsL0 (F := Ideal)).drop 79
abbrev sAE := (opsL0 (F := Ideal)).take 79

macro "seg_read" : tactic =>
  `(tactic| (simp (disch := decide) only [sA, sB, sC, sD, sE, sF, sAE, opsL0, List.take_succ_cons, List.take_zero,
      List.drop_succ_cons, List.drop_zero, after_cons, after_nil,
      nullary_result', unary_result', binary_result', ternary_result', reshape_result',
      nullary_result_ne', unary_result_ne', binary_result_ne', ternary_result_ne', reshape_result_ne']))

section Stretches
variable (V : Valuation τ sig (Elt Ideal))

theorem sA_hw : after sA V (Proc.devRef .tc main_v18)
    = hwT (V (Proc.devRef .tc main_arg2)) (wT 0 Gen.slices_S3x128x128_S1x128x128_0_0_0 (V (Proc.devRef .tc main_arg4)))
        (V (Proc.devRef .tc main_arg0)) := by
  seg_read; rfl
theorem sA_bias : after sA V (Proc.devRef .tc main_v17)
    = rowT 0 Gen.slices_S3x128_S1x128_0_0 (V (Proc.devRef .tc main_arg5)) := by
  seg_read; rfl
theorem sA_src : Keeps sA main_v1 := fun V => by seg_read
theorem sA_dst : Keeps sA main_v3 := fun V => by seg_read
theorem sA_dinv : Keeps sA main_v10 := fun V => by seg_read

/-- The chain rebuilds the index columns and the edge scales from the edge words and the degree scales: it is msg. -/
theorem sB_msg (ei : IVec S2x1600000 32) (h1 : V (Proc.devRef .tc main_v1) = srcW ei)
    (h3 : V (Proc.devRef .tc main_v3) = dstW ei) (h10 : V (Proc.devRef .tc main_v10) = dinv ei) :
    after sB V (Proc.devRef .tc main_v46) = msg ei (V (Proc.devRef .tc main_v18)) := by
  seg_read
  rw [h1, h3, h10]
  rfl
theorem sB_hw : Keeps sB main_v18 := fun V => by seg_read
theorem sB_dinv : Keeps sB main_v10 := fun V => by seg_read
theorem sB_bias : Keeps sB main_v17 := fun V => by seg_read

theorem sC_agg : after sC V (Proc.devRef .tc main_v54)
    = aggT (V (Proc.devRef .tc main_v17)) (V (Proc.devRef .tc main_v10)) (V (Proc.devRef .tc main_v46))
        (V (Proc.devRef .tc main_v18)) := by
  seg_read; rfl

theorem sD_mean : after sD V (Proc.devRef .tc main_v57) = meanT (V (Proc.devRef .tc main_v54)) := by seg_read; rfl
theorem sD_word : after sD V (Proc.devRef .tc main_c_10) = constantI S_ 32 0#32 := by seg_read
theorem sD_agg : Keeps sD main_v54 := fun V => by seg_read

theorem sE_var : after sE V (Proc.devRef .tc main_v58)
    = varT (V (Proc.devRef .tc main_v54)) (V (Proc.devRef .tc main_c_10)) := by
  seg_read; rfl
theorem sE_agg : Keeps sE main_v54 := fun V => by seg_read
theorem sE_mean : Keeps sE main_v57 := fun V => by seg_read

theorem sAE_gamma : Keeps sAE main_arg6 := fun V => by seg_read
theorem sAE_beta : Keeps sAE main_arg7 := fun V => by seg_read

theorem sF_out : after sF V (Proc.devRef .tc main_v78)
    = bnT (rowT 0 Gen.slices_S3x128_S1x128_0_0 (V (Proc.devRef .tc main_arg6)))
        (rowT 0 Gen.slices_S3x128_S1x128_0_0 (V (Proc.devRef .tc main_arg7))) (V (Proc.devRef .tc main_v57))
        (V (Proc.devRef .tc main_v58)) (V (Proc.devRef .tc main_v54)) := by
  seg_read; rfl

end Stretches

theorem val (U : Valuation τ sig (Elt Ideal)) (ei : IVec S2x1600000 32)
    (h1 : U (Proc.devRef .tc main_v1) = srcW ei) (h3 : U (Proc.devRef .tc main_v3) = dstW ei)
    (h10 : U (Proc.devRef .tc main_v10) = dinv ei) :
    StableHlo.after (opsL0 (F := Ideal)) U (Proc.devRef .tc main_v78)
      = Gcn.layerR (msg ei) (dd ei) (maskOf (U (Proc.devRef .tc main_arg2))) (wtOf (U (Proc.devRef .tc main_arg4)) 0)
          (rowOf (U (Proc.devRef .tc main_arg5)) 0) (rowOf (U (Proc.devRef .tc main_arg6)) 0)
          (rowOf (U (Proc.devRef .tc main_arg7)) 0) (U (Proc.devRef .tc main_arg0)) := by
  rw [show opsL0 (F := Ideal) = sAE ++ sF from rfl, after_append, sF_out, sAE_gamma, sAE_beta,
    show sAE = sA ++ (sB ++ (sC ++ (sD ++ sE))) from rfl, after_append, after_append, after_append, after_append,
    sE_var, sE_agg, sE_mean, sD_mean, sD_word, sD_agg, sC_agg,
    sB_msg _ ei ((sA_src U).trans h1) ((sA_dst U).trans h3) ((sA_dinv U).trans h10), sB_hw, sB_dinv, sB_bias,
    sA_hw, sA_bias, sA_dinv, h10]
  exact layerT_eq 0 _ _ ei _ _ _ _ _ _

end Cert.ReferenceIdeal.RLayer0

end
-- ==== Proof.RLayer1.lean ====
import proofs.«408352_j17944373363255_2_alg».proof.Proof.RefOps
import proofs.«408352_j17944373363255_2_alg».proof.Proof.RStages

noncomputable section

namespace Cert.ReferenceIdeal.RLayer1

open Cert.ReferenceIdeal Cert.ReferenceIdeal.RefRun Cert.ReferenceIdeal.Shared Cert.ReferenceIdeal.RStages Idealize.ShloMosaic Idealize.ShloMosaic.TcCoe Idealize.SL.Sem Idealize.ShloMosaic.StableHlo

abbrev sA := (opsL1 (F := Ideal)).take 8
abbrev sB := ((opsL1 (F := Ideal)).drop 8).take 35
abbrev sC := ((opsL1 (F := Ideal)).drop 43).take 8
abbrev sD := ((opsL1 (F := Ideal)).drop 51).take 6
abbrev sE := ((opsL1 (F := Ideal)).drop 57).take 22
abbrev sF := (opsL1 (F := Ideal)).drop 79
abbrev sAE := (opsL1 (F := Ideal)).take 79

macro "seg_read" : tactic =>
  `(tactic| (simp (disch := decide) only [sA, sB, sC, sD, sE, sF, sAE, opsL1, List.take_succ_cons, List.take_zero,
      List.drop_succ_cons, List.drop_zero, after_cons, after_nil,
      nullary_result', unary_result', binary_result', ternary_result', reshape_result',
      nullary_result_ne', unary_result_ne', binary_result_ne', ternary_result_ne', reshape_result_ne']))

section Stretches
variable (V : Valuation τ sig (Elt Ideal))

theorem sA_hw : after sA V (Proc.devRef .tc main_v86)
    = hwT (V (Proc.devRef .tc main_arg2)) (wT 1 Gen.slices_S3x128x128_S1x128x128_1_0_0 (V (Proc.devRef .tc main_arg4)))
        (V (Proc.devRef .tc main_v78)) := by
  seg_read; rfl
theorem sA_bias : after sA V (Proc.devRef .tc main_v85)
    = rowT 1 Gen.slices_S3x128_S1x128_1_0 (V (Proc.devRef .tc main_arg5)) := by
  seg_read; rfl
theorem sA_src : Keeps sA main_v1 := fun V => by seg_read
theorem sA_dst : Keeps sA main_v3 := fun V => by seg_read
theorem sA_dinv : Keeps sA main_v10 := fun V => by seg_read

/-- The chain rebuilds the index columns and the edge scales from the edge words and the degree scales: it is msg. -/
theorem sB_msg (ei : IVec S2x1600000 32) (h1 : V (Proc.devRef .tc main_v1) = srcW ei)
    (h3 : V (Proc.devRef .tc main_v3) = dstW ei) (h10 : V (Proc.devRef .tc main_v10) = dinv ei) :
    after sB V (Proc.devRef .tc main_v114) = msg ei (V (Proc.devRef .tc main_v86)) := by
  seg_read
  rw [h1, h3, h10]
  rfl
theorem sB_hw : Keeps sB main_v86 := fun V => by seg_read
theorem sB_dinv : Keeps sB main_v10 := fun V => by seg_read
theorem sB_bias : Keeps sB main_v85 := fun V => by seg_read

theorem sC_agg : after sC V (Proc.devRef .tc main_v122)
    = aggT (V (Proc.devRef .tc main_v85)) (V (Proc.devRef .tc main_v10)) (V (Proc.devRef .tc main_v114))
        (V (Proc.devRef .tc main_v86)) := by
  seg_read; rfl

theorem sD_mean : after sD V (Proc.devRef .tc main_v125) = meanT (V (Proc.devRef .tc main_v122)) := by seg_read; rfl
theorem sD_word : after sD V (Proc.devRef .tc main_c_21) = constantI S_ 32 0#32 := by seg_read
theorem sD_agg : Keeps sD main_v122 := fun V => by seg_read

theorem sE_var : after sE V (Proc.devRef .tc main_v126)
    = varT (V (Proc.devRef .tc main_v122)) (V (Proc.devRef .tc main_c_21)) := by
  seg_read; rfl
theorem sE_agg : Keeps sE main_v122 := fun V => by seg_read
theorem sE_mean : Keeps sE main_v125 := fun V => by seg_read

theorem sAE_gamma : Keeps sAE main_arg6 := fun V => by seg_read
theorem sAE_beta : Keeps sAE main_arg7 := fun V => by seg_read

theorem sF_out : after sF V (Proc.devRef .tc main_v146)
    = bnT (rowT 1 Gen.slices_S3x128_S1x128_1_0 (V (Proc.devRef .tc main_arg6)))
        (rowT 1 Gen.slices_S3x128_S1x128_1_0 (V (Proc.devRef .tc main_arg7))) (V (Proc.devRef .tc main_v125))
        (V (Proc.devRef .tc main_v126)) (V (Proc.devRef .tc main_v122)) := by
  seg_read; rfl

end Stretches

theorem val (U : Valuation τ sig (Elt Ideal)) (ei : IVec S2x1600000 32)
    (h1 : U (Proc.devRef .tc main_v1) = srcW ei) (h3 : U (Proc.devRef .tc main_v3) = dstW ei)
    (h10 : U (Proc.devRef .tc main_v10) = dinv ei) :
    StableHlo.after (opsL1 (F := Ideal)) U (Proc.devRef .tc main_v146)
      = Gcn.layerR (msg ei) (dd ei) (maskOf (U (Proc.devRef .tc main_arg2))) (wtOf (U (Proc.devRef .tc main_arg4)) 1)
          (rowOf (U (Proc.devRef .tc main_arg5)) 1) (rowOf (U (Proc.devRef .tc main_arg6)) 1)
          (rowOf (U (Proc.devRef .tc main_arg7)) 1) (U (Proc.devRef .tc main_v78)) := by
  rw [show opsL1 (F := Ideal) = sAE ++ sF from rfl, after_append, sF_out, sAE_gamma, sAE_beta,
    show sAE = sA ++ (sB ++ (sC ++ (sD ++ sE))) from rfl, after_append, after_append, after_append, after_append,
    sE_var, sE_agg, sE_mean, sD_mean, sD_word, sD_agg, sC_agg,
    sB_msg _ ei ((sA_src U).trans h1) ((sA_dst U).trans h3) ((sA_dinv U).trans h10), sB_hw, sB_dinv, sB_bias,
    sA_hw, sA_bias, sA_dinv, h10]
  exact layerT_eq 1 _ _ ei _ _ _ _ _ _

end Cert.ReferenceIdeal.RLayer1

end
-- ==== Proof.RLayer2.lean ====
import proofs.«408352_j17944373363255_2_alg».proof.Proof.RefOps
import proofs.«408352_j17944373363255_2_alg».proof.Proof.RStages

noncomputable section

namespace Cert.ReferenceIdeal.RLayer2

open Cert.ReferenceIdeal Cert.ReferenceIdeal.RefRun Cert.ReferenceIdeal.Shared Cert.ReferenceIdeal.RStages Idealize.ShloMosaic Idealize.ShloMosaic.TcCoe Idealize.SL.Sem Idealize.ShloMosaic.StableHlo

abbrev sA := (opsL2 (F := Ideal)).take 8
abbrev sB := ((opsL2 (F := Ideal)).drop 8).take 35
abbrev sC := ((opsL2 (F := Ideal)).drop 43).take 8
abbrev sD := ((opsL2 (F := Ideal)).drop 51).take 6
abbrev sE := ((opsL2 (F := Ideal)).drop 57).take 22
abbrev sF := (opsL2 (F := Ideal)).drop 79
abbrev sAE := (opsL2 (F := Ideal)).take 79

macro "seg_read" : tactic =>
  `(tactic| (simp (disch := decide) only [sA, sB, sC, sD, sE, sF, sAE, opsL2, List.take_succ_cons, List.take_zero,
      List.drop_succ_cons, List.drop_zero, after_cons, after_nil,
      nullary_result', unary_result', binary_result', ternary_result', reshape_result',
      nullary_result_ne', unary_result_ne', binary_result_ne', ternary_result_ne', reshape_result_ne']))

section Stretches
variable (V : Valuation τ sig (Elt Ideal))

theorem sA_hw : after sA V (Proc.devRef .tc main_v154)
    = hwT (V (Proc.devRef .tc main_arg2)) (wT 2 Gen.slices_S3x128x128_S1x128x128_2_0_0 (V (Proc.devRef .tc main_arg4)))
        (V (Proc.devRef .tc main_v146)) := by
  seg_read; rfl
theorem sA_bias : after sA V (Proc.devRef .tc main_v153)
    = rowT 2 Gen.slices_S3x128_S1x128_2_0 (V (Proc.devRef .tc main_arg5)) := by
  seg_read; rfl
theorem sA_src : Keeps sA main_v1 := fun V => by seg_read
theorem sA_dst : Keeps sA main_v3 := fun V => by seg_read
theorem sA_dinv : Keeps sA main_v10 := fun V => by seg_read

/-- The chain rebuilds the index columns and the edge scales from the edge words and the degree scales: it is msg. -/
theorem sB_msg (ei : IVec S2x1600000 32) (h1 : V (Proc.devRef .tc main_v1) = srcW ei)
    (h3 : V (Proc.devRef .tc main_v3) = dstW ei) (h10 : V (Proc.devRef .tc main_v10) = dinv ei) :
    after sB V (Proc.devRef .tc main_v182) = msg ei (V (Proc.devRef .tc main_v154)) := by
  seg_read
  rw [h1, h3, h10]
  rfl
theorem sB_hw : Keeps sB main_v154 := fun V => by seg_read
theorem sB_dinv : Keeps sB main_v10 := fun V => by seg_read
theorem sB_bias : Keeps sB main_v153 := fun V => by seg_read

theorem sC_agg : after sC V (Proc.devRef .tc main_v190)
    = aggT (V (Proc.devRef .tc main_v153)) (V (Proc.devRef .tc main_v10)) (V (Proc.devRef .tc main_v182))
        (V (Proc.devRef .tc main_v154)) := by
  seg_read; rfl

theorem sD_mean : after sD V (Proc.devRef .tc main_v193) = meanT (V (Proc.devRef .tc main_v190)) := by seg_read; rfl
theorem sD_word : after sD V (Proc.devRef .tc main_c_32) = constantI S_ 32 0#32 := by seg_read
theorem sD_agg : Keeps sD main_v190 := fun V => by seg_read

theorem sE_var : after sE V (Proc.devRef .tc main_v194)
    = varT (V (Proc.devRef .tc main_v190)) (V (Proc.devRef .tc main_c_32)) := by
  seg_read; rfl
theorem sE_agg : Keeps sE main_v190 := fun V => by seg_read
theorem sE_mean : Keeps sE main_v193 := fun V => by seg_read

theorem sAE_gamma : Keeps sAE main_arg6 := fun V => by seg_read
theorem sAE_beta : Keeps sAE main_arg7 := fun V => by seg_read

theorem sF_out : after sF V (Proc.devRef .tc main_v214)
    = bnT (rowT 2 Gen.slices_S3x128_S1x128_2_0 (V (Proc.devRef .tc main_arg6)))
        (rowT 2 Gen.slices_S3x128_S1x128_2_0 (V (Proc.devRef .tc main_arg7))) (V (Proc.devRef .tc main_v193))
        (V (Proc.devRef .tc main_v194)) (V (Proc.devRef .tc main_v190)) := by
  seg_read; rfl

end Stretches

theorem val (U : Valuation τ sig (Elt Ideal)) (ei : IVec S2x1600000 32)
    (h1 : U (Proc.devRef .tc main_v1) = srcW ei) (h3 : U (Proc.devRef .tc main_v3) = dstW ei)
    (h10 : U (Proc.devRef .tc main_v10) = dinv ei) :
    StableHlo.after (opsL2 (F := Ideal)) U (Proc.devRef .tc main_v214)
      = Gcn.layerR (msg ei) (dd ei) (maskOf (U (Proc.devRef .tc main_arg2))) (wtOf (U (Proc.devRef .tc main_arg4)) 2)
          (rowOf (U (Proc.devRef .tc main_arg5)) 2) (rowOf (U (Proc.devRef .tc main_arg6)) 2)
          (rowOf (U (Proc.devRef .tc main_arg7)) 2) (U (Proc.devRef .tc main_v146)) := by
  rw [show opsL2 (F := Ideal) = sAE ++ sF from rfl, after_append, sF_out, sAE_gamma, sAE_beta,
    show sAE = sA ++ (sB ++ (sC ++ (sD ++ sE))) from rfl, after_append, after_append, after_append, after_append,
    sE_var, sE_agg, sE_mean, sD_mean, sD_word, sD_agg, sC_agg,
    sB_msg _ ei ((sA_src U).trans h1) ((sA_dst U).trans h3) ((sA_dinv U).trans h10), sB_hw, sB_dinv, sB_bias,
    sA_hw, sA_bias, sA_dinv, h10]
  exact layerT_eq 2 _ _ ei _ _ _ _ _ _

end Cert.ReferenceIdeal.RLayer2

end
-- ==== Proof.LibRows.lean ====
import Idealize.ShloMosaic.PureOps.Ideal
import Idealize.ShloMosaic.PureOps.Contract
import Idealize.ShloMosaic.Lib.ValueIdx
import Idealize.ShloMosaic.Lib.StableHlo.Predicate

noncomputable section

namespace Gcn.Rows

open Idealize.ShloMosaic Idealize.ShloMosaic.ValueIdx

private theorem rows_siIdx {R E C : ℕ} (d : ScatterDims ⟨2, ![R, C]⟩ ⟨2, ![E, 1]⟩ ⟨2, ![E, C]⟩)
    (huw : d.updateWindowDims = [1]) (hsd : d.scatterDimsToOperandDims = [0]) (hivd : d.indexVectorDim = 1)
    (e : Fin E) (q' : Fin C) (c : Fin d.scatterDimsToOperandDims.length) :
    d.siIdx (ix2 e q') c = ix2 e (0 : Fin 1) := by
  have he : ∀ x : Fin 2, x = 0 → ((ix2 e q' : (⟨2, ![E, C]⟩ : Shape).Idx) x).val = e.val := by
    intro x hx; subst hx; rfl
  have hscall : ∀ y ∈ d.uScatter, y = 0 := by
    intro y hy
    have hy1 : y ∉ d.updateWindowDims := by
      have := (List.mem_filter.mp hy).2
      simpa using this
    rw [huw] at hy1
    match y with
    | ⟨0, _⟩ => rfl
    | ⟨1, _⟩ => exact absurd (List.mem_singleton.mpr rfl) hy1
  have hlen : d.scatterDimsToOperandDims.length = 1 := by rw [hsd]; rfl
  funext b
  match b with
  | ⟨0, _⟩ =>
    unfold ScatterDims.siIdx
    rw [dif_neg (by rw [hivd]; simp)]
    unfold ScatterDims.siCoord
    apply Fin.ext
    simp only [Fin.val_cast]
    exact he _ (hscall _ (List.getElem_mem _))
  | ⟨1, _⟩ =>
    unfold ScatterDims.siIdx
    rw [dif_pos (by rw [hivd])]
    apply Fin.ext
    show c.val = 0
    have := c.isLt
    omega

private theorem rows_start0 {R E C w : ℕ} (d : ScatterDims ⟨2, ![R, C]⟩ ⟨2, ![E, 1]⟩ ⟨2, ![E, C]⟩)
    (huw : d.updateWindowDims = [1]) (hsd : d.scatterDimsToOperandDims = [0]) (hivd : d.indexVectorDim = 1)
    (idx : IVec ⟨2, ![E, 1]⟩ w) (e : Fin E) (q' : Fin C) :
    d.start (ix2 e q') idx 0 = (idx (ix2 e (0 : Fin 1))).toInt := by
  have hm : (0 : Fin 2) ∈ d.scatterDimsToOperandDims := by rw [hsd]; exact List.mem_singleton.mpr rfl
  unfold ScatterDims.start
  rw [dif_pos hm, rows_siIdx d huw hsd hivd]

private theorem rows_start1 {R E C w : ℕ} (d : ScatterDims ⟨2, ![R, C]⟩ ⟨2, ![E, 1]⟩ ⟨2, ![E, C]⟩)
    (hsd : d.scatterDimsToOperandDims = [0])
    (idx : IVec ⟨2, ![E, 1]⟩ w) (e : Fin E) (q' : Fin C) :
    d.start (ix2 e q') idx 1 = 0 := by
  have hm : (1 : Fin 2) ∉ d.scatterDimsToOperandDims := by rw [hsd]; simp
  unfold ScatterDims.start
  rw [dif_neg hm]

private theorem rows_window0 {R E C : ℕ} (d : ScatterDims ⟨2, ![R, C]⟩ ⟨2, ![E, 1]⟩ ⟨2, ![E, C]⟩)
    (hins : d.insertedWindowDims = [0]) (e : Fin E) (q' : Fin C) :
    d.window (ix2 e q') 0 = 0 := by
  have hk : (0 : Fin 2) ∉ d.sKept := by
    intro h
    have := (List.mem_filter.mp h).2
    rw [hins] at this
    simp at this
  unfold ScatterDims.window
  rw [dif_neg hk]

private theorem rows_window1 {R E C : ℕ} (d : ScatterDims ⟨2, ![R, C]⟩ ⟨2, ![E, 1]⟩ ⟨2, ![E, C]⟩)
    (huw : d.updateWindowDims = [1]) (hins : d.insertedWindowDims = [0]) (e : Fin E) (q' : Fin C) :
    d.window (ix2 e q') 1 = q'.val := by
  have hk : (1 : Fin 2) ∈ d.sKept := by
    refine List.mem_filter.mpr ⟨List.mem_finRange _, ?_⟩
    rw [hins]; simp
  have hq : ∀ x : Fin 2, x = 1 → ((ix2 e q' : (⟨2, ![E, C]⟩ : Shape).Idx) x).val = q'.val := by
    intro x hx; subst hx; rfl
  have hwall : ∀ y ∈ d.updateWindowDims, y = 1 := by
    intro y hy; rw [huw] at hy; exact List.mem_singleton.mp hy
  unfold ScatterDims.window
  rw [dif_pos hk]
  exact hq _ (hwall _ (List.getElem_mem _))

private theorem rows_resultIdx_iff {R E C w : ℕ} (d : ScatterDims ⟨2, ![R, C]⟩ ⟨2, ![E, 1]⟩ ⟨2, ![E, C]⟩)
    (huw : d.updateWindowDims = [1]) (hins : d.insertedWindowDims = [0]) (hsd : d.scatterDimsToOperandDims = [0])
    (hivd : d.indexVectorDim = 1) (idx : IVec ⟨2, ![E, 1]⟩ w) (e : Fin E) (q' q : Fin C) (r : Fin R) :
    d.resultIdx? (ix2 e q') idx = some (ix2 r q)
      ↔ (idx (ix2 e (0 : Fin 1))).toInt = (r.val : ℤ) ∧ q' = q := by
  have hs0 := rows_start0 d huw hsd hivd idx e q'
  have hs1 := rows_start1 d hsd idx e q'
  have hw0 := rows_window0 d hins e q'
  have hw1 := rows_window1 d huw hins e q'
  have hr := r.isLt
  have hq := q.isLt
  have hq' := q'.isLt
  unfold ScatterDims.resultIdx?
  constructor
  · intro h
    split at h
    · rename_i hh
      have hf := Option.some.inj h
      have h0 : (d.start (ix2 e q') idx 0 + (d.window (ix2 e q') 0 : ℤ)).toNat = r.val :=
        congrArg (fun f : (⟨2, ![R, C]⟩ : Shape).Idx => (f 0).val) hf
      have h1 : (d.start (ix2 e q') idx 1 + (d.window (ix2 e q') 1 : ℤ)).toNat = q.val :=
        congrArg (fun f : (⟨2, ![R, C]⟩ : Shape).Idx => (f 1).val) hf
      have hh0 : 0 ≤ d.start (ix2 e q') idx 0 + (d.window (ix2 e q') 0 : ℤ) := (hh 0).1
      rw [hs0, hw0] at h0 hh0
      rw [hs1, hw1] at h1
      refine ⟨by omega, Fin.ext (by omega)⟩
    · exact absurd h (by simp)
  · rintro ⟨h0, rfl⟩
    have hh : ∀ a, 0 ≤ d.start (ix2 e q') idx a + (d.window (ix2 e q') a : ℤ)
        ∧ d.start (ix2 e q') idx a + (d.window (ix2 e q') a : ℤ) < ((⟨2, ![R, C]⟩ : Shape).size a : ℤ) := by
      intro a
      match a with
      | ⟨0, _⟩ =>
        show 0 ≤ d.start (ix2 e q') idx 0 + (d.window (ix2 e q') 0 : ℤ)
          ∧ d.start (ix2 e q') idx 0 + (d.window (ix2 e q') 0 : ℤ) < (R : ℤ)
        rw [hs0, hw0]; omega
      | ⟨1, _⟩ =>
        show 0 ≤ d.start (ix2 e q') idx 1 + (d.window (ix2 e q') 1 : ℤ)
          ∧ d.start (ix2 e q') idx 1 + (d.window (ix2 e q') 1 : ℤ) < (C : ℤ)
        rw [hs1, hw1]; omega
    rw [dif_pos hh]
    congr 1
    funext a
    apply Fin.ext
    match a with
    | ⟨0, _⟩ =>
      show (d.start (ix2 e q') idx 0 + (d.window (ix2 e q') 0 : ℤ)).toNat = r.val
      rw [hs0, hw0]; omega
    | ⟨1, _⟩ =>
      show (d.start (ix2 e q') idx 1 + (d.window (ix2 e q') 1 : ℤ)).toNat = q'.val
      rw [hs1, hw1]; omega

/-- An accumulating row scatter read at (r, q): the operand's entry plus the updates' entries of the rows whose index word is r. -/
theorem scatterAdd_rows {R E C w : ℕ} (d : ScatterDims ⟨2, ![R, C]⟩ ⟨2, ![E, 1]⟩ ⟨2, ![E, C]⟩)
    (huw : d.updateWindowDims = [1]) (hins : d.insertedWindowDims = [0]) (hsd : d.scatterDimsToOperandDims = [0])
    (hivd : d.indexVectorDim = 1)
    (x : (⟨2, ![R, C]⟩ : Shape).Idx → EReal) (idx : IVec ⟨2, ![E, 1]⟩ w) (upd : (⟨2, ![E, C]⟩ : Shape).Idx → EReal)
    (r : Fin R) (q : Fin C) :
    Ideal.hostScatterAdd d x idx upd (ix2 r q)
      = x (ix2 r q) + ∑ e : Fin E, if (idx (ix2 e (0 : Fin 1))).toInt = (r.val : ℤ) then upd (ix2 e q) else 0 := by
  unfold Ideal.hostScatterAdd
  congr 1
  rw [Finset.sum_filter, sum_idx2]
  refine Finset.sum_congr rfl fun e _ => ?_
  simp only [rows_resultIdx_iff d huw hins hsd hivd]
  by_cases h : (idx (ix2 e (0 : Fin 1))).toInt = (r.val : ℤ)
  · simp only [h, true_and, if_true]
    rw [Finset.sum_ite_eq' Finset.univ q (fun q' => upd (ix2 e q'))]
    simp
  · simp only [h, false_and, if_false, Finset.sum_const_zero]

end Gcn.Rows

end
-- ==== Proof.RVal.lean ====
import proofs.«408352_j17944373363255_2_alg».proof.Proof.RefOps
import proofs.«408352_j17944373363255_2_alg».proof.Proof.RLayer0
import proofs.«408352_j17944373363255_2_alg».proof.Proof.RLayer1
import proofs.«408352_j17944373363255_2_alg».proof.Proof.RLayer2
import proofs.«408352_j17944373363255_2_alg».proof.Proof.Shared
import proofs.«408352_j17944373363255_2_alg».proof.Proof.Spec
import proofs.«408352_j17944373363255_2_alg».proof.Proof.LibRows
import Idealize.ShloMosaic.Lib.ValueIdx
import Idealize.ShloMosaic.Lib.StableHlo.Run
import Idealize.ShloMosaic.Lib.Pipeline.Value
import Idealize.ShloMosaic.PureOps.Ideal.Laws

set_option maxRecDepth 16384

noncomputable section

namespace Cert.ReferenceIdeal.RVal

open Cert.ReferenceIdeal Cert.ReferenceIdeal.RefRun Cert.ReferenceIdeal.Shared Idealize.ShloMosaic Idealize.ShloMosaic.TcCoe Idealize.ShloMosaic.ValueIdx Idealize.SL.Sem
open Facts₀ Facts

/-- Every operation of the line writes one reference, of index at least lo. -/
def WritesFrom {Val : EltTy → Type} (lo : Nat) (L : List (HloOp τ sig Val)) : Prop :=
  L.Forall fun op => ∃ y : Ref sig .tc, op.writes = {Proc.devRef .tc y} ∧ lo ≤ y.idx.val

/-- Such a line leaves a reference of smaller index as it was. -/
theorem after_keep {Val : EltTy → Type} {lo : Nat} {L : List (HloOp τ sig Val)} (hL : WritesFrom lo L)
    (r : Ref sig .tc) (hr : r.idx.val < lo) (V : Valuation τ sig Val) :
    StableHlo.after L V (Proc.devRef .tc r) = V (Proc.devRef .tc r) :=
  StableHlo.after_of_forall_not_mem L V fun op hop hb => by
    obtain ⟨y, hw, hlo⟩ := List.forall_iff_forall_mem.mp hL op hop
    rw [hw, Finset.mem_singleton] at hb
    have : r = y := Proc.devRef_injective _ hb
    subst this; omega

theorem opsPre_from : WritesFrom 10 (opsPre (F := Ideal)) := by
  repeat' apply And.intro
  all_goals exact ⟨_, rfl, by decide⟩
theorem opsL0_from : WritesFrom 24 (opsL0 (F := Ideal)) := by
  repeat' apply And.intro
  all_goals exact ⟨_, rfl, by decide⟩
theorem opsL1_from : WritesFrom 24 (opsL1 (F := Ideal)) := by
  repeat' apply And.intro
  all_goals exact ⟨_, rfl, by decide⟩
theorem opsL2_from : WritesFrom 24 (opsL2 (F := Ideal)) := by
  repeat' apply And.intro
  all_goals exact ⟨_, rfl, by decide⟩
theorem opsPost_from : WritesFrom 24 (opsPost (F := Ideal)) := by
  repeat' apply And.intro
  all_goals exact ⟨_, rfl, by decide⟩

theorem pre_v1 (V : Valuation τ sig (Elt Ideal)) :
    StableHlo.after (opsPre (F := Ideal)) V (Proc.devRef .tc main_v1) = srcW (V (Proc.devRef .tc main_arg1)) := by
  dsimp only [opsPre]
  after_results
  rfl
theorem pre_v3 (V : Valuation τ sig (Elt Ideal)) :
    StableHlo.after (opsPre (F := Ideal)) V (Proc.devRef .tc main_v3) = dstW (V (Proc.devRef .tc main_arg1)) := by
  dsimp only [opsPre]
  after_results
  rfl
theorem pre_v10 (V : Valuation τ sig (Elt Ideal)) :
    StableHlo.after (opsPre (F := Ideal)) V (Proc.devRef .tc main_v10) = dinv (V (Proc.devRef .tc main_arg1)) := by
  dsimp only [opsPre]
  after_results
  rfl

theorem post_val (V : Valuation τ sig (Elt Ideal)) :
    StableHlo.after (opsPost (F := Ideal)) V (Proc.devRef .tc main_v234)
      = tail (Host.scatterAdd (F := Ideal) scatter_S64x128_S50000x1_S50000x128_1_0_0_1
            (broadcastInDim S64x128 ![] bcast_S_S64x128 (constant (F := Ideal) S_ .f32 0x00000000#32))
            (broadcastInDim S50000x1 ![0] bcast_S50000_S50000x1_0 (V (Proc.devRef .tc main_arg3)))
            (mulf (V (Proc.devRef .tc main_v214))
              (broadcastInDim S50000x128 ![0, 1] bcast_S50000x1_S50000x128_0_1
                (broadcastInDim S50000x1 ![0] bcast_S50000_S50000x1_0 (V (Proc.devRef .tc main_arg2))))))
          (V (Proc.devRef .tc main_arg3)) (V (Proc.devRef .tc main_arg8)) (V (Proc.devRef .tc main_arg9)) := by
  dsimp only [opsPost]
  after_results_simp
  unfold tail cnt
  rfl

/-- An accumulating row scatter of the masked rows along the group words is the pool as a conditional sum. -/
theorem pooled_eq (h : FVec Ideal S50000x128 .f32) (a2 : FVec Ideal S50000 .f32) (a3 : IVec S50000 32) :
    Host.scatterAdd (F := Ideal) scatter_S64x128_S50000x1_S50000x128_1_0_0_1
        (broadcastInDim S64x128 ![] bcast_S_S64x128 (constant (F := Ideal) S_ .f32 0x00000000#32))
        (broadcastInDim S50000x1 ![0] bcast_S50000_S50000x1_0 a3)
        (mulf h (broadcastInDim S50000x128 ![0, 1] bcast_S50000x1_S50000x128_0_1
                (broadcastInDim S50000x1 ![0] bcast_S50000_S50000x1_0 a2)))
      = Gcn.poolR (P a3) (maskOf a2) h := by
  funext j
  obtain ⟨g, q, rfl⟩ : ∃ g q, j = ix2 g q := ⟨j 0, j 1, eq_ix2 j⟩
  show Ideal.hostScatterAdd _ _ _ _ (ix2 g q) = Gcn.poolRAt (P a3) (maskOf a2) h g q
  rw [Gcn.Rows.scatterAdd_rows _ rfl rfl rfl rfl]
  unfold Gcn.poolRAt
  have hz : broadcastInDim S64x128 ![] bcast_S_S64x128 (constant (F := Ideal) S_ .f32 0x00000000#32) (ix2 g q) = 0 :=
    Ideal.ofBits_zero_f32
  rw [hz, zero_add]
  refine Finset.sum_congr rfl fun n _ => ?_
  have hidx : broadcastInDim S50000x1 ![0] bcast_S50000_S50000x1_0 a3 (ix2 n (0 : Fin 1)) = a3 (ix1 n) :=
    broadcastInDim_apply _ _ _ _ _ (fun a => by match a with | ⟨0, _⟩ => rfl)
  have hm1 : broadcastInDim S50000x128 ![0, 1] bcast_S50000x1_S50000x128_0_1
        (broadcastInDim S50000x1 ![0] bcast_S50000_S50000x1_0 a2) (ix2 n q)
      = broadcastInDim S50000x1 ![0] bcast_S50000_S50000x1_0 a2 (ix2 n (0 : Fin 1)) :=
    broadcastInDim_apply _ _ _ _ _ (fun a => by match a with | ⟨0, _⟩ => rfl | ⟨1, _⟩ => rfl)
  have hm2 : broadcastInDim S50000x1 ![0] bcast_S50000_S50000x1_0 a2 (ix2 n (0 : Fin 1)) = a2 (ix1 n) :=
    broadcastInDim_apply _ _ _ _ _ (fun a => by match a with | ⟨0, _⟩ => rfl)
  have hupd : mulf h (broadcastInDim S50000x128 ![0, 1] bcast_S50000x1_S50000x128_0_1
        (broadcastInDim S50000x1 ![0] bcast_S50000_S50000x1_0 a2)) (ix2 n q) = h (ix2 n q) * maskOf a2 n := by
    show h (ix2 n q) * _ = _
    rw [hm1, hm2]
    rfl
  rw [hidx, hupd]
  exact if_congr Iff.rfl rfl rfl

variable (m : (ℓ : Loc nD τ sig) → Buf (Elt Ideal) ℓ)

abbrev a0 (d : Dev nD) := m ((d.tc : Thread nD τ).loc main_arg0)
abbrev a1 (d : Dev nD) := m ((d.tc : Thread nD τ).loc main_arg1)
abbrev a2 (d : Dev nD) := m ((d.tc : Thread nD τ).loc main_arg2)
abbrev a3 (d : Dev nD) := m ((d.tc : Thread nD τ).loc main_arg3)
abbrev a4 (d : Dev nD) := m ((d.tc : Thread nD τ).loc main_arg4)
abbrev a5 (d : Dev nD) := m ((d.tc : Thread nD τ).loc main_arg5)
abbrev a6 (d : Dev nD) := m ((d.tc : Thread nD τ).loc main_arg6)
abbrev a7 (d : Dev nD) := m ((d.tc : Thread nD τ).loc main_arg7)
abbrev a8 (d : Dev nD) := m ((d.tc : Thread nD τ).loc main_arg8)
abbrev a9 (d : Dev nD) := m ((d.tc : Thread nD τ).loc main_arg9)

def U1 (d : Dev nD) : Valuation τ sig (Elt Ideal) := StableHlo.after (opsPre (F := Ideal)) (StableHlo.launchContents m d)
def U2 (d : Dev nD) : Valuation τ sig (Elt Ideal) := StableHlo.after (opsL0 (F := Ideal)) (U1 m d)
def U3 (d : Dev nD) : Valuation τ sig (Elt Ideal) := StableHlo.after (opsL1 (F := Ideal)) (U2 m d)
def U4 (d : Dev nD) : Valuation τ sig (Elt Ideal) := StableHlo.after (opsL2 (F := Ideal)) (U3 m d)
def U5 (d : Dev nD) : Valuation τ sig (Elt Ideal) := StableHlo.after (opsPost (F := Ideal)) (U4 m d)

theorem after_ops (d : Dev nD) : StableHlo.after (ops (F := Ideal)) (StableHlo.launchContents m d) = U5 m d :=
  (StableHlo.after_append (opsPre (F := Ideal)) _ _).trans ((StableHlo.after_append (opsL0 (F := Ideal)) _ _).trans
    ((StableHlo.after_append (opsL1 (F := Ideal)) _ _).trans (StableHlo.after_append (opsL2 (F := Ideal)) (opsPost (F := Ideal)) _)))

theorem U2_low (d : Dev nD) (r : Ref sig .tc) (hr : r.idx.val < 24) : U2 m d (Proc.devRef .tc r) = U1 m d (Proc.devRef .tc r) :=
  after_keep opsL0_from r hr _
theorem U3_low (d : Dev nD) (r : Ref sig .tc) (hr : r.idx.val < 24) : U3 m d (Proc.devRef .tc r) = U2 m d (Proc.devRef .tc r) :=
  after_keep opsL1_from r hr _
theorem U4_low (d : Dev nD) (r : Ref sig .tc) (hr : r.idx.val < 24) : U4 m d (Proc.devRef .tc r) = U3 m d (Proc.devRef .tc r) :=
  after_keep opsL2_from r hr _
theorem U5_low (d : Dev nD) (r : Ref sig .tc) (hr : r.idx.val < 24) : U5 m d (Proc.devRef .tc r) = U4 m d (Proc.devRef .tc r) :=
  after_keep opsPost_from r hr _

theorem U1_arg (d : Dev nD) (r : Ref sig .tc) (hr : r.idx.val < 10) : U1 m d (Proc.devRef .tc r) = m ((d.tc : Thread nD τ).loc r) :=
  after_keep opsPre_from r hr _
theorem U2_arg (d : Dev nD) (r : Ref sig .tc) (hr : r.idx.val < 10) : U2 m d (Proc.devRef .tc r) = m ((d.tc : Thread nD τ).loc r) :=
  (U2_low m d r (by omega)).trans (U1_arg m d r hr)
theorem U3_arg (d : Dev nD) (r : Ref sig .tc) (hr : r.idx.val < 10) : U3 m d (Proc.devRef .tc r) = m ((d.tc : Thread nD τ).loc r) :=
  (U3_low m d r (by omega)).trans (U2_arg m d r hr)
theorem U4_arg (d : Dev nD) (r : Ref sig .tc) (hr : r.idx.val < 10) : U4 m d (Proc.devRef .tc r) = m ((d.tc : Thread nD τ).loc r) :=
  (U4_low m d r (by omega)).trans (U3_arg m d r hr)
theorem U5_arg (d : Dev nD) (r : Ref sig .tc) (hr : r.idx.val < 10) : U5 m d (Proc.devRef .tc r) = m ((d.tc : Thread nD τ).loc r) :=
  (U5_low m d r (by omega)).trans (U4_arg m d r hr)

theorem U1_v1 (d : Dev nD) : U1 m d (Proc.devRef .tc main_v1) = srcW (a1 m d) := pre_v1 _
theorem U1_v3 (d : Dev nD) : U1 m d (Proc.devRef .tc main_v3) = dstW (a1 m d) := pre_v3 _
theorem U1_v10 (d : Dev nD) : U1 m d (Proc.devRef .tc main_v10) = dinv (a1 m d) := pre_v10 _
theorem U2_v1 (d : Dev nD) : U2 m d (Proc.devRef .tc main_v1) = srcW (a1 m d) := (U2_low m d _ (by decide)).trans (U1_v1 m d)
theorem U2_v3 (d : Dev nD) : U2 m d (Proc.devRef .tc main_v3) = dstW (a1 m d) := (U2_low m d _ (by decide)).trans (U1_v3 m d)
theorem U2_v10 (d : Dev nD) : U2 m d (Proc.devRef .tc main_v10) = dinv (a1 m d) := (U2_low m d _ (by decide)).trans (U1_v10 m d)
theorem U3_v1 (d : Dev nD) : U3 m d (Proc.devRef .tc main_v1) = srcW (a1 m d) := (U3_low m d _ (by decide)).trans (U2_v1 m d)
theorem U3_v3 (d : Dev nD) : U3 m d (Proc.devRef .tc main_v3) = dstW (a1 m d) := (U3_low m d _ (by decide)).trans (U2_v3 m d)
theorem U3_v10 (d : Dev nD) : U3 m d (Proc.devRef .tc main_v10) = dinv (a1 m d) := (U3_low m d _ (by decide)).trans (U2_v10 m d)

theorem U2_v78 (d : Dev nD) : U2 m d (Proc.devRef .tc main_v78)
    = Gcn.layerR (msg (a1 m d)) (dd (a1 m d)) (maskOf (a2 m d)) (wtOf (a4 m d) 0) (rowOf (a5 m d) 0) (rowOf (a6 m d) 0)
        (rowOf (a7 m d) 0) (a0 m d) := by
  have h := RLayer0.val (U1 m d) (a1 m d) (U1_v1 m d) (U1_v3 m d) (U1_v10 m d)
  rw [U1_arg m d main_arg2 (by decide), U1_arg m d main_arg4 (by decide), U1_arg m d main_arg5 (by decide),
    U1_arg m d main_arg6 (by decide), U1_arg m d main_arg7 (by decide), U1_arg m d main_arg0 (by decide)] at h
  exact h

theorem U3_v146 (d : Dev nD) : U3 m d (Proc.devRef .tc main_v146)
    = Gcn.layerR (msg (a1 m d)) (dd (a1 m d)) (maskOf (a2 m d)) (wtOf (a4 m d) 1) (rowOf (a5 m d) 1) (rowOf (a6 m d) 1)
        (rowOf (a7 m d) 1) (U2 m d (Proc.devRef .tc main_v78)) := by
  have h := RLayer1.val (U2 m d) (a1 m d) (U2_v1 m d) (U2_v3 m d) (U2_v10 m d)
  rw [U2_arg m d main_arg2 (by decide), U2_arg m d main_arg4 (by decide), U2_arg m d main_arg5 (by decide),
    U2_arg m d main_arg6 (by decide), U2_arg m d main_arg7 (by decide)] at h
  exact h

theorem U4_v214 (d : Dev nD) : U4 m d (Proc.devRef .tc main_v214)
    = Gcn.layerR (msg (a1 m d)) (dd (a1 m d)) (maskOf (a2 m d)) (wtOf (a4 m d) 2) (rowOf (a5 m d) 2) (rowOf (a6 m d) 2)
        (rowOf (a7 m d) 2) (U3 m d (Proc.devRef .tc main_v146)) := by
  have h := RLayer2.val (U3 m d) (a1 m d) (U3_v1 m d) (U3_v3 m d) (U3_v10 m d)
  rw [U3_arg m d main_arg2 (by decide), U3_arg m d main_arg4 (by decide), U3_arg m d main_arg5 (by decide),
    U3_arg m d main_arg6 (by decide), U3_arg m d main_arg7 (by decide)] at h
  exact h

/-- No operation of the program writes an argument buffer. -/
theorem keep_arg (d : Dev nD) (r : Ref sig .tc) (hr : r.idx.val < 10) :
    StableHlo.after (ops (F := Ideal)) (StableHlo.launchContents m d) (Proc.devRef .tc r) = m ((d.tc : Thread nD τ).loc r) :=
  (congrFun (after_ops m d) _).trans (U5_arg m d r hr)

/-- The reference's result: the read-out of the pooled three-layer network, variance as mean of squared deviations. -/
theorem result (d : Dev nD) :
    StableHlo.after (ops (F := Ideal)) (StableHlo.launchContents m d) (Proc.devRef .tc main_v234)
      = tail (Gcn.poolR (P (a3 m d)) (maskOf (a2 m d))
          (Gcn.netR (msg (a1 m d)) (dd (a1 m d)) (maskOf (a2 m d)) (wtOf (a4 m d)) (rowOf (a5 m d)) (rowOf (a6 m d)) (rowOf (a7 m d)) (a0 m d)))
          (a3 m d) (a8 m d) (a9 m d) := by
  refine (congrFun (after_ops m d) _).trans ?_
  refine (post_val (U4 m d)).trans ?_
  rw [pooled_eq, U4_arg m d main_arg3 (by decide), U4_arg m d main_arg2 (by decide), U4_arg m d main_arg8 (by decide),
    U4_arg m d main_arg9 (by decide), U4_v214, U3_v146, U2_v78]
  rfl

end Cert.ReferenceIdeal.RVal

end
-- ==== Proof.SharedReal.lean ====
import proofs.«408352_j17944373363255_2_alg».proof.Proof.Shared
import proofs.«408352_j17944373363255_2_alg».proof.Proof.Law
import proofs.«408352_j17944373363255_2_alg».proof.Proof.LibRows
import Idealize.ShloMosaic.PureOps.Ideal.Laws
import Idealize.ShloMosaic.Lib.IdealHost

noncomputable section

namespace Cert.ReferenceIdeal.Shared

open Cert.ReferenceIdeal Idealize.ShloMosaic Idealize.ShloMosaic.ValueIdx
open Facts₀ Facts

private theorem nonneg_sum {ι : Type} (s : Finset ι) (f : ι → EReal)
    (h : ∀ i ∈ s, ∃ r : ℝ, 0 ≤ r ∧ f i = (r : EReal)) : ∃ r : ℝ, 0 ≤ r ∧ ∑ i ∈ s, f i = (r : EReal) := by
  classical
  induction s using Finset.induction_on with
  | empty => exact ⟨0, le_refl 0, by simp⟩
  | insert a s ha ih =>
    obtain ⟨x, hx, hfx⟩ := h a (Finset.mem_insert_self a s)
    obtain ⟨y, hy, hsy⟩ := ih fun i hi => h i (Finset.mem_insert_of_mem hi)
    exact ⟨x + y, add_nonneg hx hy, by rw [Finset.sum_insert ha, hfx, hsy, EReal.coe_add]⟩

private theorem scatterAdd_count {s si su : Shape} {w : ℕ} (d : ScatterDims s si su) (z : FVec Ideal s .f32)
    (idx : IVec si w) (u : FVec Ideal su .f32) (i : s.Idx) (hz : z i = 0) (hu : ∀ j, u j = 1) :
    ∃ c : ℝ, 0 ≤ c ∧ Host.scatterAdd (F := Ideal) d z idx u i = (c : EReal) := by
  unfold Host.scatterAdd
  rw [Ideal.hostScatterAdd_def]
  unfold Ideal.hostScatterAdd
  simp only [hz, hu, zero_add]
  exact nonneg_sum _ _ fun _ _ => ⟨1, zero_le_one, EReal.coe_one.symm⟩

private theorem scatterAdd_real {s si su : Shape} {w : ℕ} (d : ScatterDims s si su) (z : FVec Ideal s .f32)
    (idx : IVec si w) (u : FVec Ideal su .f32) (i : s.Idx) (hz : Gcn.IsR (z i)) (hu : ∀ j, Gcn.IsR (u j)) :
    Gcn.IsR (Host.scatterAdd (F := Ideal) d z idx u i) := by
  unfold Host.scatterAdd
  rw [Ideal.hostScatterAdd_def]
  unfold Ideal.hostScatterAdd
  exact hz.add (Gcn.IsR.sum _ _ fun j _ => hu j)

private theorem rsqrt_addf_real {s : Shape} (a b : FVec Ideal s .f32) (i : s.Idx)
    (h : ∃ r : ℝ, 0 < r ∧ a i + b i = (r : EReal)) : Gcn.IsR (Host.rsqrt (F := Ideal) (addf a b) i) := by
  obtain ⟨r, hr, hab⟩ := h
  unfold Host.rsqrt
  rw [Ideal.hostUnary_rsqrt_def, addf_apply, hab]
  exact Gcn.IsR.rsqrt_pos hr

private theorem mulf_real {s : Shape} (a b : FVec Ideal s .f32) (j : s.Idx) (ha : Gcn.IsR (a j)) (hb : Gcn.IsR (b j)) :
    Gcn.IsR (mulf a b j) := by
  rw [mulf_apply]
  exact ha.mul hb

private theorem gather_real {s si t : Shape} {w : ℕ} (d : GatherDims s si t) (x : s.Idx → EReal) (idx : IVec si w)
    (hx : ∀ k, Gcn.IsR (x k)) (j : t.Idx) : Gcn.IsR (Host.gather d x idx j) := by
  unfold Host.gather
  exact hx _

private theorem bcast_real {s t : Shape} (dims : Fin s.rank → Fin t.rank) (h : s.BroadcastsInDim t dims) (x : s.Idx → EReal)
    (hx : ∀ k, Gcn.IsR (x k)) (j : t.Idx) : Gcn.IsR (broadcastInDim t dims h x j) := by
  unfold broadcastInDim
  exact hx _

private theorem zero_apply {T : Shape} (h : (⟨0, ![]⟩ : Shape).BroadcastsInDim T ![]) (j : T.Idx) :
    broadcastInDim T ![] h (constant (F := Ideal) S_ .f32 0x00000000#32) j = 0 := by
  rw [broadcastInDim_scalar_apply, constant_apply, Ideal.ofBits_zero_f32]

private theorem one_apply {T : Shape} (h : (⟨0, ![]⟩ : Shape).BroadcastsInDim T ![]) (j : T.Idx) :
    broadcastInDim T ![] h (constant (F := Ideal) S_ .f32 0x3F800000#32) j = 1 := by
  rw [broadcastInDim_scalar_apply, constant_apply, Ideal.ofBits_one_f32]

theorem dinv_real (ei : IVec S2x1600000 32) (n : Fin 50000) : Gcn.IsR (dinv ei (ix1 n)) := by
  unfold dinv
  refine rsqrt_addf_real _ _ _ ?_
  obtain ⟨c, hc, hS⟩ := scatterAdd_count scatter_S50000_S1600000x1_S1600000_n_0_0_1
    (broadcastInDim S50000 ![] bcast_S_S50000 (constant (F := Ideal) S_ .f32 0x00000000#32)) (rawCol (dstW ei))
    (broadcastInDim S1600000 ![] bcast_S_S1600000 (constant (F := Ideal) S_ .f32 0x3F800000#32)) (ix1 n)
    (zero_apply bcast_S_S50000 (ix1 n)) (fun j => one_apply bcast_S_S1600000 j)
  refine ⟨c + 1, by linarith, ?_⟩
  rw [hS, one_apply, EReal.coe_add, EReal.coe_one]

theorem dd_real (ei : IVec S2x1600000 32) (n : Fin 50000) : Gcn.IsR (dd ei n) := by
  unfold dd
  exact (dinv_real ei n).mul (dinv_real ei n)

private theorem dinv_real_idx (ei : IVec S2x1600000 32) (m : S50000.Idx) : Gcn.IsR (dinv ei m) := by
  rw [eq_ix1 m]
  exact dinv_real ei _

private theorem norm_real (ei : IVec S2x1600000 32) (k : S1600000.Idx) : Gcn.IsR (norm ei k) := by
  unfold norm
  exact mulf_real _ _ _ (gather_real _ _ _ (dinv_real_idx ei) _) (gather_real _ _ _ (dinv_real_idx ei) _)

theorem msg_real (ei : IVec S2x1600000 32) (u : Gcn.Arr) (hu : Gcn.AllR u) : Gcn.AllR (msg ei u) := by
  intro i
  unfold msg
  refine scatterAdd_real _ _ _ _ _ ?_ fun j => ?_
  · rw [zero_apply]
    exact Gcn.IsR.zero
  · exact mulf_real _ _ _ (gather_real _ _ _ hu _)
      (bcast_real _ _ _ (bcast_real _ _ _ (norm_real ei)) _)

end Cert.ReferenceIdeal.Shared

end
-- ==== Proof.PreReal.lean ====
import proofs.«408352_j17944373363255_2_alg».proof.Defs
import proofs.«408352_j17944373363255_2_alg».proof.Proof.Gen.Pre_finite_inputs
import proofs.«408352_j17944373363255_2_alg».proof.Proof.Gen.KernelIdeal
import proofs.«408352_j17944373363255_2_alg».proof.Proof.Spec
import Idealize.ShloMosaic.Lib.ReduceAll
import Idealize.ShloMosaic.Lib.ValueIdx
import Idealize.ShloMosaic.PureOps.Ideal

namespace Cert.Proof.PreReal

open Idealize.ShloMosaic Idealize.SL.Sem

instance : Subsingleton Cert.Pre_finite_inputs.S_.Idx := ⟨fun a b => funext fun d => d.elim0⟩

theorem isR_of_abs_lt_top (x : EReal)
    (h : Ideal.cmp .olt (max x (-x)) (Ideal.ofBits .f32 0x7F800000#32) = 1#1) : Gcn.IsR x := by

  have ht : Ideal.ofBits .f32 0x7F800000#32 = ⊤ := by simp [Ideal.ofBits, Ideal.ieee]
  rw [ht] at h

  have hlt : max x (-x) < ⊤ := by
    by_contra hn
    simp [Ideal.cmp, hn] at h

  induction x using EReal.rec with
  | bot => simp at hlt
  | coe r => exact ⟨r, rfl⟩
  | top => simp at hlt

theorem isR_of_entry {s : Shape} (hb : Cert.Pre_finite_inputs.S_.BroadcastsInDim s (![] : Fin 0 → Fin s.rank))
    (a : FVec Ideal s .f32) (i : s.Idx)
    (h : cmpf .olt (Host.absf a) (broadcastInDim s ![] hb (constant Cert.Pre_finite_inputs.S_ .f32 0x7F800000#32)) i = 1#1) :
    Gcn.IsR (a i) :=
  isR_of_abs_lt_top (a i) h

theorem of_fn (a0 : FVec Ideal Cert.Pre_finite_inputs.S50000x128 .f32) (a1 : IVec Cert.Pre_finite_inputs.S2x1600000 32)
    (a2 : FVec Ideal Cert.Pre_finite_inputs.S50000 .f32) (a3 : IVec Cert.Pre_finite_inputs.S50000 32)
    (a4 : FVec Ideal Cert.Pre_finite_inputs.S3x128x128 .f32) (a5 a6 a7 : FVec Ideal Cert.Pre_finite_inputs.S3x128 .f32)
    (a8 : FVec Ideal Cert.Pre_finite_inputs.S128x1 .f32) (a9 : FVec Ideal Cert.Pre_finite_inputs.S1 .f32)
    (h : Cert.Pre_finite_inputs.fn (F := Ideal) a0 a1 a2 a3 a4 a5 a6 a7 a8 a9 = (fun _ => 1#1)) :
    (∀ i, Gcn.IsR (a0 i)) ∧ (∀ i, Gcn.IsR (a2 i)) ∧ (∀ i, Gcn.IsR (a4 i)) ∧ (∀ i, Gcn.IsR (a5 i))
      ∧ (∀ i, Gcn.IsR (a6 i)) ∧ (∀ i, Gcn.IsR (a7 i)) := by

  have h0 := congrFun h ValueIdx.ix0
  dsimp only [Cert.Pre_finite_inputs.fn, Cert.Pre_finite_inputs.fn_part1, Cert.Pre_finite_inputs.fn_part2] at h0

  obtain ⟨h0, h9⟩ := IntOp.andi_eq_one.1 h0
  obtain ⟨h0, h8⟩ := IntOp.andi_eq_one.1 h0
  obtain ⟨h0, h7⟩ := IntOp.andi_eq_one.1 h0
  obtain ⟨h0, h6⟩ := IntOp.andi_eq_one.1 h0
  obtain ⟨h0, h5⟩ := IntOp.andi_eq_one.1 h0
  obtain ⟨h0, h4⟩ := IntOp.andi_eq_one.1 h0
  obtain ⟨h0, h2⟩ := IntOp.andi_eq_one.1 h0

  exact ⟨fun i => isR_of_entry _ a0 i (Host.reduce_andi_all _ _ _ _ _ h0 i),
    fun i => isR_of_entry _ a2 i (Host.reduce_andi_all _ _ _ _ _ h2 i),
    fun i => isR_of_entry _ a4 i (Host.reduce_andi_all _ _ _ _ _ h4 i),
    fun i => isR_of_entry _ a5 i (Host.reduce_andi_all _ _ _ _ _ h5 i),
    fun i => isR_of_entry _ a6 i (Host.reduce_andi_all _ _ _ _ _ h6 i),
    fun i => isR_of_entry _ a7 i (Host.reduce_andi_all _ _ _ _ _ h7 i)⟩

/-- Under the precondition every entry of every float argument is a real number. -/
theorem of_pre (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, Gcn.IsR (m ((c.tc : Thread Cert.KernelIdeal.nD Cert.KernelIdeal.τ).loc Cert.KernelIdeal.main_arg0) i))
      ∧ (∀ i, Gcn.IsR (m ((c.tc : Thread Cert.KernelIdeal.nD Cert.KernelIdeal.τ).loc Cert.KernelIdeal.main_arg2) i))
      ∧ (∀ i, Gcn.IsR (m ((c.tc : Thread Cert.KernelIdeal.nD Cert.KernelIdeal.τ).loc Cert.KernelIdeal.main_arg4) i))
      ∧ (∀ i, Gcn.IsR (m ((c.tc : Thread Cert.KernelIdeal.nD Cert.KernelIdeal.τ).loc Cert.KernelIdeal.main_arg5) i))
      ∧ (∀ i, Gcn.IsR (m ((c.tc : Thread Cert.KernelIdeal.nD Cert.KernelIdeal.τ).loc Cert.KernelIdeal.main_arg6) i))
      ∧ (∀ i, Gcn.IsR (m ((c.tc : Thread Cert.KernelIdeal.nD Cert.KernelIdeal.τ).loc Cert.KernelIdeal.main_arg7) i)) :=
  of_fn _ _ _ _ _ _ _ _ _ _ (h c)

end Cert.Proof.PreReal
-- ==== Proof.lean ====
import proofs.«408352_j17944373363255_2_alg».proof.Defs
import proofs.«408352_j17944373363255_2_alg».proof.Proof.Gen.Kernel
import proofs.«408352_j17944373363255_2_alg».proof.Proof.Gen.Kernel.Skeleton
import proofs.«408352_j17944373363255_2_alg».proof.Proof.Gen.Kernel.Launch
import proofs.«408352_j17944373363255_2_alg».proof.Proof.Gen.Kernel.Points
import proofs.«408352_j17944373363255_2_alg».proof.Proof.Gen.Kernel.Frame
import proofs.«408352_j17944373363255_2_alg».proof.Proof.Gen.KernelIdeal
import proofs.«408352_j17944373363255_2_alg».proof.Proof.Gen.KernelIdeal.Skeleton
import proofs.«408352_j17944373363255_2_alg».proof.Proof.Gen.KernelIdeal.Launch
import proofs.«408352_j17944373363255_2_alg».proof.Proof.Gen.KernelIdeal.Points
import proofs.«408352_j17944373363255_2_alg».proof.Proof.Gen.KernelIdeal.Frame
import proofs.«408352_j17944373363255_2_alg».proof.Proof.Gen.ReferenceIdeal
import proofs.«408352_j17944373363255_2_alg».proof.Proof.Gen.Pre_finite_inputs
import proofs.«408352_j17944373363255_2_alg».proof.Proof.KRun
import proofs.«408352_j17944373363255_2_alg».proof.Proof.KVal
import proofs.«408352_j17944373363255_2_alg».proof.Proof.RefRun
import proofs.«408352_j17944373363255_2_alg».proof.Proof.RVal
import proofs.«408352_j17944373363255_2_alg».proof.Proof.Law
import proofs.«408352_j17944373363255_2_alg».proof.Proof.SharedReal
import proofs.«408352_j17944373363255_2_alg».proof.Proof.PreReal
import Idealize.ShloMosaic.Adequacy
import Idealize.ShloMosaic.Init

noncomputable section

namespace Cert.Proof

open Idealize.ShloMosaic Idealize.ShloMosaic.ValueIdx Idealize.SL.Sem
open Cert.ReferenceIdeal.Shared (msg dd maskOf wtOf rowOf P tail msg_real dd_real)
open Cert.ReferenceIdeal.RVal (keep_arg)

def outOf (a0 : Gcn.Arr) (a1 : IVec Cert.ReferenceIdeal.S2x1600000 32) (a2 : FVec Ideal Cert.ReferenceIdeal.S50000 .f32)
    (a3 : IVec Cert.ReferenceIdeal.S50000 32) (a4 : FVec Ideal Cert.ReferenceIdeal.S3x128x128 .f32)
    (a5 a6 a7 : FVec Ideal Cert.ReferenceIdeal.S3x128 .f32) (a8 : FVec Ideal Cert.ReferenceIdeal.S128x1 .f32)
    (a9 : FVec Ideal Cert.ReferenceIdeal.S1 .f32) : FVec Ideal Cert.ReferenceIdeal.S64 .f32 :=
  tail (Gcn.poolR (P a3) (maskOf a2) (Gcn.netR (msg a1) (dd a1) (maskOf a2) (wtOf a4) (rowOf a5) (rowOf a6) (rowOf a7) a0)) a3 a8 a9

theorem arrangements_agree (a0 : Gcn.Arr) (a1 : IVec Cert.ReferenceIdeal.S2x1600000 32) (a2 : FVec Ideal Cert.ReferenceIdeal.S50000 .f32)
    (a3 : IVec Cert.ReferenceIdeal.S50000 32) (a4 : FVec Ideal Cert.ReferenceIdeal.S3x128x128 .f32)
    (a5 a6 a7 : FVec Ideal Cert.ReferenceIdeal.S3x128 .f32) (a8 : FVec Ideal Cert.ReferenceIdeal.S128x1 .f32)
    (a9 : FVec Ideal Cert.ReferenceIdeal.S1 .f32)
    (h0 : ∀ i, Gcn.IsR (a0 i)) (h2 : ∀ i, Gcn.IsR (a2 i)) (h4 : ∀ i, Gcn.IsR (a4 i)) (h5 : ∀ i, Gcn.IsR (a5 i))
    (h6 : ∀ i, Gcn.IsR (a6 i)) (h7 : ∀ i, Gcn.IsR (a7 i)) :
    tail (Gcn.poolK (P a3) (maskOf a2) (Gcn.netK (msg a1) (dd a1) (maskOf a2) (wtOf a4) (rowOf a5) (rowOf a6) (rowOf a7) a0)) a3 a8 a9
      = outOf a0 a1 a2 a3 a4 a5 a6 a7 a8 a9 := by
  unfold outOf
  rw [Gcn.pool_eq, Gcn.net_eq (msg a1) (dd a1) (maskOf a2) (wtOf a4) (rowOf a5) (rowOf a6) (rowOf a7) a0
    (fun u hu => msg_real a1 u hu) (dd_real a1) (fun n => h2 (ix1 n)) (fun l k d => h4 (ix3 l k d))
    (fun l d => h5 (ix2 l d)) (fun l d => h6 (ix2 l d)) (fun l d => h7 (ix2 l d)) h0]

theorem frame_k : Cert.frame_Kernel := fun m ρ _ => Cert.Kernel.Gen.frame m ρ
theorem frame_ki : Cert.frame_KernelIdeal := fun m ρ _ => Cert.KernelIdeal.Gen.frame m ρ

/-- The reference's run leaves every buffer at the fold of its operations, and no operation writes an argument. -/
theorem frame_ri : Cert.frame_ReferenceIdeal := fun m ρ _ =>
  (θ_run Cert.ReferenceIdeal.defs _ _).mono (fun r h c =>
    ⟨(h c _).trans (keep_arg m c _ (by decide)), (h c _).trans (keep_arg m c _ (by decide)),
     (h c _).trans (keep_arg m c _ (by decide)), (h c _).trans (keep_arg m c _ (by decide)),
     (h c _).trans (keep_arg m c _ (by decide)), (h c _).trans (keep_arg m c _ (by decide)),
     (h c _).trans (keep_arg m c _ (by decide)), (h c _).trans (keep_arg m c _ (by decide)),
     (h c _).trans (keep_arg m c _ (by decide)), (h c _).trans (keep_arg m c _ (by decide))⟩)
    (Cert.ReferenceIdeal.RefRun.run (F := Ideal) m ρ)

theorem algebraic : Cert.algebraic_KernelIdeal_ReferenceIdeal := by
  intro m ρ m' ρ' hpre hagree
  refine ⟨fun c => outOf (Cert.KernelIdeal.KBase.a0 m c) (Cert.KernelIdeal.KBase.a1 m c) (Cert.KernelIdeal.KBase.a2 m c)
      (Cert.KernelIdeal.KBase.a3 m c) (Cert.KernelIdeal.KBase.a4 m c) (Cert.KernelIdeal.KBase.a5 m c) (Cert.KernelIdeal.KBase.a6 m c)
      (Cert.KernelIdeal.KBase.a7 m c) (Cert.KernelIdeal.KBase.a8 m c) (Cert.KernelIdeal.KBase.a9 m c), ?_, ?_⟩
  · refine (θ_run Cert.KernelIdeal.defs _ _).mono (fun r h c => ⟨(h c).1.trans ?_, (h c).2⟩)
      (Cert.KernelIdeal.KRun.run (F := Ideal) m ρ)
    obtain ⟨h0, h2, h4, h5, h6, h7⟩ := Cert.Proof.PreReal.of_pre m hpre c
    exact (Cert.KernelIdeal.KVal.result m ρ c).trans (arrangements_agree _ _ _ _ _ _ _ _ _ _ h0 h2 h4 h5 h6 h7)
  · refine (θ_run Cert.ReferenceIdeal.defs _ _).mono (fun r h c =>
      ⟨(h c _).trans ((Cert.ReferenceIdeal.RVal.result m' c).trans ?_),
       (h c _).trans (keep_arg m' c _ (by decide)), (h c _).trans (keep_arg m' c _ (by decide)),
       (h c _).trans (keep_arg m' c _ (by decide)), (h c _).trans (keep_arg m' c _ (by decide)),
       (h c _).trans (keep_arg m' c _ (by decide)), (h c _).trans (keep_arg m' c _ (by decide)),
       (h c _).trans (keep_arg m' c _ (by decide)), (h c _).trans (keep_arg m' c _ (by decide)),
       (h c _).trans (keep_arg m' c _ (by decide)), (h c _).trans (keep_arg m' c _ (by decide))⟩)
      (Cert.ReferenceIdeal.RefRun.run (F := Ideal) m' ρ')
    obtain ⟨e0, e1, e2, e3, e4, e5, e6, e7, e8, e9⟩ := hagree c
    rw [show Cert.ReferenceIdeal.RVal.a0 m' c = _ from e0, show Cert.ReferenceIdeal.RVal.a1 m' c = _ from e1,
      show Cert.ReferenceIdeal.RVal.a2 m' c = _ from e2, show Cert.ReferenceIdeal.RVal.a3 m' c = _ from e3,
      show Cert.ReferenceIdeal.RVal.a4 m' c = _ from e4, show Cert.ReferenceIdeal.RVal.a5 m' c = _ from e5,
      show Cert.ReferenceIdeal.RVal.a6 m' c = _ from e6, show Cert.ReferenceIdeal.RVal.a7 m' c = _ from e7,
      show Cert.ReferenceIdeal.RVal.a8 m' c = _ from e8, show Cert.ReferenceIdeal.RVal.a9 m' c = _ from e9]
    rfl

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
